-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v86) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x128 : Shape := ⟨3, ![1, 100000, 128]⟩
abbrev S1x500000x32 : Shape := ⟨3, ![1, 500000, 32]⟩
abbrev S500000x2 : Shape := ⟨2, ![500000, 2]⟩
abbrev S128x288 : Shape := ⟨2, ![128, 288]⟩
abbrev S128 : Shape := ⟨1, ![128]⟩
abbrev S32x128 : Shape := ⟨2, ![32, 128]⟩
abbrev S32 : Shape := ⟨1, ![32]⟩
abbrev S256x160 : Shape := ⟨2, ![256, 160]⟩
abbrev S256 : Shape := ⟨1, ![256]⟩
abbrev S128x256 : Shape := ⟨2, ![128, 256]⟩
abbrev S_ : Shape := ⟨0, ![]⟩

class Facts : Prop where
  bcast_S_S1x100000x128 : S_.BroadcastsInDim S1x100000x128 (![] : Fin 0 → Fin S1x100000x128.rank)
  reducesTo_S1x100000x128_S_d0_1_2 : S1x100000x128.ReducesTo [0, 1, 2] S_
  h_S_ : 0 < S_.numel
  bcast_S_S1x500000x32 : S_.BroadcastsInDim S1x500000x32 (![] : Fin 0 → Fin S1x500000x32.rank)
  reducesTo_S1x500000x32_S_d0_1_2 : S1x500000x32.ReducesTo [0, 1, 2] S_
  bcast_S_S128x288 : S_.BroadcastsInDim S128x288 (![] : Fin 0 → Fin S128x288.rank)
  reducesTo_S128x288_S_d0_1 : S128x288.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S256x160 : S_.BroadcastsInDim S256x160 (![] : Fin 0 → Fin S256x160.rank)
  reducesTo_S256x160_S_d0_1 : S256x160.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S500000x2 : S_.BroadcastsInDim S500000x2 (![] : Fin 0 → Fin S500000x2.rank)
  reducesTo_S500000x2_S_d0_1 : S500000x2.ReducesTo [0, 1] S_

variable [Facts]

def fn_part4 {F : FTy → Type} [FloatOps F] (main_arg2 : IVec S500000x2 32) (main_v63 : IVec S_ 1) (main_v67 : IVec S_ 1) : IVec S_ 1 :=
  let main_v68 : IVec S_ 1 := andi main_v63 main_v67
  let main_c_26 : IVec S_ 32 := constantI S_ 32 0#32
  let main_v69 : IVec S500000x2 32 := broadcastInDim S500000x2 ![] bcast_S_S500000x2 main_c_26
  let main_v70 : IVec S500000x2 1 := cmpi .sge main_arg2 main_v69
  let main_c_27 : IVec S_ 1 := constantI S_ 1 1#1
  let main_v71 : IVec S_ 1 := (fun x v => Host.reduce IntOp.andi x v reducesTo_S500000x2_S_d0_1 h_S_) main_v70 main_c_27
  let main_v72 : IVec S_ 1 := andi main_v68 main_v71
  let main_c_28 : IVec S_ 32 := constantI S_ 32 100000#32
  let main_v73 : IVec S500000x2 32 := broadcastInDim S500000x2 ![] bcast_S_S500000x2 main_c_28
  let main_v74 : IVec S500000x2 1 := cmpi .slt main_arg2 main_v73
  let main_c_29 : IVec S_ 1 := constantI S_ 1 1#1
  let main_v75 : IVec S_ 1 := (fun x v => Host.reduce IntOp.andi x v reducesTo_S500000x2_S_d0_1 h_S_) main_v74 main_c_29
  let main_v76 : IVec S_ 1 := andi main_v72 main_v75
  main_v76

def fn_part3 {F : FTy → Type} [FloatOps F] (main_arg2 : IVec S500000x2 32) (main_arg12 : FVec F S128 .f32) (main_arg13 : FVec F S128 .f32) (main_arg14 : FVec F S128 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_v63 main_v67

def fn_part2 {F : FTy → Type} [FloatOps F] (main_arg2 : IVec S500000x2 32) (main_arg8 : FVec F S32 .f32) (main_arg9 : FVec F S256x160 .f32) (main_arg10 : FVec F S256 .f32) (main_arg11 : FVec F S128x256 .f32) (main_arg12 : FVec F S128 .f32) (main_arg13 : FVec F S128 .f32) (main_arg14 : FVec F S128 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S256x160 .f32 := Host.absf main_arg9
  let main_cst_14 : FVec F S_ .f32 := constant S_ .f32 0x7F800000#32
  let main_v40 : FVec F S256x160 .f32 := broadcastInDim S256x160 ![] bcast_S_S256x160 main_cst_14
  let main_v41 : IVec S256x160 1 := cmpf .olt main_v39 main_v40
  let main_c_15 : IVec S_ 1 := constantI S_ 1 1#1
  let main_v42 : IVec S_ 1 := (fun x v => Host.reduce IntOp.andi x v reducesTo_S256x160_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg2 main_arg12 main_arg13 main_arg14 main_v48 main_v49 main_v50

def fn_part1 {F : FTy → Type} [FloatOps F] (main_arg2 : IVec S500000x2 32) (main_arg5 : FVec F S32x128 .f32) (main_arg6 : FVec F S32 .f32) (main_arg7 : FVec F S32 .f32) (main_arg8 : FVec F S32 .f32) (main_arg9 : FVec F S256x160 .f32) (main_arg10 : FVec F S256 .f32) (main_arg11 : FVec F S128x256 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S1x100000x128 .f32) (main_arg1 : FVec F S1x500000x32 .f32) (main_arg2 : IVec S500000x2 32) (main_arg3 : FVec F S128x288 .f32) (main_arg4 : FVec F S128 .f32) (main_arg5 : FVec F S32x128 .f32) (main_arg6 : FVec F S32 .f32) (main_arg7 : FVec F S32 .f32) (main_arg8 : FVec F S32 .f32) (main_arg9 : FVec F S256x160 .f32) (main_arg10 : FVec F S256 .f32) (main_arg11 : FVec F S128x256 .f32) (main_arg12 : FVec F S128 .f32) (main_arg13 : FVec F S128 .f32) (main_arg14 : FVec F S128 .f32) : IVec S_ 1 :=
  let main_v0 : FVec F S1x100000x128 .f32 := Host.absf main_arg0
  let main_cst : FVec F S_ .f32 := constant S_ .f32 0x7F800000#32
  let main_v1 : FVec F S1x100000x128 .f32 := broadcastInDim S1x100000x128 ![] bcast_S_S1x100000x128 main_cst
  let main_v2 : IVec S1x100000x128 1 := cmpf .olt main_v0 main_v1
  let main_c : IVec S_ 1 := constantI S_ 1 1#1
  let main_v3 : IVec S_ 1 := (fun x v => Host.reduce IntOp.andi x v reducesTo_S1x100000x128_S_d0_1_2 h_S_) main_v2 main_c
  let main_v4 : FVec F S1x500000x32 .f32 := Host.absf main_arg1
  let main_cst_0 : FVec F S_ .f32 := constant S_ .f32 0x7F800000#32
  let main_v5 : FVec F S1x500000x32 .f32 := broadcastInDim S1x500000x32 ![] bcast_S_S1x500000x32 main_cst_0
  let main_v6 : IVec S1x500000x32 1 := cmpf .olt main_v4 main_v5
  let main_c_1 : IVec S_ 1 := constantI S_ 1 1#1
  let main_v7 : IVec S_ 1 := (fun x v => Host.reduce IntOp.andi x v reducesTo_S1x500000x32_S_d0_1_2 h_S_) main_v6 main_c_1
  let main_v8 : IVec S_ 1 := andi main_v3 main_v7
  let main_v9 : FVec F S128x288 .f32 := Host.absf main_arg3
  let main_cst_2 : FVec F S_ .f32 := constant S_ .f32 0x7F800000#32
  let main_v10 : FVec F S128x288 .f32 := broadcastInDim S128x288 ![] bcast_S_S128x288 main_cst_2
  let main_v11 : IVec S128x288 1 := cmpf .olt main_v9 main_v10
  let main_c_3 : IVec S_ 1 := constantI S_ 1 1#1
  let main_v12 : IVec S_ 1 := (fun x v => Host.reduce IntOp.andi x v reducesTo_S128x288_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S1x100000x128 : Shape := ⟨3, ![1, 100000, 128]⟩
abbrev S1x500000x32 : Shape := ⟨3, ![1, 500000, 32]⟩
abbrev S500000x2 : Shape := ⟨2, ![500000, 2]⟩
abbrev S128x288 : Shape := ⟨2, ![128, 288]⟩
abbrev S128 : Shape := ⟨1, ![128]⟩
abbrev S32x128 : Shape := ⟨2, ![32, 128]⟩
abbrev S32 : Shape := ⟨1, ![32]⟩
abbrev S256x160 : Shape := ⟨2, ![256, 160]⟩
abbrev S256 : Shape := ⟨1, ![256]⟩
abbrev S128x256 : Shape := ⟨2, ![128, 256]⟩
abbrev S100000x128 : Shape := ⟨2, ![100000, 128]⟩
abbrev S500000x32 : Shape := ⟨2, ![500000, 32]⟩
abbrev S500000x1 : Shape := ⟨2, ![500000, 1]⟩
abbrev S500000 : Shape := ⟨1, ![500000]⟩
abbrev S_ : Shape := ⟨0, ![]⟩
abbrev S1 : Shape := ⟨1, ![1]⟩
abbrev S1x1 : Shape := ⟨2, ![1, 1]⟩
abbrev S500000x128 : Shape := ⟨2, ![500000, 128]⟩
abbrev S128x128 : Shape := ⟨2, ![128, 128]⟩
abbrev S128x32 : Shape := ⟨2, ![128, 32]⟩
abbrev S1x128 : Shape := ⟨2, ![1, 128]⟩
abbrev S1x32 : Shape := ⟨2, ![1, 32]⟩
abbrev S5000x128 : Shape := ⟨2, ![5000, 128]⟩
abbrev S5000x32 : Shape := ⟨2, ![5000, 32]⟩
abbrev S100000x32 : Shape := ⟨2, ![100000, 32]⟩
abbrev S256x128 : Shape := ⟨2, ![256, 128]⟩
abbrev S256x32 : Shape := ⟨2, ![256, 32]⟩
abbrev S32x256 : Shape := ⟨2, ![32, 256]⟩
abbrev S1x256 : Shape := ⟨2, ![1, 256]⟩
abbrev S2000x128 : Shape := ⟨2, ![2000, 128]⟩
abbrev S2000x32 : Shape := ⟨2, ![2000, 32]⟩
abbrev S2000x256 : Shape := ⟨2, ![2000, 256]⟩

abbrev nBuf : Space → Nat
  | .hbm => 164
  | .vmem => 47
  | .smem => 0
  | _ => 0

abbrev hbmTy0_0 (i : Nat) : BufTy := match i % 128 with
  | 0 => ⟨S1x100000x128, .f32⟩
  | 1 => ⟨S1x500000x32, .f32⟩
  | 2 => ⟨S500000x2, .i32⟩
  | 3 => ⟨S128x288, .f32⟩
  | 4 => ⟨S128, .f32⟩
  | 5 => ⟨S32x128, .f32⟩
  | 6 => ⟨S32, .f32⟩
  | 7 => ⟨S32, .f32⟩
  | 8 => ⟨S32, .f32⟩
  | 9 => ⟨S256x160, .f32⟩
  | 10 => ⟨S256, .f32⟩
  | 11 => ⟨S128x256, .f32⟩
  | 12 => ⟨S128, .f32⟩
  | 13 => ⟨S128, .f32⟩
  | 14 => ⟨S128, .f32⟩
  | 15 => ⟨S100000x128, .f32⟩
  | 16 => ⟨S500000x32, .f32⟩
  | 17 => ⟨S500000x1, .i32⟩
  | 18 => ⟨S500000, .i32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S500000x1, .i32⟩
  | 27 => ⟨S1, .i32⟩
  | 28 => ⟨S_, .i32⟩
  | 29 => ⟨S500000x1, .i32⟩
  | 30 => ⟨S500000x1, .i1⟩
  | 31 => ⟨S1x1, .i32⟩
  | 32 => ⟨S500000x1, .i32⟩
  | 33 => ⟨S500000x1, .i1⟩
  | 34 => ⟨S500000x1, .i1⟩
  | 35 => ⟨S_, .i1⟩
  | 36 => ⟨S500000, .i1⟩
  | 37 => ⟨S500000x128, .f32⟩
  | 38 => ⟨S500000x128, .i1⟩
  | 39 => ⟨S_, .f32⟩
  | 40 => ⟨S500000x128, .f32⟩
  | 41 => ⟨S500000x128, .f32⟩
  | 42 => ⟨S500000x1, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S1, .i32⟩
  | 53 => ⟨S_, .i32⟩
  | 54 => ⟨S500000x1, .i32⟩
  | 55 => ⟨S500000x1, .i1⟩
  | 56 => ⟨S1x1, .i32⟩
  | 57 => ⟨S500000x1, .i32⟩
  | 58 => ⟨S500000x1, .i1⟩
  | 59 => ⟨S500000x1, .i1⟩
  | 60 => ⟨S_, .i1⟩
  | 61 => ⟨S500000, .i1⟩
  | 62 => ⟨S500000x128, .f32⟩
  | 63 => ⟨S500000x128, .i1⟩
  | 64 => ⟨S_, .f32⟩
  | 65 => ⟨S500000x128, .f32⟩
  | 66 => ⟨S500000x128, .f32⟩
  | 67 => ⟨S128x128, .f32⟩
  | 68 => ⟨S128x128, .f32⟩
  | 69 => ⟨S128x128, .f32⟩
  | 70 => ⟨S128x128, .f32⟩
  | 71 => ⟨S128x32, .f32⟩
  | 72 => ⟨S32x128, .f32⟩
  | 73 => ⟨S128x32, .f32⟩
  | 74 => ⟨S1x128, .f32⟩
  | 75 => ⟨S1x32, .f32⟩
  | 76 => ⟨S500000x32, .f32⟩
  | 77 => ⟨S1x32, .f32⟩
  | 78 => ⟨S1x32, .f32⟩
  | 79 => ⟨S32, .f32⟩
  | 80 => ⟨S_, .f32⟩
  | 81 => ⟨S32, .f32⟩
  | 82 => ⟨S32, .f32⟩
  | 83 => ⟨S32, .f32⟩
  | 84 => ⟨S_, .f32⟩
  | 85 => ⟨S32, .f32⟩
  | 86 => ⟨S32, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S32, .f32⟩
  | 96 => ⟨S32, .f32⟩
  | 97 => ⟨S1x32, .f32⟩
  | 98 => ⟨S32, .f32⟩
  | 99 => ⟨S32, .f32⟩
  | 100 => ⟨S32, .f32⟩
  | 101 => ⟨S1x32, .f32⟩
  | 102 => ⟨S500000x32, .f32⟩
  | 103 => ⟨S500000x32, .f32⟩
  | 104 => ⟨S_, .f32⟩
  | 105 => ⟨S100000x32, .f32⟩
  | 106 => ⟨S500000x1, .i32⟩
  | 107 => ⟨S500000, .i32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S500000x1, .i32⟩
  | 116 => ⟨S100000x32, .f32⟩
  | 117 => ⟨S500000x1, .i32⟩
  | 118 => ⟨S500000, .i32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S100000x32, .f32⟩
  | _ => ⟨S1x100000x128, .f32⟩

abbrev hbmTy0_1 (i : Nat) : BufTy := match i % 128 with
  | 0 => ⟨S256x128, .f32⟩
  | 1 => ⟨S128x256, .f32⟩
  | 2 => ⟨S256x32, .f32⟩
  | 3 => ⟨S32x256, .f32⟩
  | 4 => ⟨S256x128, .f32⟩
  | 5 => ⟨S1x256, .f32⟩
  | 6 => ⟨S1x128, .f32⟩
  | 7 => ⟨S100000x128, .f32⟩
  | 8 => ⟨S1x128, .f32⟩
  | 9 => ⟨S1x128, .f32⟩
  | 10 => ⟨S128, .f32⟩
  | 11 => ⟨S_, .f32⟩
  | 12 => ⟨S128, .f32⟩
  | 13 => ⟨S128, .f32⟩
  | 14 => ⟨S128, .f32⟩
  | 15 => ⟨S_, .f32⟩
  | 16 => ⟨S128, .f32⟩
  | 17 => ⟨S128, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S128, .f32⟩
  | 27 => ⟨S128, .f32⟩
  | 28 => ⟨S1x128, .f32⟩
  | 29 => ⟨S128, .f32⟩
  | 30 => ⟨S128, .f32⟩
  | 31 => ⟨S128, .f32⟩
  | 32 => ⟨S1x128, .f32⟩
  | 33 => ⟨S100000x128, .f32⟩
  | 34 => ⟨S1x100000x128, .f32⟩
  | 35 => ⟨S1x500000x32, .f32⟩
  | _ => ⟨S1x100000x128, .f32⟩

abbrev hbmTy (i : Nat) : BufTy := match i / 128 with
  | 0 => hbmTy0_0 i
  | 1 => hbmTy0_1 i
  | _ => ⟨S1x100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x32, .f32⟩
  | .local _ .vmem, ⟨5, _⟩ => ⟨S5000x32, .f32⟩
  | .local _ .vmem, ⟨6, _⟩ => ⟨S128x128, .f32⟩
  | .local _ .vmem, ⟨7, _⟩ => ⟨S128x128, .f32⟩
  | .local _ .vmem, ⟨8, _⟩ => ⟨S32x128, .f32⟩
  | .local _ .vmem, ⟨9, _⟩ => ⟨S1x128, .f32⟩
  | .local _ .vmem, ⟨10, _⟩ => ⟨S128x32, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S1x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S1x32, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S2000x128, .f32⟩
  | .local _ .vmem, ⟨27, _⟩ => ⟨S2000x128, .f32⟩
  | .local _ .vmem, ⟨28, _⟩ => ⟨S2000x32, .f32⟩
  | .local _ .vmem, ⟨29, _⟩ => ⟨S2000x32, .f32⟩
  | .local _ .vmem, ⟨30, _⟩ => ⟨S128x256, .f32⟩
  | .local _ .vmem, ⟨31, _⟩ => ⟨S32x256, .f32⟩
  | .local _ .vmem, ⟨32, _⟩ => ⟨S1x256, .f32⟩
  | .local _ .vmem, ⟨33, _⟩ => ⟨S256x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | .local _ .vmem, ⟨37, _⟩ => ⟨S1x128, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S1x128, .f32⟩
  | .local _ .vmem, ⟨44, _⟩ => ⟨S1x128, .f32⟩
  | .local _ .vmem, ⟨45, _⟩ => ⟨S2000x128, .f32⟩
  | .local _ .vmem, ⟨46, _⟩ => ⟨S2000x128, .f32⟩
  | _, _ => ⟨S1x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17_0 : Ref sig .tc := ⟨.hbm, 76, rfl⟩
abbrev main_v17_1 : Ref sig .tc := ⟨.hbm, 77, rfl⟩
abbrev main_v17_2 : Ref sig .tc := ⟨.hbm, 78, rfl⟩
abbrev main_v18 : Ref sig .tc := ⟨.hbm, 79, rfl⟩
abbrev main_cst : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_0 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_1 : Ref sig .tc := ⟨.hbm, 89, rfl⟩
abbrev main_v26 : Ref sig .tc := ⟨.hbm, 90, rfl⟩
abbrev main_v27 : Ref sig .tc := ⟨.hbm, 91, rfl⟩
abbrev main_cst_2 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37_0 : Ref sig .tc := ⟨.hbm, 102, rfl⟩
abbrev main_v37_1 : Ref sig .tc := ⟨.hbm, 103, rfl⟩
abbrev main_cst_3 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_c : Ref sig .tc := ⟨.hbm, 108, rfl⟩
abbrev main_v41 : Ref sig .tc := ⟨.hbm, 109, rfl⟩
abbrev main_v42 : Ref sig .tc := ⟨.hbm, 110, rfl⟩
abbrev main_c_4 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_c_5 : Ref sig .tc := ⟨.hbm, 119, rfl⟩
abbrev main_v50 : Ref sig .tc := ⟨.hbm, 120, rfl⟩
abbrev main_v51 : Ref sig .tc := ⟨.hbm, 121, rfl⟩
abbrev main_c_6 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64_0 : Ref sig .tc := ⟨.hbm, 135, rfl⟩
abbrev main_v64_1 : Ref sig .tc := ⟨.hbm, 136, rfl⟩
abbrev main_v64_2 : Ref sig .tc := ⟨.hbm, 137, rfl⟩
abbrev main_v65 : Ref sig .tc := ⟨.hbm, 138, rfl⟩
abbrev main_cst_7 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_8 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_cst_9 : Ref sig .tc := ⟨.hbm, 148, rfl⟩
abbrev main_v73 : Ref sig .tc := ⟨.hbm, 149, rfl⟩
abbrev main_v74 : Ref sig .tc := ⟨.hbm, 150, rfl⟩
abbrev main_cst_10 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg9_0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg4_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem9_0 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem4_1 : DmaSem sig := 46

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S1x100000x128_S100000x128 : S1x100000x128.ShapeCasts S100000x128
  shapeCasts_S1x500000x32_S500000x32 : S1x500000x32.ShapeCasts S500000x32
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  slices_S500000x2_S500000x1_0_1 : S500000x2.Slices ![0, 1] S500000x1
  slices_S128x288_S128x128_0_0 : S128x288.Slices ![0, 0] S128x128
  transposes_S128x128_S128x128_1_0 : S128x128.Transposes [1, 0] S128x128
  slices_S128x288_S128x128_0_128 : S128x288.Slices ![0, 128] S128x128
  slices_S128x288_S128x32_0_256 : S128x288.Slices ![0, 256] S128x32
  transposes_S128x32_S32x128_1_0 : S128x32.Transposes [1, 0] S32x128
  transposes_S32x128_S128x32_1_0 : S32x128.Transposes [1, 0] S128x32
  shapeCasts_S128_S1x128 : S128.ShapeCasts S1x128
  shapeCasts_S32_S1x32 : S32.ShapeCasts S1x32
  inb_S1x32_S1x32_0_0 : ∀ a, (![0, 0] : Fin 2 → Nat) a + S1x32.size a ≤ S1x32.size a
  h_S1x32 : 0 < S1x32.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S1x32_S1x32 : S1x32.ShapeCasts S1x32
  broadcasts_S1x32_S5000x32 : S1x32.Broadcasts S5000x32
  reduces_S5000x32_S32 : S5000x32.Reduces [0] S32
  shapeCasts_S1x32_S32 : S1x32.ShapeCasts S32
  bcast_S_S32 : S_.BroadcastsInDim S32 (![] : Fin 0 → Fin S32.rank)
  bcast_S_S100000x32 : S_.BroadcastsInDim S100000x32 (![] : Fin 0 → Fin S100000x32.rank)
  slices_S256x160_S256x128_0_0 : S256x160.Slices ![0, 0] S256x128
  transposes_S256x128_S128x256_1_0 : S256x128.Transposes [1, 0] S128x256
  slices_S256x160_S256x32_0_128 : S256x160.Slices ![0, 128] S256x32
  transposes_S256x32_S32x256_1_0 : S256x32.Transposes [1, 0] S32x256
  transposes_S128x256_S256x128_1_0 : S128x256.Transposes [1, 0] S256x128
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  bcast_S100000x128_S1x100000x128_1_2 : S100000x128.BroadcastsInDim S1x100000x128 (![1, 2] : Fin 2 → Fin S1x100000x128.rank)
  bcast_S500000x32_S1x500000x32_1_2 : S500000x32.BroadcastsInDim S1x500000x32 (![1, 2] : Fin 2 → Fin S1x500000x32.rank)
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  dot_S5000x128_S128x32_S5000x32_1_0_0_1_n_n_wf : DotDims.WF S5000x128 S128x32 S5000x32 [1] [0] [0] [1] [] []
  scatter_S100000x32_S500000x1_S500000x32_1_0_0_1_wf : ScatterDims.WF S100000x32 S500000x1 S500000x32 [1] [0] [0] 1
  dot_S2000x128_S128x256_S2000x256_1_0_0_1_n_n_wf : DotDims.WF S2000x128 S128x256 S2000x256 [1] [0] [0] [1] [] []
  dot_S2000x32_S32x256_S2000x256_1_0_0_1_n_n_wf : DotDims.WF S2000x32 S32x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S500000x32.size a
  hwx0_2 : ∀ i : grid0.Coords, EltTy.bits .f32 = 32 ∨ (Rect.block (s := S500000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x32.size a ≤ S128x32.size a
  hwx0_7 : ∀ i : grid0.Coords, EltTy.bits .f32 = 32 ∨ (Rect.block (s := S128x32) S128x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S500000x32.size a
  hwx0_9 : ∀ i : grid0.Coords, EltTy.bits .f32 = 32 ∨ (Rect.block (s := S500000x32) S5000x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S500000x32.size a
  hwx1_0 : ∀ i : grid1.Coords, EltTy.bits .f32 = 32 ∨ (Rect.block (s := S500000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S500000x32.size a
  hwx1_1 : ∀ i : grid1.Coords, EltTy.bits .f32 = 32 ∨ (Rect.block (s := S500000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S500000x32.size a
  hwx1_4 : ∀ i : grid1.Coords, EltTy.bits .f32 = 32 ∨ (Rect.block (s := S500000x32) S5000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S500000x32.size a
  hwx1_5 : ∀ i : grid1.Coords, EltTy.bits .f32 = 32 ∨ (Rect.block (s := S500000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x256.size a ≤ S32x256.size a
  hwx2_3 : ∀ i : grid2.Coords, EltTy.bits .f32 = 32 ∨ (Rect.block (s := S32x256) S32x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .f32 = 32 ∨ (Rect.block (s := S256x128) S256x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def scatter_S100000x32_S500000x1_S500000x32_1_0_0_1 : ScatterDims S100000x32 S500000x1 S500000x32 where
  updateWindowDims := [1]
  insertedWindowDims := [0]
  scatterDimsToOperandDims := [0]
  indexVectorDim := 1
  wf := scatter_S100000x32_S500000x1_S500000x32_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S128x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17_0) S5000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v17_1) S1x32.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17_2) S1x32.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v17_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37_0) S5000x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37_1) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S32x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v64_1) S1x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v64_2) S1x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v64_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S1x100000x128 : Shape := ⟨3, ![1, 100000, 128]⟩
abbrev S1x500000x32 : Shape := ⟨3, ![1, 500000, 32]⟩
abbrev S500000x2 : Shape := ⟨2, ![500000, 2]⟩
abbrev S128x288 : Shape := ⟨2, ![128, 288]⟩
abbrev S128 : Shape := ⟨1, ![128]⟩
abbrev S32x128 : Shape := ⟨2, ![32, 128]⟩
abbrev S32 : Shape := ⟨1, ![32]⟩
abbrev S256x160 : Shape := ⟨2, ![256, 160]⟩
abbrev S256 : Shape := ⟨1, ![256]⟩
abbrev S128x256 : Shape := ⟨2, ![128, 256]⟩
abbrev S500000x1 : Shape := ⟨2, ![500000, 1]⟩
abbrev S500000 : Shape := ⟨1, ![500000]⟩
abbrev S_ : Shape := ⟨0, ![]⟩
abbrev S1x500000x128 : Shape := ⟨3, ![1, 500000, 128]⟩
abbrev S1x500000x288 : Shape := ⟨3, ![1, 500000, 288]⟩
abbrev S1x1x128 : Shape := ⟨3, ![1, 1, 128]⟩
abbrev S1x1x32 : Shape := ⟨3, ![1, 1, 32]⟩
abbrev S500000x32 : Shape := ⟨2, ![500000, 32]⟩
abbrev S1x32 : Shape := ⟨2, ![1, 32]⟩
abbrev S100000x32 : Shape := ⟨2, ![100000, 32]⟩
abbrev S1x100000x32 : Shape := ⟨3, ![1, 100000, 32]⟩
abbrev S1x100000x160 : Shape := ⟨3, ![1, 100000, 160]⟩
abbrev S1x100000x256 : Shape := ⟨3, ![1, 100000, 256]⟩
abbrev S1x1x256 : Shape := ⟨3, ![1, 1, 256]⟩
abbrev S100000x128 : Shape := ⟨2, ![100000, 128]⟩
abbrev S1x128 : Shape := ⟨2, ![1, 128]⟩

abbrev nBuf : Space → Nat
  | .hbm => 235
  | .vmem => 0
  | .smem => 0
  | _ => 0

abbrev hbmTy0_0 (i : Nat) : BufTy := match i % 128 with
  | 0 => ⟨S1x100000x128, .f32⟩
  | 1 => ⟨S1x500000x32, .f32⟩
  | 2 => ⟨S500000x2, .i32⟩
  | 3 => ⟨S128x288, .f32⟩
  | 4 => ⟨S128, .f32⟩
  | 5 => ⟨S32x128, .f32⟩
  | 6 => ⟨S32, .f32⟩
  | 7 => ⟨S32, .f32⟩
  | 8 => ⟨S32, .f32⟩
  | 9 => ⟨S256x160, .f32⟩
  | 10 => ⟨S256, .f32⟩
  | 11 => ⟨S128x256, .f32⟩
  | 12 => ⟨S128, .f32⟩
  | 13 => ⟨S128, .f32⟩
  | 14 => ⟨S128, .f32⟩
  | 15 => ⟨S500000x1, .i32⟩
  | 16 => ⟨S500000, .i32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S1x500000x128, .f32⟩
  | 26 => ⟨S500000x1, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S1x500000x128, .f32⟩
  | 37 => ⟨S1x500000x288, .f32⟩
  | 38 => ⟨S1x500000x128, .f32⟩
  | 39 => ⟨S1x1x128, .f32⟩
  | 40 => ⟨S1x500000x128, .f32⟩
  | 41 => ⟨S1x500000x128, .f32⟩
  | 42 => ⟨S_, .f32⟩
  | 43 => ⟨S1x500000x128, .f32⟩
  | 44 => ⟨S1x500000x128, .i1⟩
  | 45 => ⟨S_, .f32⟩
  | 46 => ⟨S1x500000x128, .f32⟩
  | 47 => ⟨S1x500000x128, .i1⟩
  | 48 => ⟨S_, .f32⟩
  | 49 => ⟨S_, .f32⟩
  | 50 => ⟨S1x500000x128, .f32⟩
  | 51 => ⟨S1x500000x128, .f32⟩
  | 52 => ⟨S1x500000x128, .f32⟩
  | 53 => ⟨S_, .f32⟩
  | 54 => ⟨S1x500000x128, .f32⟩
  | 55 => ⟨S1x500000x128, .f32⟩
  | 56 => ⟨S1x500000x128, .f32⟩
  | 57 => ⟨S1x500000x32, .f32⟩
  | 58 => ⟨S1x1x32, .f32⟩
  | 59 => ⟨S1x500000x32, .f32⟩
  | 60 => ⟨S1x500000x32, .f32⟩
  | 61 => ⟨S_, .f32⟩
  | 62 => ⟨S1x500000x32, .f32⟩
  | 63 => ⟨S1x500000x32, .i1⟩
  | 64 => ⟨S_, .f32⟩
  | 65 => ⟨S1x500000x32, .f32⟩
  | 66 => ⟨S1x500000x32, .i1⟩
  | 67 => ⟨S_, .f32⟩
  | 68 => ⟨S_, .f32⟩
  | 69 => ⟨S1x500000x32, .f32⟩
  | 70 => ⟨S1x500000x32, .f32⟩
  | 71 => ⟨S1x500000x32, .f32⟩
  | 72 => ⟨S_, .f32⟩
  | 73 => ⟨S1x500000x32, .f32⟩
  | 74 => ⟨S1x500000x32, .f32⟩
  | 75 => ⟨S1x500000x32, .f32⟩
  | 76 => ⟨S500000x32, .f32⟩
  | 77 => ⟨S_, .f32⟩
  | 78 => ⟨S32, .f32⟩
  | 79 => ⟨S_, .f32⟩
  | 80 => ⟨S32, .f32⟩
  | 81 => ⟨S32, .f32⟩
  | 82 => ⟨S_, .i32⟩
  | 83 => ⟨S_, .f32⟩
  | 84 => ⟨S32, .f32⟩
  | 85 => ⟨S1x32, .f32⟩
  | 86 => ⟨S_, .f32⟩
  | 87 => ⟨S1x32, .f32⟩
  | 88 => ⟨S1x32, .f32⟩
  | 89 => ⟨S500000x32, .f32⟩
  | 90 => ⟨S500000x32, .f32⟩
  | 91 => ⟨S500000x32, .f32⟩
  | 92 => ⟨S_, .f32⟩
  | 93 => ⟨S_, .f32⟩
  | 94 => ⟨S_, .f32⟩
  | 95 => ⟨S_, .f32⟩
  | 96 => ⟨S32, .f32⟩
  | 97 => ⟨S32, .f32⟩
  | 98 => ⟨S32, .f32⟩
  | 99 => ⟨S_, .f32⟩
  | 100 => ⟨S_, .i1⟩
  | 101 => ⟨S_, .f32⟩
  | 102 => ⟨S_, .f32⟩
  | 103 => ⟨S32, .f32⟩
  | 104 => ⟨S32, .f32⟩
  | 105 => ⟨S1x32, .f32⟩
  | 106 => ⟨S500000x32, .f32⟩
  | 107 => ⟨S500000x32, .f32⟩
  | 108 => ⟨S_, .f32⟩
  | 109 => ⟨S32, .f32⟩
  | 110 => ⟨S32, .f32⟩
  | 111 => ⟨S32, .f32⟩
  | 112 => ⟨S1x32, .f32⟩
  | 113 => ⟨S500000x32, .f32⟩
  | 114 => ⟨S500000x32, .f32⟩
  | 115 => ⟨S1x32, .f32⟩
  | 116 => ⟨S500000x32, .f32⟩
  | 117 => ⟨S500000x32, .f32⟩
  | 118 => ⟨S1x32, .f32⟩
  | 119 => ⟨S500000x32, .f32⟩
  | 120 => ⟨S500000x32, .f32⟩
  | 121 => ⟨S1x500000x32, .f32⟩
  | 122 => ⟨S500000x32, .f32⟩
  | 123 => ⟨S_, .f32⟩
  | 124 => ⟨S100000x32, .f32⟩
  | 125 => ⟨S500000x1, .i32⟩
  | 126 => ⟨S500000, .i32⟩
  | 127 => ⟨S_, .i32⟩
  | _ => ⟨S1x100000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S100000x32, .f32⟩
  | 8 => ⟨S500000x1, .i32⟩
  | 9 => ⟨S500000, .i32⟩
  | 10 => ⟨S_, .i32⟩
  | 11 => ⟨S500000, .i32⟩
  | 12 => ⟨S500000, .i1⟩
  | 13 => ⟨S_, .i32⟩
  | 14 => ⟨S500000, .i32⟩
  | 15 => ⟨S500000, .i32⟩
  | 16 => ⟨S500000, .i32⟩
  | 17 => ⟨S500000x1, .i32⟩
  | 18 => ⟨S100000x32, .f32⟩
  | 19 => ⟨S1x100000x32, .f32⟩
  | 20 => ⟨S1x100000x160, .f32⟩
  | 21 => ⟨S1x100000x256, .f32⟩
  | 22 => ⟨S1x1x256, .f32⟩
  | 23 => ⟨S1x100000x256, .f32⟩
  | 24 => ⟨S1x100000x256, .f32⟩
  | 25 => ⟨S_, .f32⟩
  | 26 => ⟨S1x100000x256, .f32⟩
  | 27 => ⟨S1x100000x256, .i1⟩
  | 28 => ⟨S_, .f32⟩
  | 29 => ⟨S1x100000x256, .f32⟩
  | 30 => ⟨S1x100000x256, .i1⟩
  | 31 => ⟨S_, .f32⟩
  | 32 => ⟨S_, .f32⟩
  | 33 => ⟨S1x100000x256, .f32⟩
  | 34 => ⟨S1x100000x256, .f32⟩
  | 35 => ⟨S1x100000x256, .f32⟩
  | 36 => ⟨S_, .f32⟩
  | 37 => ⟨S1x100000x256, .f32⟩
  | 38 => ⟨S1x100000x256, .f32⟩
  | 39 => ⟨S1x100000x256, .f32⟩
  | 40 => ⟨S1x100000x128, .f32⟩
  | 41 => ⟨S1x1x128, .f32⟩
  | 42 => ⟨S1x100000x128, .f32⟩
  | 43 => ⟨S1x100000x128, .f32⟩
  | 44 => ⟨S_, .f32⟩
  | 45 => ⟨S1x100000x128, .f32⟩
  | 46 => ⟨S1x100000x128, .i1⟩
  | 47 => ⟨S_, .f32⟩
  | 48 => ⟨S1x100000x128, .f32⟩
  | 49 => ⟨S1x100000x128, .i1⟩
  | 50 => ⟨S_, .f32⟩
  | 51 => ⟨S_, .f32⟩
  | 52 => ⟨S1x100000x128, .f32⟩
  | 53 => ⟨S1x100000x128, .f32⟩
  | 54 => ⟨S1x100000x128, .f32⟩
  | 55 => ⟨S_, .f32⟩
  | 56 => ⟨S1x100000x128, .f32⟩
  | 57 => ⟨S1x100000x128, .f32⟩
  | 58 => ⟨S1x100000x128, .f32⟩
  | 59 => ⟨S100000x128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x100000x128, .f32⟩
  | 105 => ⟨S1x100000x128, .f32⟩
  | 106 => ⟨S1x500000x32, .f32⟩
  | _ => ⟨S1x100000x128, .f32⟩

abbrev hbmTy (i : Nat) : BufTy := match i / 128 with
  | 0 => hbmTy0_0 i
  | 1 => hbmTy0_1 i
  | _ => ⟨S1x100000x128, .f32⟩

abbrev bufTy : (tb : Table) → Fin (tcTables nBuf tb) → BufTy
  | .hbm, ⟨i, _⟩ => hbmTy i
  | _, _ => ⟨S1x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_cst_1 : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_v4 : Ref sig .tc := ⟨.hbm, 51, rfl⟩
abbrev main_call0_v5 : Ref sig .tc := ⟨.hbm, 52, rfl⟩
abbrev main_call0_cst_2 : Ref sig .tc := ⟨.hbm, 53, rfl⟩
abbrev main_call0_v6 : Ref sig .tc := ⟨.hbm, 54, rfl⟩
abbrev main_call0_v7 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_cst_0 : Ref sig .tc := ⟨.hbm, 64, rfl⟩
abbrev main_call1_v2 : Ref sig .tc := ⟨.hbm, 65, rfl⟩
abbrev main_call1_v3 : Ref sig .tc := ⟨.hbm, 66, rfl⟩
abbrev main_call1_cst_1 : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_v4 : Ref sig .tc := ⟨.hbm, 70, rfl⟩
abbrev main_call1_v5 : Ref sig .tc := ⟨.hbm, 71, rfl⟩
abbrev main_call1_cst_2 : Ref sig .tc := ⟨.hbm, 72, rfl⟩
abbrev main_call1_v6 : Ref sig .tc := ⟨.hbm, 73, rfl⟩
abbrev main_call1_v7 : Ref sig .tc := ⟨.hbm, 74, rfl⟩
abbrev main_v28 : Ref sig .tc := ⟨.hbm, 75, rfl⟩
abbrev main_v29 : Ref sig .tc := ⟨.hbm, 76, rfl⟩
abbrev main_cst : Ref sig .tc := ⟨.hbm, 77, rfl⟩
abbrev main_v30 : Ref sig .tc := ⟨.hbm, 78, rfl⟩
abbrev main_cst_3 : Ref sig .tc := ⟨.hbm, 79, rfl⟩
abbrev main_v31 : Ref sig .tc := ⟨.hbm, 80, rfl⟩
abbrev main_v32 : Ref sig .tc := ⟨.hbm, 81, rfl⟩
abbrev main_c_4 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_cst_3 : Ref sig .tc := ⟨.hbm, 99, rfl⟩
abbrev main_call2_v12 : Ref sig .tc := ⟨.hbm, 100, rfl⟩
abbrev main_call2_cst_4 : Ref sig .tc := ⟨.hbm, 101, rfl⟩
abbrev main_call2_call0_v0 : Ref sig .tc := ⟨.hbm, 102, rfl⟩
abbrev main_call2_call0_v1 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_cst_5 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_6 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_c_7 : Ref sig .tc := ⟨.hbm, 127, rfl⟩
abbrev main_v54 : Ref sig .tc := ⟨.hbm, 128, rfl⟩
abbrev main_v55 : Ref sig .tc := ⟨.hbm, 129, rfl⟩
abbrev main_c_8 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_c_9 : Ref sig .tc := ⟨.hbm, 138, rfl⟩
abbrev main_v63 : Ref sig .tc := ⟨.hbm, 139, rfl⟩
abbrev main_v64 : Ref sig .tc := ⟨.hbm, 140, rfl⟩
abbrev main_c_10 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_call3_cst : Ref sig .tc := ⟨.hbm, 153, rfl⟩
abbrev main_call3_v0 : Ref sig .tc := ⟨.hbm, 154, rfl⟩
abbrev main_call3_v1 : Ref sig .tc := ⟨.hbm, 155, rfl⟩
abbrev main_call3_cst_0 : Ref sig .tc := ⟨.hbm, 156, rfl⟩
abbrev main_call3_v2 : Ref sig .tc := ⟨.hbm, 157, rfl⟩
abbrev main_call3_v3 : Ref sig .tc := ⟨.hbm, 158, rfl⟩
abbrev main_call3_cst_1 : Ref sig .tc := ⟨.hbm, 159, rfl⟩
abbrev main_call3_call0_v0 : Ref sig .tc := ⟨.hbm, 160, rfl⟩
abbrev main_call3_call0_v1 : Ref sig .tc := ⟨.hbm, 161, rfl⟩
abbrev main_call3_v4 : Ref sig .tc := ⟨.hbm, 162, rfl⟩
abbrev main_call3_v5 : Ref sig .tc := ⟨.hbm, 163, rfl⟩
abbrev main_call3_cst_2 : Ref sig .tc := ⟨.hbm, 164, rfl⟩
abbrev main_call3_v6 : Ref sig .tc := ⟨.hbm, 165, rfl⟩
abbrev main_call3_v7 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_call4_cst : Ref sig .tc := ⟨.hbm, 172, rfl⟩
abbrev main_call4_v0 : Ref sig .tc := ⟨.hbm, 173, rfl⟩
abbrev main_call4_v1 : Ref sig .tc := ⟨.hbm, 174, rfl⟩
abbrev main_call4_cst_0 : Ref sig .tc := ⟨.hbm, 175, rfl⟩
abbrev main_call4_v2 : Ref sig .tc := ⟨.hbm, 176, rfl⟩
abbrev main_call4_v3 : Ref sig .tc := ⟨.hbm, 177, rfl⟩
abbrev main_call4_cst_1 : Ref sig .tc := ⟨.hbm, 178, rfl⟩
abbrev main_call4_call0_v0 : Ref sig .tc := ⟨.hbm, 179, rfl⟩
abbrev main_call4_call0_v1 : Ref sig .tc := ⟨.hbm, 180, rfl⟩
abbrev main_call4_v4 : Ref sig .tc := ⟨.hbm, 181, rfl⟩
abbrev main_call4_v5 : Ref sig .tc := ⟨.hbm, 182, rfl⟩
abbrev main_call4_cst_2 : Ref sig .tc := ⟨.hbm, 183, rfl⟩
abbrev main_call4_v6 : Ref sig .tc := ⟨.hbm, 184, rfl⟩
abbrev main_call4_v7 : Ref sig .tc := ⟨.hbm, 185, rfl⟩
abbrev main_v81 : Ref sig .tc := ⟨.hbm, 186, rfl⟩
abbrev main_v82 : Ref sig .tc := ⟨.hbm, 187, rfl⟩
abbrev main_cst_11 : Ref sig .tc := ⟨.hbm, 188, rfl⟩
abbrev main_v83 : Ref sig .tc := ⟨.hbm, 189, rfl⟩
abbrev main_cst_12 : Ref sig .tc := ⟨.hbm, 190, rfl⟩
abbrev main_v84 : Ref sig .tc := ⟨.hbm, 191, rfl⟩
abbrev main_v85 : Ref sig .tc := ⟨.hbm, 192, rfl⟩
abbrev main_c_13 : Ref sig .tc := ⟨.hbm, 193, rfl⟩
abbrev main_call5_cst : Ref sig .tc := ⟨.hbm, 194, rfl⟩
abbrev main_call5_v0 : Ref sig .tc := ⟨.hbm, 195, rfl⟩
abbrev main_call5_v1 : Ref sig .tc := ⟨.hbm, 196, rfl⟩
abbrev main_call5_cst_0 : Ref sig .tc := ⟨.hbm, 197, rfl⟩
abbrev main_call5_v2 : Ref sig .tc := ⟨.hbm, 198, rfl⟩
abbrev main_call5_v3 : Ref sig .tc := ⟨.hbm, 199, rfl⟩
abbrev main_call5_v4 : Ref sig .tc := ⟨.hbm, 200, rfl⟩
abbrev main_call5_v5 : Ref sig .tc := ⟨.hbm, 201, rfl⟩
abbrev main_call5_v6 : Ref sig .tc := ⟨.hbm, 202, rfl⟩
abbrev main_call5_v7 : Ref sig .tc := ⟨.hbm, 203, rfl⟩
abbrev main_call5_cst_1 : Ref sig .tc := ⟨.hbm, 204, rfl⟩
abbrev main_call5_v8 : Ref sig .tc := ⟨.hbm, 205, rfl⟩
abbrev main_call5_cst_2 : Ref sig .tc := ⟨.hbm, 206, rfl⟩
abbrev main_call5_v9 : Ref sig .tc := ⟨.hbm, 207, rfl⟩
abbrev main_call5_v10 : Ref sig .tc := ⟨.hbm, 208, rfl⟩
abbrev main_call5_v11 : Ref sig .tc := ⟨.hbm, 209, rfl⟩
abbrev main_call5_cst_3 : Ref sig .tc := ⟨.hbm, 210, rfl⟩
abbrev main_call5_v12 : Ref sig .tc := ⟨.hbm, 211, rfl⟩
abbrev main_call5_cst_4 : Ref sig .tc := ⟨.hbm, 212, rfl⟩
abbrev main_call5_call0_v0 : Ref sig .tc := ⟨.hbm, 213, rfl⟩
abbrev main_call5_call0_v1 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_v89 : Ref sig .tc := ⟨.hbm, 218, rfl⟩
abbrev main_cst_14 : Ref sig .tc := ⟨.hbm, 219, rfl⟩
abbrev main_v90 : Ref sig .tc := ⟨.hbm, 220, rfl⟩
abbrev main_v91 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_v104 : Ref sig .tc := ⟨.hbm, 234, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  concatenates_S1x500000x128_S1x500000x128_S1x500000x32_S1x500000x288_d2 : Shape.Concatenates [S1x500000x128, S1x500000x128, S1x500000x32] S1x500000x288 2
  bcast_S128_S1x1x128_2 : S128.BroadcastsInDim S1x1x128 (![2] : Fin 1 → Fin S1x1x128.rank)
  bcast_S1x1x128_S1x500000x128_0_1_2 : S1x1x128.BroadcastsInDim S1x500000x128 (![0, 1, 2] : Fin 3 → Fin S1x500000x128.rank)
  bcast_S_S1x500000x128 : S_.BroadcastsInDim S1x500000x128 (![] : Fin 0 → Fin S1x500000x128.rank)
  bcast_S32_S1x1x32_2 : S32.BroadcastsInDim S1x1x32 (![2] : Fin 1 → Fin S1x1x32.rank)
  bcast_S1x1x32_S1x500000x32_0_1_2 : S1x1x32.BroadcastsInDim S1x500000x32 (![0, 1, 2] : Fin 3 → Fin S1x500000x32.rank)
  bcast_S_S1x500000x32 : S_.BroadcastsInDim S1x500000x32 (![] : Fin 0 → Fin S1x500000x32.rank)
  shapeCasts_S1x500000x32_S500000x32 : S1x500000x32.ShapeCasts S500000x32
  reducesTo_S500000x32_S32_d0 : S500000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S500000x32_0_1 : S1x32.BroadcastsInDim S500000x32 (![0, 1] : Fin 2 → Fin S500000x32.rank)
  shapeCasts_S500000x32_S1x500000x32 : S500000x32.ShapeCasts S1x500000x32
  bcast_S_S100000x32 : S_.BroadcastsInDim S100000x32 (![] : Fin 0 → Fin S100000x32.rank)
  bcast_S100000x32_S1x100000x32_1_2 : S100000x32.BroadcastsInDim S1x100000x32 (![1, 2] : Fin 2 → Fin S1x100000x32.rank)
  concatenates_S1x100000x128_S1x100000x32_S1x100000x160_d2 : Shape.Concatenates [S1x100000x128, S1x100000x32] S1x100000x160 2
  bcast_S256_S1x1x256_2 : S256.BroadcastsInDim S1x1x256 (![2] : Fin 1 → Fin S1x1x256.rank)
  bcast_S1x1x256_S1x100000x256_0_1_2 : S1x1x256.BroadcastsInDim S1x100000x256 (![0, 1, 2] : Fin 3 → Fin S1x100000x256.rank)
  bcast_S_S1x100000x256 : S_.BroadcastsInDim S1x100000x256 (![] : Fin 0 → Fin S1x100000x256.rank)
  bcast_S1x1x128_S1x100000x128_0_1_2 : S1x1x128.BroadcastsInDim S1x100000x128 (![0, 1, 2] : Fin 3 → Fin S1x100000x128.rank)
  bcast_S_S1x100000x128 : S_.BroadcastsInDim S1x100000x128 (![] : Fin 0 → Fin S1x100000x128.rank)
  shapeCasts_S1x100000x128_S100000x128 : S1x100000x128.ShapeCasts S100000x128
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S100000x128_S1x100000x128 : S100000x128.ShapeCasts S1x100000x128
  gather_S1x100000x128_S500000x1_S1x500000x128_02_1_n_n_1_1_11128_wf : GatherDims.WF S1x100000x128 S500000x1 S1x500000x128 [0, 2] [1] [] [1] [] 1 ![1, 1, 128]
  dot_S1x500000x288_S128x288_S1x500000x128_2_1_01_0_n_n_wf : DotDims.WF S1x500000x288 S128x288 S1x500000x128 [2] [1] [0, 1] [0] [] []
  dot_S1x500000x128_S32x128_S1x500000x32_2_1_01_0_n_n_wf : DotDims.WF S1x500000x128 S32x128 S1x500000x32 [2] [1] [0, 1] [0] [] []
  scatter_S100000x32_S500000x1_S500000x32_1_0_0_1_wf : ScatterDims.WF S100000x32 S500000x1 S500000x32 [1] [0] [0] 1
  dot_S1x100000x160_S256x160_S1x100000x256_2_1_01_0_n_n_wf : DotDims.WF S1x100000x160 S256x160 S1x100000x256 [2] [1] [0, 1] [0] [] []
  dot_S1x100000x256_S128x256_S1x100000x128_2_1_01_0_n_n_wf : DotDims.WF S1x100000x256 S128x256 S1x100000x128 [2] [1] [0, 1] [0] [] []

variable [Facts₀]

def gather_S1x100000x128_S500000x1_S1x500000x128_02_1_n_n_1_1_11128 : GatherDims S1x100000x128 S500000x1 S1x500000x128 where
  offsetDims := [0, 2]
  collapsedSliceDims := [1]
  operandBatchingDims := []
  startIndicesBatchingDims := []
  startIndexMap := [1]
  indexVectorDim := 1
  sliceSizes := ![1, 1, 128]
  wf := gather_S1x100000x128_S500000x1_S1x500000x128_02_1_n_n_1_1_11128_wf
def dot_S1x500000x288_S128x288_S1x500000x128_2_1_01_0_n_n : DotDims S1x500000x288 S128x288 S1x500000x128 where
  lhsContracting := [2]
  rhsContracting := [1]
  lhsNonContracting := [0, 1]
  rhsNonContracting := [0]
  lhsBatch := []
  rhsBatch := []
  wf := dot_S1x500000x288_S128x288_S1x500000x128_2_1_01_0_n_n_wf
def dot_S1x500000x128_S32x128_S1x500000x32_2_1_01_0_n_n : DotDims S1x500000x128 S32x128 S1x500000x32 where
  lhsContracting := [2]
  rhsContracting := [1]
  lhsNonContracting := [0, 1]
  rhsNonContracting := [0]
  lhsBatch := []
  rhsBatch := []
  wf := dot_S1x500000x128_S32x128_S1x500000x32_2_1_01_0_n_n_wf
def scatter_S100000x32_S500000x1_S500000x32_1_0_0_1 : ScatterDims S100000x32 S500000x1 S500000x32 where
  updateWindowDims := [1]
  insertedWindowDims := [0]
  scatterDimsToOperandDims := [0]
  indexVectorDim := 1
  wf := scatter_S100000x32_S500000x1_S500000x32_1_0_0_1_wf
def dot_S1x100000x160_S256x160_S1x100000x256_2_1_01_0_n_n : DotDims S1x100000x160 S256x160 S1x100000x256 where
  lhsContracting := [2]
  rhsContracting := [1]
  lhsNonContracting := [0, 1]
  rhsNonContracting := [0]
  lhsBatch := []
  rhsBatch := []
  wf := dot_S1x100000x160_S256x160_S1x100000x256_2_1_01_0_n_n_wf
def dot_S1x100000x256_S128x256_S1x100000x128_2_1_01_0_n_n : DotDims S1x100000x256 S128x256 S1x100000x128 where
  lhsContracting := [2]
  rhsContracting := [1]
  lhsNonContracting := [0, 1]
  rhsNonContracting := [0]
  lhsBatch := []
  rhsBatch := []
  wf := dot_S1x100000x256_S128x256_S1x100000x128_2_1_01_0_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

noncomputable section

namespace Cert.GNN

open Idealize.ShloMosaic

def IsR (x : EReal) : Prop := ∃ r : ℝ, x = (r : EReal)

def elu (x : EReal) : EReal := if 0 < x then x else Ideal.exp x - 1

def mlp2 {H C : ℕ} (pre1 : Fin H → EReal) (w2 : Fin C → Fin H → EReal) (b2 : Fin C → EReal) (j : Fin C) : EReal :=
  elu ((∑ k : Fin H, elu (pre1 k) * w2 j k) + b2 j)

section BN

variable {M C : ℕ}

def colSum (x : Fin M → Fin C → EReal) (j : Fin C) : EReal := ∑ e : Fin M, x e j

def colSumSq (x : Fin M → Fin C → EReal) (j : Fin C) : EReal := ∑ e : Fin M, x e j * x e j

def meanOf (x : Fin M → Fin C → EReal) (N : EReal) (j : Fin C) : EReal := Ideal.div (colSum x j) N

def varK (x : Fin M → Fin C → EReal) (N : EReal) (j : Fin C) : EReal :=
  max (Ideal.div (colSumSq x j) N - meanOf x N j * meanOf x N j) 0

def varR (x : Fin M → Fin C → EReal) (N : EReal) (j : Fin C) : EReal :=
  Ideal.div (∑ e : Fin M, (x e j - meanOf x N j) * (x e j - meanOf x N j)) N

def bnK (x : Fin M → Fin C → EReal) (N ε : EReal) (g b : Fin C → EReal) (e : Fin M) (j : Fin C) : EReal :=
  x e j * (g j * Ideal.rsqrt (varK x N j + ε)) + (b j - (meanOf x N j * g j) * Ideal.rsqrt (varK x N j + ε))

def bnR (x : Fin M → Fin C → EReal) (N ε : EReal) (g b : Fin C → EReal) (e : Fin M) (j : Fin C) : EReal :=
  ((x e j - meanOf x N j) * Ideal.rsqrt (varR x N j + ε)) * g j + b j

end BN

def Ne : EReal := ((500000 : ℝ) : EReal)

def Nn : EReal := ((100000 : ℝ) : EReal)

def eps : EReal := Ideal.ofBits .f32 0x3727C5AC#32

def rowOf (p : BitVec 32) : Fin 100000 := ⟨p.toNat % 100000, Nat.mod_lt _ (by decide)⟩

section Block

variable (nodes : Fin 100000 → Fin 128 → EReal) (edges : Fin 500000 → Fin 32 → EReal) (pair : Fin 500000 → Fin 2 → BitVec 32)
  (ew1 : Fin 128 → Fin 288 → EReal) (eb1 : Fin 128 → EReal) (ew2 : Fin 32 → Fin 128 → EReal) (eb2 eg ebt : Fin 32 → EReal)
  (nw1 : Fin 256 → Fin 160 → EReal) (nb1 : Fin 256 → EReal) (nw2 : Fin 128 → Fin 256 → EReal) (nb2 ng nbt : Fin 128 → EReal)

def snd (e : Fin 500000) (k : Fin 128) : EReal := nodes (rowOf (pair e 0)) k

def rcv (e : Fin 500000) (k : Fin 128) : EReal := nodes (rowOf (pair e 1)) k

def ePre1K (e : Fin 500000) (j : Fin 128) : EReal :=
  (((∑ k : Fin 128, snd nodes pair e k * ew1 j ⟨k.val, by omega⟩)
    + (∑ k : Fin 128, rcv nodes pair e k * ew1 j ⟨128 + k.val, by omega⟩))
    + (∑ k : Fin 32, edges e k * ew1 j ⟨256 + k.val, by omega⟩)) + eb1 j

def eCat (e : Fin 500000) (k : Fin 288) : EReal :=
  if h : k.val < 128 then snd nodes pair e ⟨k.val, h⟩
  else if h2 : k.val < 256 then rcv nodes pair e ⟨k.val - 128, by omega⟩
  else edges e ⟨k.val - 256, by omega⟩

def ePre1R (e : Fin 500000) (j : Fin 128) : EReal := (∑ k : Fin 288, eCat nodes edges pair e k * ew1 j k) + eb1 j

def eH2K (e : Fin 500000) (j : Fin 32) : EReal := mlp2 (ePre1K nodes edges pair ew1 eb1 e) ew2 eb2 j

def eH2R (e : Fin 500000) (j : Fin 32) : EReal := mlp2 (ePre1R nodes edges pair ew1 eb1 e) ew2 eb2 j

def newEdgesK (e : Fin 500000) (j : Fin 32) : EReal := bnK (eH2K nodes edges pair ew1 eb1 ew2 eb2) Ne eps eg ebt e j

def newEdgesR (e : Fin 500000) (j : Fin 32) : EReal := bnR (eH2R nodes edges pair ew1 eb1 ew2 eb2) Ne eps eg ebt e j

def edgesOutK (e : Fin 500000) (j : Fin 32) : EReal := newEdgesK nodes edges pair ew1 eb1 ew2 eb2 eg ebt e j + edges e j

def edgesOutR (e : Fin 500000) (j : Fin 32) : EReal := newEdgesR nodes edges pair ew1 eb1 ew2 eb2 eg ebt e j + edges e j

def agg (ne : Fin 500000 → Fin 32 → EReal) (n : Fin 100000) (j : Fin 32) : EReal :=
  ((0 : EReal) + ∑ e ∈ Finset.univ.filter (fun e : Fin 500000 => rowOf (pair e 0) = n), ne e j)
    + ∑ e ∈ Finset.univ.filter (fun e : Fin 500000 => rowOf (pair e 1) = n), ne e j

def nPre1K (ag : Fin 100000 → Fin 32 → EReal) (n : Fin 100000) (j : Fin 256) : EReal :=
  ((∑ k : Fin 128, nodes n k * nw1 j ⟨k.val, by omega⟩) + (∑ k : Fin 32, ag n k * nw1 j ⟨128 + k.val, by omega⟩)) + nb1 j

def nCat (ag : Fin 100000 → Fin 32 → EReal) (n : Fin 100000) (k : Fin 160) : EReal :=
  if h : k.val < 128 then nodes n ⟨k.val, h⟩ else ag n ⟨k.val - 128, by omega⟩

def nPre1R (ag : Fin 100000 → Fin 32 → EReal) (n : Fin 100000) (j : Fin 256) : EReal :=
  (∑ k : Fin 160, nCat nodes ag n k * nw1 j k) + nb1 j

def nH2K (ag : Fin 100000 → Fin 32 → EReal) (n : Fin 100000) (j : Fin 128) : EReal := mlp2 (nPre1K nodes nw1 nb1 ag n) nw2 nb2 j

def nH2R (ag : Fin 100000 → Fin 32 → EReal) (n : Fin 100000) (j : Fin 128) : EReal := mlp2 (nPre1R nodes nw1 nb1 ag n) nw2 nb2 j

def nodesOutK (n : Fin 100000) (j : Fin 128) : EReal :=
  bnK (nH2K nodes nw1 nb1 nw2 nb2 (agg pair (newEdgesK nodes edges pair ew1 eb1 ew2 eb2 eg ebt))) Nn eps ng nbt n j + nodes n j

def nodesOutR (n : Fin 100000) (j : Fin 128) : EReal :=
  bnR (nH2R nodes nw1 nb1 nw2 nb2 (agg pair (newEdgesR nodes edges pair ew1 eb1 ew2 eb2 eg ebt))) Nn eps ng nbt n j + nodes n j

end Block

end Cert.GNN

end
-- ==== Proof.Alg1.lean ====
import proofs.«419603_j44143673869053_2_alg».proof.Proof.Spec
import Mathlib.Data.EReal.Basic
import Mathlib.Data.EReal.Operations
import Mathlib.Algebra.BigOperators.Fin

noncomputable section

namespace Cert.GNN

open Idealize.ShloMosaic

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.sub {x y : EReal} (hx : IsR x) (hy : IsR y) : IsR (x - y) := by
  obtain ⟨a, rfl⟩ := hx
  obtain ⟨b, rfl⟩ := hy
  exact ⟨a - b, (EReal.coe_sub a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.sum {ι : Type*} (s : Finset ι) (f : ι → EReal) (h : ∀ i ∈ s, IsR (f i)) : IsR (∑ i ∈ s, f i) :=
  Finset.sum_induction f IsR (fun _ _ => IsR.add) ⟨0, rfl⟩ h

theorem IsR.exp {x : EReal} (hx : IsR x) : IsR (Idealize.ShloMosaic.Ideal.exp x) := by
  obtain ⟨a, rfl⟩ := hx
  exact ⟨Real.exp a, Ideal.exp_coe a⟩

theorem IsR.elu {x : EReal} (hx : IsR x) : IsR (elu x) := by
  unfold Cert.GNN.elu
  split
  · exact hx
  · exact (IsR.exp hx).sub ⟨1, rfl⟩

theorem isR_mlp2 {H C : ℕ} (pre1 : Fin H → EReal) (w2 : Fin C → Fin H → EReal) (b2 : Fin C → EReal)
    (hp : ∀ k, IsR (pre1 k)) (hw : ∀ j k, IsR (w2 j k)) (hb : ∀ j, IsR (b2 j)) (j : Fin C) :
    IsR (mlp2 pre1 w2 b2 j) := by
  unfold mlp2
  exact IsR.elu ((IsR.sum _ _ (fun k _ => (IsR.elu (hp k)).mul (hw j k))).add (hb j))

private theorem sum_split (m n : ℕ) (f : Fin (m + n) → EReal) :
    ∑ k : Fin (m + n), f k
      = (∑ k : Fin m, f ⟨k.val, by omega⟩) + ∑ k : Fin n, f ⟨m + k.val, by omega⟩ := by
  rw [Fin.sum_univ_add]
  rfl

section Block

variable (nodes : Fin 100000 → Fin 128 → EReal) (edges : Fin 500000 → Fin 32 → EReal) (pair : Fin 500000 → Fin 2 → BitVec 32)
  (ew1 : Fin 128 → Fin 288 → EReal) (eb1 : Fin 128 → EReal)
  (nw1 : Fin 256 → Fin 160 → EReal) (nb1 : Fin 256 → EReal)

private theorem eCat_lo (e : Fin 500000) (k : Fin 128) :
    eCat nodes edges pair e ⟨k.val, by omega⟩ = snd nodes pair e k := by
  unfold eCat
  exact dif_pos k.isLt

private theorem eCat_mid (e : Fin 500000) (k : Fin 128) :
    eCat nodes edges pair e ⟨128 + k.val, by omega⟩ = rcv nodes pair e k := by
  unfold eCat
  have h1 : ¬ (128 + k.val < 128) := by omega
  have h2 : 128 + k.val < 256 := by omega
  refine (dif_neg h1).trans ((dif_pos h2).trans ?_)
  congr 1
  exact Fin.ext (by simp)

private theorem eCat_hi (e : Fin 500000) (k : Fin 32) :
    eCat nodes edges pair e ⟨256 + k.val, by omega⟩ = edges e k := by
  unfold eCat
  have h1 : ¬ (256 + k.val < 128) := by omega
  have h2 : ¬ (256 + k.val < 256) := by omega
  refine (dif_neg h1).trans ((dif_neg h2).trans ?_)
  congr 1
  exact Fin.ext (by simp)

theorem ePre1K_eq_ePre1R : ePre1K nodes edges pair ew1 eb1 = ePre1R nodes edges pair ew1 eb1 := by
  funext e j
  unfold ePre1K ePre1R
  rw [sum_split 256 32, sum_split 128 128]
  simp only [eCat_lo, eCat_mid, eCat_hi]

private theorem nCat_lo (ag : Fin 100000 → Fin 32 → EReal) (n : Fin 100000) (k : Fin 128) :
    nCat nodes ag n ⟨k.val, by omega⟩ = nodes n k := by
  unfold nCat
  exact dif_pos k.isLt

private theorem nCat_hi (ag : Fin 100000 → Fin 32 → EReal) (n : Fin 100000) (k : Fin 32) :
    nCat nodes ag n ⟨128 + k.val, by omega⟩ = ag n k := by
  unfold nCat
  have h1 : ¬ (128 + k.val < 128) := by omega
  refine (dif_neg h1).trans ?_
  congr 1
  exact Fin.ext (by simp)

theorem nPre1K_eq_nPre1R (ag : Fin 100000 → Fin 32 → EReal) :
    nPre1K nodes nw1 nb1 ag = nPre1R nodes nw1 nb1 ag := by
  funext n j
  unfold nPre1K nPre1R
  rw [sum_split 128 32]
  simp only [nCat_lo, nCat_hi]

private theorem isR_eCat (hn : ∀ n k, IsR (nodes n k)) (he : ∀ e k, IsR (edges e k)) (e : Fin 500000) (k : Fin 288) :
    IsR (eCat nodes edges pair e k) := by
  unfold eCat
  split
  · exact hn _ _
  · split
    · exact hn _ _
    · exact he _ _

theorem isR_ePre1R (hn : ∀ n k, IsR (nodes n k)) (he : ∀ e k, IsR (edges e k)) (hw : ∀ j k, IsR (ew1 j k))
    (hb : ∀ j, IsR (eb1 j)) (e : Fin 500000) (j : Fin 128) : IsR (ePre1R nodes edges pair ew1 eb1 e j) := by
  unfold ePre1R
  exact (IsR.sum _ _ (fun k _ => (isR_eCat nodes edges pair hn he e k).mul (hw j k))).add (hb j)

private theorem isR_nCat (ag : Fin 100000 → Fin 32 → EReal) (hn : ∀ n k, IsR (nodes n k)) (hag : ∀ n k, IsR (ag n k))
    (n : Fin 100000) (k : Fin 160) : IsR (nCat nodes ag n k) := by
  unfold nCat
  split
  · exact hn _ _
  · exact hag _ _

theorem isR_nPre1R (ag : Fin 100000 → Fin 32 → EReal) (hn : ∀ n k, IsR (nodes n k)) (hag : ∀ n k, IsR (ag n k))
    (hw : ∀ j k, IsR (nw1 j k)) (hb : ∀ j, IsR (nb1 j)) (n : Fin 100000) (j : Fin 256) :
    IsR (nPre1R nodes nw1 nb1 ag n j) := by
  unfold nPre1R
  exact (IsR.sum _ _ (fun k _ => (isR_nCat nodes ag hn hag n k).mul (hw j k))).add (hb j)

theorem isR_agg (ne : Fin 500000 → Fin 32 → EReal) (h : ∀ e j, IsR (ne e j)) (n : Fin 100000) (j : Fin 32) :
    IsR (agg pair ne n j) := by
  unfold agg
  exact (IsR.add ⟨0, rfl⟩ (IsR.sum _ _ (fun e _ => h e j))).add (IsR.sum _ _ (fun e _ => h e j))

end Block

/-- Every entry of the fourteen float inputs is an ordinary real. -/
structure RealArgs (nodes : Fin 100000 → Fin 128 → EReal) (edges : Fin 500000 → Fin 32 → EReal)
    (ew1 : Fin 128 → Fin 288 → EReal) (eb1 : Fin 128 → EReal) (ew2 : Fin 32 → Fin 128 → EReal) (eb2 eg ebt : Fin 32 → EReal)
    (nw1 : Fin 256 → Fin 160 → EReal) (nb1 : Fin 256 → EReal) (nw2 : Fin 128 → Fin 256 → EReal) (nb2 ng nbt : Fin 128 → EReal) :
    Prop where
  n : ∀ n k, IsR (nodes n k)
  e : ∀ e k, IsR (edges e k)
  ew1 : ∀ j k, IsR (ew1 j k)
  eb1 : ∀ j, IsR (eb1 j)
  ew2 : ∀ j k, IsR (ew2 j k)
  eb2 : ∀ j, IsR (eb2 j)
  eg : ∀ j, IsR (eg j)
  ebt : ∀ j, IsR (ebt j)
  nw1 : ∀ j k, IsR (nw1 j k)
  nb1 : ∀ j, IsR (nb1 j)
  nw2 : ∀ j k, IsR (nw2 j k)
  nb2 : ∀ j, IsR (nb2 j)
  ng : ∀ j, IsR (ng j)
  nbt : ∀ j, IsR (nbt j)

end Cert.GNN

end
-- ==== Proof.Consts.lean ====
import proofs.«419603_j44143673869053_2_alg».proof.Proof.Spec

noncomputable section

namespace Cert.GNN

open Idealize.ShloMosaic

theorem ofBits_5e5 : Idealize.ShloMosaic.Ideal.ofBits .f32 0x48F42400#32 = Ne := by
  simp [Ideal.ofBits, Ideal.ieee, Ne, -EReal.coe_mul]; norm_num

theorem ofBits_1e5 : Idealize.ShloMosaic.Ideal.ofBits .f32 0x47C35000#32 = Nn := by
  simp [Ideal.ofBits, Ideal.ieee, Nn, -EReal.coe_mul]; norm_num

theorem ofBits_one : Idealize.ShloMosaic.Ideal.ofBits .f32 0x3F800000#32 = 1 := by
  simp [Ideal.ofBits, Ideal.ieee, -EReal.coe_mul]; norm_num

theorem eps_pos : ∃ r : ℝ, 0 < r ∧ eps = (r : EReal) := by
  refine ⟨(10995116 : ℝ) * (2 : ℝ) ^ (-40 : Int), by positivity, ?_⟩
  simp [eps, Ideal.ofBits, Ideal.ieee, -EReal.coe_mul]

end Cert.GNN

end
-- ==== Proof.Alg2.lean ====
import proofs.«419603_j44143673869053_2_alg».proof.Proof.Spec

noncomputable section

namespace Cert.GNN

open Idealize.ShloMosaic

private theorem coe_sum {ι : Type} (s : Finset ι) (f : ι → ℝ) :
    (∑ i ∈ s, ((f i : ℝ) : EReal)) = ((∑ i ∈ s, f i : ℝ) : EReal) :=
  (map_sum (⟨⟨Real.toEReal, EReal.coe_zero⟩, EReal.coe_add⟩ : ℝ →+ EReal) f s).symm

section Real

variable {M C : ℕ} (xr : Fin M → Fin C → ℝ)

private def muR (j : Fin C) : ℝ := (∑ e : Fin M, xr e j) * (1 / (M : ℝ))

private def vR (j : Fin C) : ℝ := (∑ e : Fin M, (xr e j - muR xr j) * (xr e j - muR xr j)) * (1 / (M : ℝ))

private theorem msq_sub_sqm (hM : 0 < M) (j : Fin C) :
    (∑ e : Fin M, xr e j * xr e j) * (1 / (M : ℝ)) - muR xr j * muR xr j = vR xr j := by
  have hM' : (M : ℝ) ≠ 0 := by exact_mod_cast hM.ne'
  have hexp : ∀ e : Fin M, (xr e j - muR xr j) * (xr e j - muR xr j)
      = xr e j * xr e j - 2 * muR xr j * xr e j + muR xr j * muR xr j := by intro e; ring
  have hsum : (∑ e : Fin M, (xr e j - muR xr j) * (xr e j - muR xr j))
      = (∑ e : Fin M, xr e j * xr e j) - 2 * muR xr j * (∑ e : Fin M, xr e j) + (M : ℝ) * (muR xr j * muR xr j) := by
    simp only [hexp, Finset.sum_add_distrib, Finset.sum_sub_distrib, ← Finset.mul_sum, Finset.sum_const,
      Finset.card_univ, Fintype.card_fin, nsmul_eq_mul]
    ring
  have hS : (∑ e : Fin M, xr e j) = (M : ℝ) * muR xr j := by
    unfold muR; field_simp
  rw [vR, hsum, hS]
  field_simp
  ring

private theorem vR_nonneg (j : Fin C) : 0 ≤ vR xr j := by
  unfold vR
  refine mul_nonneg (Finset.sum_nonneg fun e _ => mul_self_nonneg _) ?_
  positivity

end Real

section Coe

variable {M C : ℕ} (xr : Fin M → Fin C → ℝ)

private theorem meanOf_coe (hM : 0 < M) (j : Fin C) :
    meanOf (fun e j => ((xr e j : ℝ) : EReal)) (((M : ℕ) : ℝ) : EReal) j = ((muR xr j : ℝ) : EReal) := by
  have hM' : ((M : ℕ) : ℝ) ≠ 0 := by exact_mod_cast hM.ne'
  unfold meanOf colSum muR
  rw [Ideal.div_coe hM', coe_sum, ← EReal.coe_mul]

private theorem varR_coe (hM : 0 < M) (j : Fin C) :
    varR (fun e j => ((xr e j : ℝ) : EReal)) (((M : ℕ) : ℝ) : EReal) j = ((vR xr j : ℝ) : EReal) := by
  have hM' : ((M : ℕ) : ℝ) ≠ 0 := by exact_mod_cast hM.ne'
  unfold varR
  rw [meanOf_coe xr hM j, Ideal.div_coe hM']
  simp only [← EReal.coe_sub, ← EReal.coe_mul]
  rw [coe_sum, ← EReal.coe_mul]
  rfl

private theorem varK_coe (hM : 0 < M) (j : Fin C) :
    varK (fun e j => ((xr e j : ℝ) : EReal)) (((M : ℕ) : ℝ) : EReal) j = ((vR xr j : ℝ) : EReal) := by
  have hM' : ((M : ℕ) : ℝ) ≠ 0 := by exact_mod_cast hM.ne'
  unfold varK colSumSq
  rw [meanOf_coe xr hM j, Ideal.div_coe hM']
  simp only [← EReal.coe_mul]
  rw [coe_sum, ← EReal.coe_mul, ← EReal.coe_sub, msq_sub_sqm xr hM j]
  exact max_eq_left (by exact_mod_cast vR_nonneg xr j)

end Coe

private theorem rsqrt_add_pos {v ε : ℝ} (hv : 0 ≤ v) (hε : 0 < ε) :
    Ideal.rsqrt (((v : ℝ) : EReal) + ((ε : ℝ) : EReal)) = (((Real.sqrt (v + ε))⁻¹ : ℝ) : EReal) := by
  have hpos : 0 < v + ε := by linarith
  rw [← EReal.coe_add, Ideal.rsqrt_coe, if_neg (not_lt.mpr hpos.le), if_neg hpos.ne']

section Main

variable {M C : ℕ}

private theorem bn_real (xr : Fin M → Fin C → ℝ) (εr : ℝ) (gr br : Fin C → ℝ) (hM : 0 < M) (hε : 0 < εr)
    (e : Fin M) (j : Fin C) :
    bnK (fun e j => ((xr e j : ℝ) : EReal)) (((M : ℕ) : ℝ) : EReal) (εr : EReal)
        (fun j => ((gr j : ℝ) : EReal)) (fun j => ((br j : ℝ) : EReal)) e j
      = (((((xr e j - muR xr j) * (Real.sqrt (vR xr j + εr))⁻¹) * gr j + br j : ℝ)) : EReal)
    ∧ bnR (fun e j => ((xr e j : ℝ) : EReal)) (((M : ℕ) : ℝ) : EReal) (εr : EReal)
        (fun j => ((gr j : ℝ) : EReal)) (fun j => ((br j : ℝ) : EReal)) e j
      = (((((xr e j - muR xr j) * (Real.sqrt (vR xr j + εr))⁻¹) * gr j + br j : ℝ)) : EReal) := by
  constructor
  · unfold bnK
    rw [varK_coe xr hM j, meanOf_coe xr hM j, rsqrt_add_pos (vR_nonneg xr j) hε]
    simp only [← EReal.coe_mul, ← EReal.coe_sub, ← EReal.coe_add]
    congr 1
    ring
  · unfold bnR
    rw [varR_coe xr hM j, meanOf_coe xr hM j, rsqrt_add_pos (vR_nonneg xr j) hε]
    simp only [← EReal.coe_mul, ← EReal.coe_sub, ← EReal.coe_add]

/-- On a real table with `N` the row count and a positive offset, both normalisations are the same real number. -/
theorem bn_forms (x : Fin M → Fin C → EReal) (N ε : EReal) (g b : Fin C → EReal) (hM : 0 < M)
    (hN : N = (((M : ℕ) : ℝ) : EReal)) (hx : ∀ e j, IsR (x e j)) (hε : ∃ r : ℝ, 0 < r ∧ ε = (r : EReal))
    (hg : ∀ j, IsR (g j)) (hb : ∀ j, IsR (b j)) :
    bnK x N ε g b = bnR x N ε g b ∧ ∀ e j, IsR (bnR x N ε g b e j) := by
  choose xr hxr using hx
  choose gr hgr using hg
  choose br hbr using hb
  obtain ⟨εr, hεr, rfl⟩ := hε
  obtain rfl : x = fun e j => ((xr e j : ℝ) : EReal) := funext fun e => funext fun j => hxr e j
  obtain rfl : g = fun j => ((gr j : ℝ) : EReal) := funext hgr
  obtain rfl : b = fun j => ((br j : ℝ) : EReal) := funext hbr
  subst hN
  exact ⟨funext fun e => funext fun j => (bn_real xr εr gr br hM hεr e j).1.trans (bn_real xr εr gr br hM hεr e j).2.symm,
    fun e j => ⟨_, (bn_real xr εr gr br hM hεr e j).2⟩⟩

end Main

theorem Ne_eq : Ne = (((500000 : ℕ) : ℝ) : EReal) := by
  unfold Ne; norm_num

theorem Nn_eq : Nn = (((100000 : ℕ) : ℝ) : EReal) := by
  unfold Nn; norm_num

end Cert.GNN

end
-- ==== Proof.Bridge.lean ====
import proofs.«419603_j44143673869053_2_alg».proof.Proof.Spec
import proofs.«419603_j44143673869053_2_alg».proof.Proof.Alg1
import proofs.«419603_j44143673869053_2_alg».proof.Proof.Consts
import proofs.«419603_j44143673869053_2_alg».proof.Proof.Alg2

noncomputable section

namespace Cert.GNN

open Idealize.ShloMosaic

/-- Over equal, real first pre-activations the folded and the written-out normalisation of the perceptron's table agree, and the result is real. -/
theorem stage {M H C : ℕ} (pK pR : Fin M → Fin H → EReal) (w2 : Fin C → Fin H → EReal) (b2 g b : Fin C → EReal) (N : EReal)
    (hM : 0 < M) (hN : N = (((M : ℕ) : ℝ) : EReal)) (hp : pK = pR) (hpR : ∀ e k, IsR (pR e k))
    (hw2 : ∀ j k, IsR (w2 j k)) (hb2 : ∀ j, IsR (b2 j)) (hg : ∀ j, IsR (g j)) (hb : ∀ j, IsR (b j)) :
    bnK (fun e => mlp2 (pK e) w2 b2) N eps g b = bnR (fun e => mlp2 (pR e) w2 b2) N eps g b
    ∧ ∀ e j, IsR (bnR (fun e => mlp2 (pR e) w2 b2) N eps g b e j) := by
  subst hp
  exact bn_forms _ N eps g b hM hN (fun e j => isR_mlp2 _ _ _ (hpR e) hw2 hb2 j) eps_pos hg hb

variable {nodes : Fin 100000 → Fin 128 → EReal} {edges : Fin 500000 → Fin 32 → EReal} (pair : Fin 500000 → Fin 2 → BitVec 32)
  {ew1 : Fin 128 → Fin 288 → EReal} {eb1 : Fin 128 → EReal} {ew2 : Fin 32 → Fin 128 → EReal} {eb2 eg ebt : Fin 32 → EReal}
  {nw1 : Fin 256 → Fin 160 → EReal} {nb1 : Fin 256 → EReal} {nw2 : Fin 128 → Fin 256 → EReal} {nb2 ng nbt : Fin 128 → EReal}
  (h : RealArgs nodes edges ew1 eb1 ew2 eb2 eg ebt nw1 nb1 nw2 nb2 ng nbt)
include h

theorem newEdges_forms :
    newEdgesK nodes edges pair ew1 eb1 ew2 eb2 eg ebt = newEdgesR nodes edges pair ew1 eb1 ew2 eb2 eg ebt
    ∧ ∀ e j, IsR (newEdgesR nodes edges pair ew1 eb1 ew2 eb2 eg ebt e j) :=
  stage _ _ ew2 eb2 eg ebt Ne (by norm_num) Ne_eq (ePre1K_eq_ePre1R nodes edges pair ew1 eb1)
    (isR_ePre1R nodes edges pair ew1 eb1 h.n h.e h.ew1 h.eb1) h.ew2 h.eb2 h.eg h.ebt

theorem edgesOut_eq :
    edgesOutK nodes edges pair ew1 eb1 ew2 eb2 eg ebt = edgesOutR nodes edges pair ew1 eb1 ew2 eb2 eg ebt := by
  funext e j
  unfold edgesOutK edgesOutR
  rw [(newEdges_forms pair h).1]

/-- The new edge features agree and are real, so their aggregates are one real table; the node stage is then the same composition. -/
theorem nodesOut_eq :
    nodesOutK nodes edges pair ew1 eb1 ew2 eb2 eg ebt nw1 nb1 nw2 nb2 ng nbt
      = nodesOutR nodes edges pair ew1 eb1 ew2 eb2 eg ebt nw1 nb1 nw2 nb2 ng nbt := by
  obtain ⟨hK, hR⟩ := newEdges_forms pair h
  funext n j
  unfold nodesOutK nodesOutR
  rw [hK]
  exact congrArg (· + nodes n j) (congrFun (congrFun (stage _ _ nw2 nb2 ng nbt Nn (by norm_num) Nn_eq
    (nPre1K_eq_nPre1R nodes nw1 nb1 _) (isR_nPre1R nodes nw1 nb1 _ h.n (isR_agg pair _ hR) h.nw1 h.nb1)
    h.nw2 h.nb2 h.ng h.nbt).1 n) j)

end Cert.GNN

end
-- ==== Proof.KArgs.lean ====
import proofs.«419603_j44143673869053_2_alg».proof.KernelIdeal
import proofs.«419603_j44143673869053_2_alg».proof.Proof.Spec

noncomputable section

namespace Cert.KernelIdeal.KArgs

open Idealize.ShloMosaic Idealize.ShloMosaic.ValueIdx Cert.KernelIdeal

variable (m : (ℓ : Loc nD τ sig) → Buf (Elt Ideal) ℓ) (c : Dev nD)

abbrev nodes : Fin 100000 → Fin 128 → EReal := fun n k => m ((c.tc : Thread nD τ).loc main_arg0) (ix3 (0 : Fin 1) n k)
abbrev edges : Fin 500000 → Fin 32 → EReal := fun e k => m ((c.tc : Thread nD τ).loc main_arg1) (ix3 (0 : Fin 1) e k)
abbrev pair : Fin 500000 → Fin 2 → BitVec 32 := fun e q => m ((c.tc : Thread nD τ).loc main_arg2) (ix2 e q)
abbrev ew1 : Fin 128 → Fin 288 → EReal := fun j k => m ((c.tc : Thread nD τ).loc main_arg3) (ix2 j k)
abbrev eb1 : Fin 128 → EReal := fun j => m ((c.tc : Thread nD τ).loc main_arg4) (ix1 j)
abbrev ew2 : Fin 32 → Fin 128 → EReal := fun j k => m ((c.tc : Thread nD τ).loc main_arg5) (ix2 j k)
abbrev eb2 : Fin 32 → EReal := fun j => m ((c.tc : Thread nD τ).loc main_arg6) (ix1 j)
abbrev eg : Fin 32 → EReal := fun j => m ((c.tc : Thread nD τ).loc main_arg7) (ix1 j)
abbrev ebt : Fin 32 → EReal := fun j => m ((c.tc : Thread nD τ).loc main_arg8) (ix1 j)
abbrev nw1 : Fin 256 → Fin 160 → EReal := fun j k => m ((c.tc : Thread nD τ).loc main_arg9) (ix2 j k)
abbrev nb1 : Fin 256 → EReal := fun j => m ((c.tc : Thread nD τ).loc main_arg10) (ix1 j)
abbrev nw2 : Fin 128 → Fin 256 → EReal := fun j k => m ((c.tc : Thread nD τ).loc main_arg11) (ix2 j k)
abbrev nb2 : Fin 128 → EReal := fun j => m ((c.tc : Thread nD τ).loc main_arg12) (ix1 j)
abbrev ng : Fin 128 → EReal := fun j => m ((c.tc : Thread nD τ).loc main_arg13) (ix1 j)
abbrev nbt : Fin 128 → EReal := fun j => m ((c.tc : Thread nD τ).loc main_arg14) (ix1 j)

abbrev out0K : Buf (Elt Ideal) ((c.tc : Thread nD τ).loc main_v85) := fun i =>
  Cert.GNN.nodesOutK (nodes m c) (edges m c) (pair m c) (ew1 m c) (eb1 m c) (ew2 m c) (eb2 m c) (eg m c) (ebt m c)
    (nw1 m c) (nb1 m c) (nw2 m c) (nb2 m c) (ng m c) (nbt m c) (i 1) (i 2)

abbrev out1K : Buf (Elt Ideal) ((c.tc : Thread nD τ).loc main_v86) := fun i =>
  Cert.GNN.edgesOutK (nodes m c) (edges m c) (pair m c) (ew1 m c) (eb1 m c) (ew2 m c) (eb2 m c) (eg m c) (ebt m c) (i 1) (i 2)

abbrev out0R : Buf (Elt Ideal) ((c.tc : Thread nD τ).loc main_v85) := fun i =>
  Cert.GNN.nodesOutR (nodes m c) (edges m c) (pair m c) (ew1 m c) (eb1 m c) (ew2 m c) (eb2 m c) (eg m c) (ebt m c)
    (nw1 m c) (nb1 m c) (nw2 m c) (nb2 m c) (ng m c) (nbt m c) (i 1) (i 2)

abbrev out1R : Buf (Elt Ideal) ((c.tc : Thread nD τ).loc main_v86) := fun i =>
  Cert.GNN.edgesOutR (nodes m c) (edges m c) (pair m c) (ew1 m c) (eb1 m c) (ew2 m c) (eb2 m c) (eg m c) (ebt m c) (i 1) (i 2)

end Cert.KernelIdeal.KArgs

end
-- ==== Proof.PreFacts.lean ====
import proofs.«419603_j44143673869053_2_alg».proof.Defs
import proofs.«419603_j44143673869053_2_alg».proof.Proof.Spec
import proofs.«419603_j44143673869053_2_alg».proof.Proof.Alg1
import proofs.«419603_j44143673869053_2_alg».proof.Proof.KArgs
import Idealize.ShloMosaic.Lib.ReduceAll
import Idealize.ShloMosaic.Lib.Affine
import Idealize.ShloMosaic.Lib.ValueIdx

noncomputable section

namespace Cert.PreFacts

open Idealize.ShloMosaic Idealize.SL.Sem

theorem inf_word : Ideal.ofBits .f32 0x7F800000#32 = (⊤ : EReal) := by simp [Ideal.ofBits, Ideal.ieee]

theorem isR_of_abs_lt_inf (x : EReal)
    (h : Ideal.cmp .olt (max x (-x)) (Ideal.ofBits .f32 0x7F800000#32) = 1#1) : Cert.GNN.IsR x := by
  rw [inf_word] at h
  induction x using EReal.rec with
  | bot => exact absurd h (by simp [Ideal.cmp])
  | coe r => exact ⟨r, rfl⟩
  | top => exact absurd h (by simp [Ideal.cmp])

theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu j = 1#1)
    (i : s.Idx) : Cert.GNN.IsR (x i) :=
  isR_of_abs_lt_inf (x i) (Host.reduce_andi_all _ _ hr hu j e i)

open Cert.KernelIdeal in
/-- The precondition, one bit, read back: every float entry is real and every index word lies in `[0, 100000)`. -/
theorem real [Cert.Pre_finite_inputs.Facts] (m : (ℓ : Loc nD τ sig) → Buf (Elt Ideal) ℓ) (h : Cert.Pre_KernelIdeal m) (c : Dev nD) :
    Cert.GNN.RealArgs (KArgs.nodes m c) (KArgs.edges m c) (KArgs.ew1 m c) (KArgs.eb1 m c) (KArgs.ew2 m c) (KArgs.eb2 m c)
      (KArgs.eg m c) (KArgs.ebt m c) (KArgs.nw1 m c) (KArgs.nb1 m c) (KArgs.nw2 m c) (KArgs.nb2 m c) (KArgs.ng m c) (KArgs.nbt m c)
    ∧ ∀ i : S500000x2.Idx, 0 ≤ (m ((c.tc : Thread nD τ).loc main_arg2) i).toInt ∧ (m ((c.tc : Thread nD τ).loc main_arg2) i).toInt < 100000 := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h0
  simp only [IntOp.andi_eq_one] at h0
  obtain ⟨⟨⟨⟨⟨⟨⟨⟨⟨⟨⟨⟨⟨⟨⟨e0, e1⟩, e3⟩, e4⟩, e5⟩, e6⟩, e7⟩, e8⟩, e9⟩, e10⟩, e11⟩, e12⟩, e13⟩, e14⟩, eg⟩, el⟩ := h0
  refine ⟨⟨fun _ _ => real_of_all _ _ _ _ _ e0 _, fun _ _ => real_of_all _ _ _ _ _ e1 _, fun _ _ => real_of_all _ _ _ _ _ e3 _,
    fun _ => real_of_all _ _ _ _ _ e4 _, fun _ _ => real_of_all _ _ _ _ _ e5 _, fun _ => real_of_all _ _ _ _ _ e6 _,
    fun _ => real_of_all _ _ _ _ _ e7 _, fun _ => real_of_all _ _ _ _ _ e8 _, fun _ _ => real_of_all _ _ _ _ _ e9 _,
    fun _ => real_of_all _ _ _ _ _ e10 _, fun _ _ => real_of_all _ _ _ _ _ e11 _, fun _ => real_of_all _ _ _ _ _ e12 _,
    fun _ => real_of_all _ _ _ _ _ e13 _, fun _ => real_of_all _ _ _ _ _ e14 _⟩, fun i => ⟨?_, ?_⟩⟩
  · have hg : (0#32 : BitVec 32).toInt ≤ _ := IntOp.cmpi_sge.1 (Host.reduce_andi_all _ _ _ _ _ eg i)
    rwa [show (0#32 : BitVec 32).toInt = 0 by decide] at hg
  · have hl : _ < (100000#32 : BitVec 32).toInt := IntOp.cmpi_slt.1 (Host.reduce_andi_all _ _ _ _ _ el i)
    rwa [show (100000#32 : BitVec 32).toInt = 100000 by decide] at hl

end Cert.PreFacts

end
-- ==== Proof.RArgs.lean ====
import proofs.«419603_j44143673869053_2_alg».proof.ReferenceIdeal
import proofs.«419603_j44143673869053_2_alg».proof.Proof.Spec

noncomputable section

namespace Cert.ReferenceIdeal.RArgs

open Idealize.ShloMosaic Idealize.ShloMosaic.ValueIdx Cert.ReferenceIdeal

variable (m : (ℓ : Loc nD τ sig) → Buf (Elt Ideal) ℓ) (c : Dev nD)

abbrev nodes : Fin 100000 → Fin 128 → EReal := fun n k => m ((c.tc : Thread nD τ).loc main_arg0) (ix3 (0 : Fin 1) n k)
abbrev edges : Fin 500000 → Fin 32 → EReal := fun e k => m ((c.tc : Thread nD τ).loc main_arg1) (ix3 (0 : Fin 1) e k)
abbrev pair : Fin 500000 → Fin 2 → BitVec 32 := fun e q => m ((c.tc : Thread nD τ).loc main_arg2) (ix2 e q)
abbrev ew1 : Fin 128 → Fin 288 → EReal := fun j k => m ((c.tc : Thread nD τ).loc main_arg3) (ix2 j k)
abbrev eb1 : Fin 128 → EReal := fun j => m ((c.tc : Thread nD τ).loc main_arg4) (ix1 j)
abbrev ew2 : Fin 32 → Fin 128 → EReal := fun j k => m ((c.tc : Thread nD τ).loc main_arg5) (ix2 j k)
abbrev eb2 : Fin 32 → EReal := fun j => m ((c.tc : Thread nD τ).loc main_arg6) (ix1 j)
abbrev eg : Fin 32 → EReal := fun j => m ((c.tc : Thread nD τ).loc main_arg7) (ix1 j)
abbrev ebt : Fin 32 → EReal := fun j => m ((c.tc : Thread nD τ).loc main_arg8) (ix1 j)
abbrev nw1 : Fin 256 → Fin 160 → EReal := fun j k => m ((c.tc : Thread nD τ).loc main_arg9) (ix2 j k)
abbrev nb1 : Fin 256 → EReal := fun j => m ((c.tc : Thread nD τ).loc main_arg10) (ix1 j)
abbrev nw2 : Fin 128 → Fin 256 → EReal := fun j k => m ((c.tc : Thread nD τ).loc main_arg11) (ix2 j k)
abbrev nb2 : Fin 128 → EReal := fun j => m ((c.tc : Thread nD τ).loc main_arg12) (ix1 j)
abbrev ng : Fin 128 → EReal := fun j => m ((c.tc : Thread nD τ).loc main_arg13) (ix1 j)
abbrev nbt : Fin 128 → EReal := fun j => m ((c.tc : Thread nD τ).loc main_arg14) (ix1 j)

abbrev out0R : Buf (Elt Ideal) ((c.tc : Thread nD τ).loc main_v103) := fun i =>
  Cert.GNN.nodesOutR (nodes m c) (edges m c) (pair m c) (ew1 m c) (eb1 m c) (ew2 m c) (eb2 m c) (eg m c) (ebt m c)
    (nw1 m c) (nb1 m c) (nw2 m c) (nb2 m c) (ng m c) (nbt m c) (i 1) (i 2)

abbrev out1R : Buf (Elt Ideal) ((c.tc : Thread nD τ).loc main_v104) := fun i =>
  Cert.GNN.edgesOutR (nodes m c) (edges m c) (pair m c) (ew1 m c) (eb1 m c) (ew2 m c) (eb2 m c) (eg m c) (ebt m c) (i 1) (i 2)

end Cert.ReferenceIdeal.RArgs

end
-- ==== Proof.KTotalE.lean ====
import proofs.«419603_j44143673869053_2_alg».proof.Proof.Spec
import Idealize.ShloMosaic.Lib.ValueIdx

noncomputable section

namespace Cert.KernelIdeal.KTotalE

open Idealize.ShloMosaic Idealize.ShloMosaic.ValueIdx Cert.GNN

theorem h2of_eq (nodes : Fin 100000 → Fin 128 → EReal) (edges : Fin 500000 → Fin 32 → EReal) (pair : Fin 500000 → Fin 2 → BitVec 32)
    (ew1 : Fin 128 → Fin 288 → EReal) (eb1 : Fin 128 → EReal) (ew2 : Fin 32 → Fin 128 → EReal) (eb2 : Fin 32 → EReal)
    (A0 A1 : (⟨2, ![500000, 128]⟩ : Shape).Idx → EReal) (A2 : (⟨2, ![500000, 32]⟩ : Shape).Idx → EReal)
    (A3 A4 : (⟨2, ![128, 128]⟩ : Shape).Idx → EReal) (A5 : (⟨2, ![32, 128]⟩ : Shape).Idx → EReal)
    (A6 : (⟨2, ![1, 128]⟩ : Shape).Idx → EReal) (A7 : (⟨2, ![128, 32]⟩ : Shape).Idx → EReal)
    (A8 : (⟨2, ![1, 32]⟩ : Shape).Idx → EReal)
    (hA0 : ∀ e k, A0 (ix2 e k) = nodes (rowOf (pair e 0)) k)
    (hA1 : ∀ e k, A1 (ix2 e k) = nodes (rowOf (pair e 1)) k)
    (hA2 : ∀ e k, A2 (ix2 e k) = edges e k)
    (hA3 : ∀ (k j : Fin 128), A3 (ix2 k j) = ew1 j ⟨k.val, by omega⟩)
    (hA4 : ∀ (k j : Fin 128), A4 (ix2 k j) = ew1 j ⟨128 + k.val, by omega⟩)
    (hA5 : ∀ (k : Fin 32) (j : Fin 128), A5 (ix2 k j) = ew1 j ⟨256 + k.val, by omega⟩)
    (hA6 : ∀ j, A6 (ix2 0 j) = eb1 j)
    (hA7 : ∀ (k : Fin 128) (j : Fin 32), A7 (ix2 k j) = ew2 j k)
    (hA8 : ∀ j, A8 (ix2 0 j) = eb2 j) :
    (fun (e : Fin 500000) (j : Fin 32) => mlp2 (fun k => (((∑ q : Fin 128, A0 (ix2 e q) * A3 (ix2 q k))
        + (∑ q : Fin 128, A1 (ix2 e q) * A4 (ix2 q k))) + (∑ q : Fin 32, A2 (ix2 e q) * A5 (ix2 q k))) + A6 (ix2 0 k))
      (fun j k => A7 (ix2 k j)) (fun j => A8 (ix2 0 j)) j) = eH2K nodes edges pair ew1 eb1 ew2 eb2 := by
  funext e j
  simp only [eH2K, hA0, hA1, hA2, hA3, hA4, hA5, hA6, hA7, hA8]
  rfl

/-- With `S`, `Q` the column sums of `x` and of its squares, `x · G + B` is `bnK x`. -/
theorem bn_point {M C : ℕ} (x : Fin M → Fin C → EReal) (N ε : EReal) (g b : Fin C → EReal)
    (X : (⟨2, ![M, C]⟩ : Shape).Idx → EReal) (G B S Q : (⟨2, ![1, C]⟩ : Shape).Idx → EReal) (e : Fin M) (j : Fin C)
    (hX : X (ix2 e j) = x e j) (hS : S (ix2 0 j) = colSum x j) (hQ : Q (ix2 0 j) = colSumSq x j)
    (hG : G (ix2 0 j) = g j * Ideal.rsqrt (max (Ideal.div (Q (ix2 0 j)) N
        - Ideal.div (S (ix2 0 j)) N * Ideal.div (S (ix2 0 j)) N) 0 + ε))
    (hB : B (ix2 0 j) = b j - (Ideal.div (S (ix2 0 j)) N * g j) * Ideal.rsqrt (max (Ideal.div (Q (ix2 0 j)) N
        - Ideal.div (S (ix2 0 j)) N * Ideal.div (S (ix2 0 j)) N) 0 + ε)) :
    X (ix2 e j) * G (ix2 0 j) + B (ix2 0 j) = bnK x N ε g b e j := by
  rw [hG, hB, hS, hQ, hX]
  rfl

/-- An array equal entrywise to `y e j + old e j`, read at `(0, e, j)`. -/
theorem res_total {M C : ℕ} (y old : Fin M → Fin C → EReal) (R : (⟨3, ![1, M, C]⟩ : Shape).Idx → EReal)
    (O X Y : (⟨2, ![M, C]⟩ : Shape).Idx → EReal) (G B : (⟨2, ![1, C]⟩ : Shape).Idx → EReal)
    (hres : ∀ e j, R (ix3 0 e j) = O (ix2 e j))
    (hO : O = fun i => (X (ix2 (i 0) (i 1)) * G (ix2 0 (i 1)) + B (ix2 0 (i 1))) + Y (ix2 (i 0) (i 1)))
    (hY : ∀ e k, Y (ix2 e k) = old e k)
    (hpt : ∀ e j, X (ix2 e j) * G (ix2 0 j) + B (ix2 0 j) = y e j) :
    R = fun i => y (i 1) (i 2) + old (i 1) (i 2) := by
  funext i
  obtain ⟨z, e, j, rfl⟩ : ∃ (z : Fin 1) (e : Fin M) (j : Fin C), i = ix3 z e j := ⟨i 0, i 1, i 2, eq_ix3 i⟩
  obtain rfl : z = 0 := Subsingleton.elim _ _
  exact (hres e j).trans ((congrFun hO (ix2 e j)).trans (congrArg₂ (· + ·) (hpt e j) (hY e j)))

end Cert.KernelIdeal.KTotalE

end
-- ==== Proof.KTotalN.lean ====
import proofs.«419603_j44143673869053_2_alg».proof.Proof.Spec
import Idealize.ShloMosaic.Lib.ValueIdx

noncomputable section

namespace Cert.KernelIdeal.KTotalN

open Idealize.ShloMosaic Idealize.ShloMosaic.ValueIdx Cert.GNN

theorem h2fn_eq (nodes : Fin 100000 → Fin 128 → EReal) (nw1 : Fin 256 → Fin 160 → EReal) (nb1 : Fin 256 → EReal)
    (nw2 : Fin 128 → Fin 256 → EReal) (nb2 : Fin 128 → EReal) (ag : Fin 100000 → Fin 32 → EReal)
    (C0 : (⟨2, ![100000, 128]⟩ : Shape).Idx → EReal) (C1 : (⟨2, ![100000, 32]⟩ : Shape).Idx → EReal)
    (C2 : (⟨2, ![128, 256]⟩ : Shape).Idx → EReal) (C3 : (⟨2, ![32, 256]⟩ : Shape).Idx → EReal)
    (C4 : (⟨2, ![1, 256]⟩ : Shape).Idx → EReal) (C5 : (⟨2, ![256, 128]⟩ : Shape).Idx → EReal)
    (C6 : (⟨2, ![1, 128]⟩ : Shape).Idx → EReal)
    (hC0 : ∀ n k, C0 (ix2 n k) = nodes n k)
    (hC1 : ∀ n k, C1 (ix2 n k) = ag n k)
    (hC2 : ∀ (k : Fin 128) (j : Fin 256), C2 (ix2 k j) = nw1 j ⟨k.val, by omega⟩)
    (hC3 : ∀ (k : Fin 32) (j : Fin 256), C3 (ix2 k j) = nw1 j ⟨128 + k.val, by omega⟩)
    (hC4 : ∀ j, C4 (ix2 0 j) = nb1 j)
    (hC5 : ∀ (k : Fin 256) (j : Fin 128), C5 (ix2 k j) = nw2 j k)
    (hC6 : ∀ j, C6 (ix2 0 j) = nb2 j) :
    (fun (n : Fin 100000) (j : Fin 128) => mlp2 (fun k : Fin 256 => ((∑ q : Fin 128, C0 (ix2 n q) * C2 (ix2 q k))
        + (∑ q : Fin 32, C1 (ix2 n q) * C3 (ix2 q k))) + C4 (ix2 0 k))
      (fun (j : Fin 128) (k : Fin 256) => C5 (ix2 k j)) (fun j : Fin 128 => C6 (ix2 0 j)) j) = nH2K nodes nw1 nb1 nw2 nb2 ag := by
  funext n j
  simp only [nH2K, hC0, hC1, hC2, hC3, hC4, hC5, hC6]
  rfl

end Cert.KernelIdeal.KTotalN

end
-- ==== Proof.LibAffine.lean ====
import Idealize.ShloMosaic.Lib.ValueLayout
import Idealize.ShloMosaic.Lib.ValueIdx

noncomputable section

namespace Cert.GNN.Affine

open Idealize.ShloMosaic Idealize.ShloMosaic.ValueIdx

variable {N M K : ℕ}

/-- One row of scales and one of offsets stretched over `M` rows: entry `(p, q)` is `x p q * s q + o q`. -/
theorem affine_at (x : Vec Ideal ⟨2, ![M, K]⟩ .f32) (s o : Vec Ideal ⟨2, ![1, K]⟩ .f32)
    (h : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩) (p : Fin M) (q : Fin K) :
    (addf (mulf (shapeCast ⟨2, ![M, K]⟩ x h) (broadcastTo ⟨2, ![M, K]⟩ (shapeCast ⟨2, ![1, K]⟩ s h1) hb))
      (broadcastTo ⟨2, ![M, K]⟩ (shapeCast ⟨2, ![1, K]⟩ o h1) hb) : FVec Ideal ⟨2, ![M, K]⟩ .f32) (ix2 p q)
      = x (ix2 p q) * s (ix2 0 q) + o (ix2 0 q) := by
  rw [addf_apply, mulf_apply, broadcastTo_1b_ab_apply, broadcastTo_1b_ab_apply, shapeCast_self, shapeCast_self, shapeCast_self]

/-- The same with a residual `r` added entry by entry. -/
theorem affine_res_at (x r : Vec Ideal ⟨2, ![M, K]⟩ .f32) (s o : Vec Ideal ⟨2, ![1, K]⟩ .f32)
    (h : (⟨2, ![M, K]⟩ : Shape).ShapeCasts ⟨2, ![M, K]⟩) (h1 : (⟨2, ![1, K]⟩ : Shape).ShapeCasts ⟨2, ![1, K]⟩)
    (hb : (⟨2, ![1, K]⟩ : Shape).Broadcasts ⟨2, ![M, K]⟩) (p : Fin M) (q : Fin K) :
    (addf (addf (mulf (shapeCast ⟨2, ![M, K]⟩ x h) (broadcastTo ⟨2, ![M, K]⟩ (shapeCast ⟨2, ![1, K]⟩ s h1) hb))
      (broadcastTo ⟨2, ![M, K]⟩ (shapeCast ⟨2, ![1, K]⟩ o h1) hb)) (shapeCast ⟨2, ![M, K]⟩ r h) : FVec Ideal ⟨2, ![M, K]⟩ .f32) (ix2 p q)
      = (x (ix2 p q) * s (ix2 0 q) + o (ix2 0 q)) + r (ix2 p q) := by
  rw [addf_apply, affine_at, shapeCast_self]

/-- Row `r` of a table cut into blocks of `sz 0` rows and whole columns lies in block `r / sz 0`. -/
theorem mem_rows (ix sz : Fin 2 → ℕ) (inb : ∀ a, ix a * sz a + sz a ≤ (⟨2, ![N, K]⟩ : Shape).size a)
    (i : (⟨2, ![N, K]⟩ : Shape).Idx) (hM : 0 < sz 0) (h0 : ix 0 = (i 0).val / sz 0) (h1 : ix 1 = 0) (hK : K ≤ sz 1) :
    i ∈ (Rect.unit (fun a => ix a * sz a) sz inb).set := by
  rw [Rect.mem_set_unit]
  intro a
  match a with
  | ⟨0, _⟩ => exact h0 ▸ ⟨Nat.div_mul_le_self _ _, Nat.lt_div_mul_add hM⟩
  | ⟨1, _⟩ =>
    show ix 1 * sz 1 ≤ (i 1).val ∧ (i 1).val < ix 1 * sz 1 + sz 1
    rw [h1, Nat.zero_mul, Nat.zero_add]
    exact ⟨Nat.zero_le _, (idx2_lt1 i).trans_le hK⟩

end Cert.GNN.Affine

end
-- ==== Proof.LibRows.lean ====
import proofs.«419603_j44143673869053_2_alg».proof.Proof.Spec
import proofs.«419603_j44143673869053_2_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.GNN.Rows

open Idealize.ShloMosaic Idealize.ShloMosaic.ValueIdx

theorem hz : (![0, 0] : Fin 2 → Nat) = fun _ => 0 := funext fun a => by fin_cases a <;> rfl

-- A comparison against zero selecting between the entry and its exponential less one is the unit.
theorem elu_apply {s : Shape} (v : FVec Ideal s .f32) (i : s.Idx) :
    select (cmpf .ogt v (broadcast s (Scalar.ofBits .f32 0x00000000#32))) v
        (subf (exp v) (broadcast s (Scalar.ofBits .f32 0x3F800000#32))) i = elu (v i) := by
  show Scalar.select (Ideal.cmp .ogt (v i) (Ideal.ofBits .f32 0x00000000#32)) (v i)
      (Ideal.exp (v i) - Ideal.ofBits .f32 0x3F800000#32) = _
  rw [Ideal.ofBits_zero_f32, ofBits_one]
  unfold elu Scalar.select Ideal.cmp
  by_cases h : (0 : EReal) < v i <;> simp [h]

-- An M×K by K×N product into a zero accumulator, at one entry: the sum over the shared coordinate.
theorem mm_apply {φ₁ φ₂ : FTy} {M K N : ℕ} (d : DotDims ⟨2, ![M, K]⟩ ⟨2, ![K, N]⟩ ⟨2, ![M, N]⟩) (hd : d = DotDims.plain M K N)
    (A : FVec Ideal ⟨2, ![M, K]⟩ φ₁) (B : FVec Ideal ⟨2, ![K, N]⟩ φ₂) (r : Fin M) (j : Fin N) :
    matmul d none A B (constant (F := Ideal) ⟨2, ![M, N]⟩ .f32 0x00000000#32) (ix2 r j)
      = ∑ q : Fin K, A (ix2 r q) * B (ix2 q j) := by
  subst hd
  refine (Ideal.matmul_constant_zero_apply _ none A B (ix2 r j)).trans ?_
  rw [← Equiv.sum_comp (contrEquiv1 (DotDims.plain M K N) K rfl rfl).symm]
  refine Finset.sum_congr rfl fun q _ => ?_
  have c := contrEquiv1_symm_val (DotDims.plain M K N) K rfl rfl q
  refine congrArg₂ (· * ·) (congrArg A (funext fun a => Fin.ext ?_)) (congrArg B (funext fun a => Fin.ext ?_))
  · match a with
    | ⟨0, _⟩ => rfl
    | ⟨1, _⟩ => exact c
  · match a with
    | ⟨0, _⟩ => exact c
    | ⟨1, _⟩ => rfl

-- A row stretched down a block reads, at row p and column q, its own column q.
theorem row_bcast {a b : ℕ} (x : (⟨2, ![1, b]⟩ : Shape).Idx → EReal) (h : (⟨2, ![1, b]⟩ : Shape).ShapeCasts ⟨2, ![1, b]⟩)
    (h' : (⟨2, ![1, b]⟩ : Shape).Broadcasts ⟨2, ![a, b]⟩) (p : Fin a) (q : Fin b) :
    broadcastTo ⟨2, ![a, b]⟩ (shapeCast ⟨2, ![1, b]⟩ x h) h' (ix2 p q) = x (ix2 0 q) := by
  rw [shapeCast_self]
  exact broadcastTo_1b_ab_apply x h' p q

-- A sum down the rows of a block, kept as a row, at column j.
theorem colsum_apply {R C : ℕ} (src : FVec Ideal ⟨2, ![R, C]⟩ .f32) (h : (⟨2, ![R, C]⟩ : Shape).Reduces [0] ⟨1, ![C]⟩)
    (hφ : FKind.Formats .f32) (hacc : (0x00000000#32 : BitVec 32) = FKind.add.neutral .f32 hφ)
    (h1 : (⟨1, ![C]⟩ : Shape).ShapeCasts ⟨2, ![1, C]⟩) (j : Fin C) :
    shapeCast ⟨2, ![1, C]⟩ (multiReduction .add [0] ⟨1, ![C]⟩ src 0x00000000#32 h hφ hacc) h1 (ix2 0 j)
      = ∑ r : Fin R, src (ix2 r j) := by
  refine (shapeCast_a_1a_apply _ _ 0 j).trans ((Ideal.multiReduction_add_single src 0x00000000#32 h hφ hacc (ix1 j)).trans ?_)
  refine Finset.sum_congr rfl fun r _ => congrArg src (funext fun a => Fin.ext ?_)
  match a with
  | ⟨0, _⟩ => rfl
  | ⟨1, _⟩ => rfl

variable {M : ℕ} (f : Fin M → EReal)

-- The sum of f over the rows numbered below n.
def below (n : ℕ) : EReal := ∑ r ∈ Finset.range n, if h : r < M then f ⟨r, h⟩ else 0

theorem below_add (n B : ℕ) (h : n + B ≤ M) :
    below f (n + B) = below f n + ∑ r : Fin B, f ⟨n + r.val, by have := r.isLt; omega⟩ := by
  unfold below
  rw [Finset.sum_range_add, ← Fin.sum_univ_eq_sum_range (fun r => if h : n + r < M then f ⟨n + r, h⟩ else 0) B]
  exact congrArg _ (Finset.sum_congr rfl fun r _ => dif_pos _)

theorem below_zero (B : ℕ) {n : ℕ} (h : n = 0) : below f (B * n) = 0 := by
  subst h
  exact Finset.sum_range_zero _

theorem below_step (B n : ℕ) (h : B * n + B ≤ M) :
    below f (B * (n + 1)) = below f (B * n) + ∑ r : Fin B, f ⟨B * n + r.val, by have := r.isLt; omega⟩ := by
  rw [Nat.mul_succ]
  exact below_add f (B * n) B h

theorem below_all : below f M = ∑ e, f e := by
  unfold below
  rw [← Fin.sum_univ_eq_sum_range (fun r => if h : r < M then f ⟨r, h⟩ else 0) M]
  exact Finset.sum_congr rfl fun e _ => dif_pos e.isLt

end Cert.GNN.Rows

end
-- ==== Proof.KReg1.lean ====
import proofs.«419603_j44143673869053_2_alg».proof.Proof.Gen.KernelIdeal.Frame
import proofs.«419603_j44143673869053_2_alg».proof.Proof.LibAffine
import proofs.«419603_j44143673869053_2_alg».proof.Proof.LibRows
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.ValueIdx Cert.GNN.Affine Cert.GNN.Rows
open Idealize.ShloMosaic.Pipeline (Dat)

variable (V : (c : Dev nD) → (b : Ref sig .tc) → Buf (Elt Ideal) ((c : Thread nD τ).loc b))

abbrev b0 (c : Dev nD) : Vec Ideal S500000x32 .f32 := V c (Pipeline.arrRef spec1 0)
abbrev b1 (c : Dev nD) : Vec Ideal S500000x32 .f32 := V c (Pipeline.arrRef spec1 1)
abbrev b2 (c : Dev nD) : Vec Ideal S1x32 .f32 := V c (Pipeline.arrRef spec1 2)
abbrev b3 (c : Dev nD) : Vec Ideal S1x32 .f32 := V c (Pipeline.arrRef spec1 3)

theorem idx : ∀ t : Fin cfg1.N, win1_4.index t (0 : Fin 2) = t.val :=
  (by decide +kernel : ∀ t : Fin grid1.N, _)

abbrev G4 (c : Dev nD) : Vec Ideal S500000x32 .f32 :=
  fun i => b0 V c (ix2 (i 0) (i 1)) * b2 V c (ix2 0 (i 1)) + b3 V c (ix2 0 (i 1))

abbrev G5 (c : Dev nD) : Vec Ideal S500000x32 .f32 := fun i => G4 V c i + b1 V c (ix2 (i 0) (i 1))

theorem blk4 (c : Dev nD) (t : Fin cfg1.N) :
    k1_pay1 (iblk1 V c 0 t) (iblk1 V c 2 t) (iblk1 V c 3 t) = ((cfg1.win 4).blk t).view.read (Elt Ideal) (G4 V c) := by
  funext j
  obtain ⟨p, q, rfl⟩ : ∃ (p : Fin 5000) (q : Fin 32), j = ix2 p q := ⟨j 0, j 1, eq_ix2 j⟩
  exact (affine_at _ _ _ _ _ _ p q).trans (congrArg₂ (· + ·)
    (congrArg₂ (· * ·) (congrArg (b0 V c) (eq_ix2 _)) (congrArg (b2 V c) (Shape.idx_ext₂ rfl rfl)))
    (congrArg (b3 V c) (Shape.idx_ext₂ rfl rfl)))

theorem flushed4_eq (c : Dev nD) (t : Fin cfg1.N) :
    (dat1 V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S5000x32) hz, View.ld_unit_zero (S := S1x32) hz]
  exact blk4 V c t

theorem flushed5_eq (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S5000x32) hz, View.ld_unit_zero (S := S1x32) hz]
  unfold k1_pay2
  rw [blk4, shapeCast_self]
  exact funext fun j => congrArg (G4 V c _ + b1 V c ·) (eq_ix2 _)

theorem cover4 (i : S500000x32.Idx) :
    ∃ t : Fin cfg1.N, (cfg1.win 4).flush t = true ∧ i ∈ ((cfg1.win 4).blk t).view.set := by
  obtain ⟨t, ht⟩ : ∃ t : Fin cfg1.N, t.val = (i 0).val / 5000 := ⟨⟨_, (by have := idx2_lt0 i; omega : _ < 100)⟩, rfl⟩
  refine ⟨t, flush1_4 t, ?_⟩
  show i ∈ ((View.whole main_v37_0).slice (win1_4.rect t)).set
  rw [View.set_slice_whole]
  exact mem_rows _ _ _ i (by decide) ((idx t).trans ht) rfl (by decide)

theorem cover5 (i : S500000x32.Idx) :
    ∃ t : Fin cfg1.N, (cfg1.win 5).flush t = true ∧ i ∈ ((cfg1.win 5).blk t).view.set :=
  (cover4 i).imp fun t h => ⟨flush1_5 t, h.2⟩

theorem ne_val (c : Dev nD) : (dat1 V c).arrAt 4 cfg1.N
    = fun i => b0 V c (ix2 (i 0) (i 1)) * b2 V c (ix2 0 (i 1)) + b3 V c (ix2 0 (i 1)) :=
  (dat1 V c).arrAt_eq_of_cover 4 (G4 V c) (fun t _ => flushed4_eq V c t) cover4

theorem eo_val (c : Dev nD) : (dat1 V c).arrAt 5 cfg1.N
    = fun i => (b0 V c (ix2 (i 0) (i 1)) * b2 V c (ix2 0 (i 1)) + b3 V c (ix2 0 (i 1))) + b1 V c (ix2 (i 0) (i 1)) :=
  (dat1 V c).arrAt_eq_of_cover 5 (G5 V c) (fun t _ => flushed5_eq V c t) cover5

end Cert.KernelIdeal.Reg1

end
-- ==== Proof.KReg3.lean ====
import proofs.«419603_j44143673869053_2_alg».proof.Proof.Gen.KernelIdeal.Frame
import proofs.«419603_j44143673869053_2_alg».proof.Proof.LibAffine
import proofs.«419603_j44143673869053_2_alg».proof.Proof.LibRows
import Idealize.ShloMosaic.Lib.Pipeline.Value
import Idealize.ShloMosaic.Lib.ValueIdx

set_option maxRecDepth 16384

noncomputable section

namespace Cert.KernelIdeal.Reg3

open Cert.KernelIdeal Cert.KernelIdeal.Gen Idealize.ShloMosaic Idealize.ShloMosaic.TcCoe Idealize.SL.Sem
open Idealize.ShloMosaic.ValueIdx Cert.GNN.Affine Cert.GNN.Rows
open Idealize.ShloMosaic.Pipeline (Dat)

variable (V : (c : Dev nD) → (b : Ref sig .tc) → Buf (Elt Ideal) ((c : Thread nD τ).loc b))

abbrev d0 (c : Dev nD) : Vec Ideal S100000x128 .f32 := V c (Pipeline.arrRef spec3 0)
abbrev d1 (c : Dev nD) : Vec Ideal S100000x128 .f32 := V c (Pipeline.arrRef spec3 1)
abbrev d2 (c : Dev nD) : Vec Ideal S1x128 .f32 := V c (Pipeline.arrRef spec3 2)
abbrev d3 (c : Dev nD) : Vec Ideal S1x128 .f32 := V c (Pipeline.arrRef spec3 3)

theorem idx : ∀ t : Fin cfg3.N, win3_4.index t (0 : Fin 2) = t.val :=
  (by decide +kernel : ∀ t : Fin grid3.N, _)

abbrev G (c : Dev nD) : Vec Ideal S100000x128 .f32 :=
  fun i => (d0 V c (ix2 (i 0) (i 1)) * d2 V c (ix2 0 (i 1)) + d3 V c (ix2 0 (i 1))) + d1 V c (ix2 (i 0) (i 1))

theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  exact (affine_res_at _ _ _ _ _ _ _ p q).trans (congrArg₂ (· + ·) (congrArg₂ (· + ·)
    (congrArg₂ (· * ·) (congrArg (d0 V c) (eq_ix2 _)) (congrArg (d2 V c) (Shape.idx_ext₂ rfl rfl)))
    (congrArg (d3 V c) (Shape.idx_ext₂ rfl rfl))) (congrArg (d1 V c) (eq_ix2 _)))

theorem cover (i : S100000x128.Idx) :
    ∃ t : Fin cfg3.N, (cfg3.win 4).flush t = true ∧ i ∈ ((cfg3.win 4).blk t).view.set := by
  obtain ⟨t, ht⟩ : ∃ t : Fin cfg3.N, t.val = (i 0).val / 2000 := ⟨⟨_, (by have := idx2_lt0 i; omega : _ < 50)⟩, rfl⟩
  refine ⟨t, flush3_4 t, ?_⟩
  show i ∈ ((View.whole main_v84).slice (win3_4.rect t)).set
  rw [View.set_slice_whole]
  exact mem_rows _ _ _ i (by decide) ((idx t).trans ht) rfl (by decide)

theorem out_val (c : Dev nD) : (dat3 V c).arrAt 4 cfg3.N
    = fun i => (d0 V c (ix2 (i 0) (i 1)) * d2 V c (ix2 0 (i 1)) + d3 V c (ix2 0 (i 1))) + d1 V c (ix2 (i 0) (i 1)) :=
  (dat3 V c).arrAt_eq_of_cover 4 (G V c) (fun t _ => flushed_eq V c t) cover

end Cert.KernelIdeal.Reg3

end
-- ==== Proof.KReg0.lean ====
import proofs.«419603_j44143673869053_2_alg».proof.Proof.Gen.KernelIdeal.Frame
import proofs.«419603_j44143673869053_2_alg».proof.Proof.LibRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.GNN.Rows

section Arith

theorem pay6_apply (x0 x1 : Vec Ideal S5000x128 .f32) (x2 : Vec Ideal S5000x32 .f32) (x3 x4 : Vec Ideal S128x128 .f32)
    (x5 : Vec Ideal S32x128 .f32) (x6 : Vec Ideal S1x128 .f32) (r : Fin 5000) (k : Fin 128) :
    k0_pay6 x0 x1 x2 x3 x4 x5 x6 (ix2 r k)
      = Cert.GNN.elu ((((∑ q : Fin 128, x0 (ix2 r q) * x3 (ix2 q k)) + (∑ q : Fin 128, x1 (ix2 r q) * x4 (ix2 q k)))
          + (∑ q : Fin 32, x2 (ix2 r q) * x5 (ix2 q k))) + x6 (ix2 0 k)) := by
  unfold k0_pay6
  refine (elu_apply _ (ix2 r k)).trans (congrArg Cert.GNN.elu ?_)
  refine congrArg₂ (· + ·) (congrArg₂ (· + ·) (congrArg₂ (· + ·) ?_ ?_) ?_) (row_bcast x6 _ _ r k)
  all_goals
    refine (mm_apply _ rfl _ _ r k).trans ?_
    simp only [shapeCast_self]; rfl

theorem pay1_apply (v35 : FVec Ideal S5000x128 .f32) (v36 : Vec Ideal S128x32 .f32) (v41 : Vec Ideal S1x32 .f32)
    (r : Fin 5000) (j : Fin 32) :
    k0_pay1 v35 v36 v41 (ix2 r j)
      = Cert.GNN.elu ((∑ k : Fin 128, v35 (ix2 r k) * v36 (ix2 k j)) + v41 (ix2 0 j)) := by
  unfold k0_pay1
  refine (elu_apply _ (ix2 r j)).trans (congrArg Cert.GNN.elu (congrArg₂ (· + ·) ?_ (row_bcast v41 _ _ r j)))
  refine (mm_apply _ rfl _ _ r j).trans ?_
  simp only [shapeCast_self]; rfl

theorem pay2_apply (v35 : FVec Ideal S5000x128 .f32) (v36 : Vec Ideal S128x32 .f32) (v41 v52 : Vec Ideal S1x32 .f32) (j : Fin 32) :
    k0_pay2 v35 v36 v41 v52 (ix2 0 j) = v52 (ix2 0 j) + ∑ r : Fin 5000, k0_pay1 v35 v36 v41 (ix2 r j) := by
  unfold k0_pay2
  exact congrArg₂ (· + ·) (congrFun (shapeCast_self v52 _) (ix2 0 j)) (colsum_apply _ _ _ _ _ j)

theorem pay3_apply (v35 : FVec Ideal S5000x128 .f32) (v36 : Vec Ideal S128x32 .f32) (v41 v58 : Vec Ideal S1x32 .f32) (j : Fin 32) :
    k0_pay3 v35 v36 v41 v58 (ix2 0 j)
      = v58 (ix2 0 j) + ∑ r : Fin 5000, k0_pay1 v35 v36 v41 (ix2 r j) * k0_pay1 v35 v36 v41 (ix2 r j) := by
  unfold k0_pay3
  exact congrArg₂ (· + ·) (congrFun (shapeCast_self v58 _) (ix2 0 j)) (colsum_apply _ _ _ _ _ j)

theorem pay4_apply (i : S1x32.Idx) : k0_pay4 (F := Ideal) i = 0 := Ideal.ofBits_zero_f32
theorem pay5_apply (i : S1x32.Idx) : k0_pay5 (F := Ideal) i = 0 := Ideal.ofBits_zero_f32

end Arith

section Region
variable (V : (c : Dev nD) → (b : Ref sig .tc) → Buf (Elt Ideal) ((c : Thread nD τ).loc b))

abbrev a0 (c : Dev nD) : Vec Ideal S500000x128 .f32 := V c (Pipeline.arrRef spec0 0)
abbrev a1 (c : Dev nD) : Vec Ideal S500000x128 .f32 := V c (Pipeline.arrRef spec0 1)
abbrev a2 (c : Dev nD) : Vec Ideal S500000x32 .f32 := V c (Pipeline.arrRef spec0 2)
abbrev a3 (c : Dev nD) : Vec Ideal S128x128 .f32 := V c (Pipeline.arrRef spec0 3)
abbrev a4 (c : Dev nD) : Vec Ideal S128x128 .f32 := V c (Pipeline.arrRef spec0 4)
abbrev a5 (c : Dev nD) : Vec Ideal S32x128 .f32 := V c (Pipeline.arrRef spec0 5)
abbrev a6 (c : Dev nD) : Vec Ideal S1x128 .f32 := V c (Pipeline.arrRef spec0 6)
abbrev a7 (c : Dev nD) : Vec Ideal S128x32 .f32 := V c (Pipeline.arrRef spec0 7)
abbrev a8 (c : Dev nD) : Vec Ideal S1x32 .f32 := V c (Pipeline.arrRef spec0 8)

def h2fn (c : Dev nD) : Fin 500000 → Fin 32 → EReal := fun e j =>
  Cert.GNN.mlp2 (fun k => (((∑ q : Fin 128, a0 V c (ix2 e q) * a3 V c (ix2 q k)) + (∑ q : Fin 128, a1 V c (ix2 e q) * a4 V c (ix2 q k)))
      + (∑ q : Fin 32, a2 V c (ix2 e q) * a5 V c (ix2 q k))) + a6 V c (ix2 0 k))
    (fun j k => a7 V c (ix2 k j)) (fun j => a8 V c (ix2 0 j)) j

abbrev xb0 (c : Dev nD) (t : Fin cfg0.N) : Vec Ideal S5000x128 .f32 := iblk0 V c 0 t
abbrev xb1 (c : Dev nD) (t : Fin cfg0.N) : Vec Ideal S5000x128 .f32 := iblk0 V c 1 t
abbrev xb2 (c : Dev nD) (t : Fin cfg0.N) : Vec Ideal S5000x32 .f32 := iblk0 V c 2 t
abbrev xb3 (c : Dev nD) (t : Fin cfg0.N) : Vec Ideal S128x128 .f32 := iblk0 V c 3 t
abbrev xb4 (c : Dev nD) (t : Fin cfg0.N) : Vec Ideal S128x128 .f32 := iblk0 V c 4 t
abbrev xb5 (c : Dev nD) (t : Fin cfg0.N) : Vec Ideal S32x128 .f32 := iblk0 V c 5 t
abbrev xb6 (c : Dev nD) (t : Fin cfg0.N) : Vec Ideal S1x128 .f32 := iblk0 V c 6 t
abbrev xb7 (c : Dev nD) (t : Fin cfg0.N) : Vec Ideal S128x32 .f32 := iblk0 V c 7 t
abbrev xb8 (c : Dev nD) (t : Fin cfg0.N) : Vec Ideal S1x32 .f32 := iblk0 V c 8 t

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

def rowN (n : ℕ) (h : n < cfg0.N) (r : Fin 5000) : Fin 500000 :=
  ⟨5000 * n + r.val, by have hN : cfg0.N = 100 := N_0; have := r.isLt; omega⟩

theorem blk0 (c : Dev nD) (t : Fin cfg0.N) (p : Fin 5000) (q : Fin 128) :
    xb0 V c t (ix2 p q) = a0 V c (ix2 (rowN t.val t.isLt p) q) := by
  have hI := idx_facts t
  refine congrArg (a0 V c) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * q.val = q.val; omega
theorem blk1 (c : Dev nD) (t : Fin cfg0.N) (p : Fin 5000) (q : Fin 128) :
    xb1 V c t (ix2 p q) = a1 V c (ix2 (rowN t.val t.isLt p) q) := by
  have hI := idx_facts t
  refine congrArg (a1 V c) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * q.val = q.val; omega
theorem blk2 (c : Dev nD) (t : Fin cfg0.N) (p : Fin 5000) (q : Fin 32) :
    xb2 V c t (ix2 p q) = a2 V c (ix2 (rowN t.val t.isLt p) q) := by
  have hI := idx_facts t
  refine congrArg (a2 V c) (funext fun a => Fin.ext ?_)
  match a with
  | ⟨0, _⟩ => show win0_2.index t (0 : Fin 2) * 5000 + 1 * p.val = 5000 * t.val + p.val; omega
  | ⟨1, _⟩ => show win0_2.index t (1 : Fin 2) * 32 + 1 * q.val = q.val; omega
theorem blk3 (c : Dev nD) (t : Fin cfg0.N) (p : Fin 128) (q : Fin 128) :
    xb3 V c t (ix2 p q) = a3 V c (ix2 p q) := by
  have hI := idx_facts t
  refine congrArg (a3 V c) (funext fun a => Fin.ext ?_)
  match a with
  | ⟨0, _⟩ => show win0_3.index t (0 : Fin 2) * 128 + 1 * p.val = p.val; omega
  | ⟨1, _⟩ => show win0_3.index t (1 : Fin 2) * 128 + 1 * q.val = q.val; omega
theorem blk4 (c : Dev nD) (t : Fin cfg0.N) (p : Fin 128) (q : Fin 128) :
    xb4 V c t (ix2 p q) = a4 V c (ix2 p q) := by
  have hI := idx_facts t
  refine congrArg (a4 V c) (funext fun a => Fin.ext ?_)
  match a with
  | ⟨0, _⟩ => show win0_4.index t (0 : Fin 2) * 128 + 1 * p.val = p.val; omega
  | ⟨1, _⟩ => show win0_4.index t (1 : Fin 2) * 128 + 1 * q.val = q.val; omega
theorem blk5 (c : Dev nD) (t : Fin cfg0.N) (p : Fin 32) (q : Fin 128) :
    xb5 V c t (ix2 p q) = a5 V c (ix2 p q) := by
  have hI := idx_facts t
  refine congrArg (a5 V c) (funext fun a => Fin.ext ?_)
  match a with
  | ⟨0, _⟩ => show win0_5.index t (0 : Fin 2) * 32 + 1 * p.val = p.val; omega
  | ⟨1, _⟩ => show win0_5.index t (1 : Fin 2) * 128 + 1 * q.val = q.val; omega
theorem blk6 (c : Dev nD) (t : Fin cfg0.N) (p : Fin 1) (q : Fin 128) :
    xb6 V c t (ix2 p q) = a6 V c (ix2 p q) := by
  have hI := idx_facts t
  refine congrArg (a6 V c) (funext fun a => Fin.ext ?_)
  match a with
  | ⟨0, _⟩ => show win0_6.index t (0 : Fin 2) * 1 + 1 * p.val = p.val; omega
  | ⟨1, _⟩ => show win0_6.index t (1 : Fin 2) * 128 + 1 * q.val = q.val; omega
theorem blk7 (c : Dev nD) (t : Fin cfg0.N) (p : Fin 128) (q : Fin 32) :
    xb7 V c t (ix2 p q) = a7 V c (ix2 p q) := by
  have hI := idx_facts t
  refine congrArg (a7 V c) (funext fun a => Fin.ext ?_)
  match a with
  | ⟨0, _⟩ => show win0_7.index t (0 : Fin 2) * 128 + 1 * p.val = p.val; omega
  | ⟨1, _⟩ => show win0_7.index t (1 : Fin 2) * 32 + 1 * q.val = q.val; omega
theorem blk8 (c : Dev nD) (t : Fin cfg0.N) (p : Fin 1) (q : Fin 32) :
    xb8 V c t (ix2 p q) = a8 V c (ix2 p q) := by
  have hI := idx_facts t
  refine congrArg (a8 V c) (funext fun a => Fin.ext ?_)
  match a with
  | ⟨0, _⟩ => show win0_8.index t (0 : Fin 2) * 1 + 1 * p.val = p.val; omega
  | ⟨1, _⟩ => show win0_8.index t (1 : Fin 2) * 32 + 1 * q.val = q.val; omega

abbrev pre (c : Dev nD) (t : Fin cfg0.N) := k0_pay6 (xb0 V c t) (xb1 V c t) (xb2 V c t) (xb3 V c t) (xb4 V c t) (xb5 V c t) (xb6 V c t)

theorem h2_block (c : Dev nD) (t : Fin cfg0.N) (r : Fin 5000) (j : Fin 32) :
    k0_pay1 (pre V c t) (xb7 V c t) (xb8 V c t) (ix2 r j) = h2fn V c (rowN t.val t.isLt r) j := by
  refine (pay1_apply _ _ _ r j).trans ?_
  unfold h2fn Cert.GNN.mlp2
  refine congrArg Cert.GNN.elu (congrArg₂ (· + ·)
    (Finset.sum_congr rfl fun k _ => congrArg₂ (· * ·) ?_ (blk7 V c t k j)) (blk8 V c t 0 j))
  refine (pay6_apply _ _ _ _ _ _ _ r k).trans (congrArg Cert.GNN.elu ?_)
  refine congrArg₂ (· + ·) (congrArg₂ (· + ·) (congrArg₂ (· + ·) ?_ ?_) ?_) (blk6 V c t 0 k)
  · exact Finset.sum_congr rfl fun q _ => congrArg₂ (· * ·) (blk0 V c t r q) (blk3 V c t q k)
  · exact Finset.sum_congr rfl fun q _ => congrArg₂ (· * ·) (blk1 V c t r q) (blk4 V c t q k)
  · exact Finset.sum_congr rfl fun q _ => congrArg₂ (· * ·) (blk2 V c t r q) (blk5 V c t q k)

end Region

section Run
variable (V : (c : Dev nD) → (b : Ref sig .tc) → Buf (Elt Ideal) ((c : Thread nD τ).loc b))

theorem outs_A (c : Dev nD) (t : Fin cfg0.N) (h0 : t.val % 100 = 0) :
    outsAt0 V c t.val t.isLt = (k0_pay1 (pre V c t) (xb7 V c t) (xb8 V c t), k0_pay2 (pre V c t) (xb7 V c t) (xb8 V c t) (k0_pay4 (F := Ideal)), k0_pay3 (pre V c t) (xb7 V c t) (xb8 V c t) (k0_pay5 (F := Ideal))) := by
  rw [outsAt0_A V c t h0]
  unfold out0_A_9 out0_A_10 out0_A_11
  rw [View.read_writes_eq_canon _ _ _ fun _ => cover0_A_9 .., View.read_writes_eq_canon _ _ _ fun _ => cover0_A_10 ..,
    View.read_writes_eq_canon _ _ _ fun _ => cover0_A_11 ..]
  unfold kernelRun0_A
  dsimp only
  sl_unfold_words
  rw [View.canon_unit_zero hz, View.canon_cons_unit_zero (S := S1x32) hz, View.canon_cons_unit_zero (S := S1x32) hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S5000x128) hz, View.ld_unit_zero (S := S5000x32) hz, View.ld_unit_zero (S := S128x128) hz, View.ld_unit_zero (S := S32x128) hz, View.ld_unit_zero (S := S1x128) hz, View.ld_unit_zero (S := S128x32) hz, View.ld_unit_zero (S := S1x32) hz, View.readCov_unit_zero (S := S1x32) _ hz]

theorem outs_B (c : Dev nD) (t : Fin cfg0.N) (h0 : ¬t.val % 100 = 0) :
    outsAt0 V c t.val t.isLt = (k0_pay1 (pre V c t) (xb7 V c t) (xb8 V c t), k0_pay2 (pre V c t) (xb7 V c t) (xb8 V c t) (outsAt0 V c (t.val - 1) (Nat.lt_of_le_of_lt (Nat.sub_le _ _) t.isLt)).2.1,
      k0_pay3 (pre V c t) (xb7 V c t) (xb8 V c t) (outsAt0 V c (t.val - 1) (Nat.lt_of_le_of_lt (Nat.sub_le _ _) t.isLt)).2.2) := by
  rw [outsAt0_B V c t h0]
  unfold out0_B_9 out0_B_10 out0_B_11
  rw [View.read_writes_eq_canon _ _ _ fun _ => cover0_B_9 .., View.read_writes_eq_canon _ _ _ fun _ => cover0_B_10 ..,
    View.read_writes_eq_canon _ _ _ fun _ => cover0_B_11 ..]
  unfold kernelRun0_B
  dsimp only
  sl_unfold_words
  rw [View.canon_unit_zero hz, View.canon_unit_zero hz, View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S5000x128) hz, View.ld_unit_zero (S := S5000x32) hz, View.ld_unit_zero (S := S128x128) hz, View.ld_unit_zero (S := S32x128) hz, View.ld_unit_zero (S := S1x128) hz, View.ld_unit_zero (S := S128x32) hz, View.ld_unit_zero (S := S1x32) hz, View.readCov_unit_zero (S := S1x32) _ hz]

-- After point n the first output's block holds the formula on the point's rows, the two accumulators its sums over every row so far.
def Inv (c : Dev nD) (n : ℕ) (h : n < cfg0.N) : Prop :=
  (∀ (r : Fin 5000) (j : Fin 32), (outsAt0 V c n h).1 (ix2 r j) = h2fn V c (rowN n h r) j)
  ∧ (∀ j : Fin 32, (outsAt0 V c n h).2.1 (ix2 0 j) = below (fun e => h2fn V c e j) (5000 * (n + 1)))
  ∧ (∀ j : Fin 32, (outsAt0 V c n h).2.2 (ix2 0 j) = below (fun e => h2fn V c e j * h2fn V c e j) (5000 * (n + 1)))

theorem inv_A (c : Dev nD) (t : Fin cfg0.N) (h0 : t.val % 100 = 0) : Inv V c t.val t.isLt := by
  have hlt : t.val < 100 := lt_of_lt_of_eq t.isLt N_0
  have ht : t.val = 0 := by omega
  unfold Inv
  rw [outs_A V c t h0]
  dsimp only
  refine ⟨fun r j => h2_block V c t r j, fun j => ?_, fun j => ?_⟩
  · rw [pay2_apply, pay4_apply, Finset.sum_congr rfl (fun r _ => h2_block V c t r j),
      below_step (M := 500000) _ 5000 t.val (by omega), below_zero _ 5000 ht]
    rfl
  · rw [pay3_apply, pay5_apply, Finset.sum_congr rfl (fun r _ => congrArg₂ (· * ·) (h2_block V c t r j) (h2_block V c t r j)),
      below_step (M := 500000) _ 5000 t.val (by omega), below_zero _ 5000 ht]
    rfl

theorem inv_B (c : Dev nD) (t : Fin cfg0.N) (h0 : ¬t.val % 100 = 0)
    (ih : Inv V c (t.val - 1) (Nat.lt_of_le_of_lt (Nat.sub_le _ _) t.isLt)) : Inv V c t.val t.isLt := by
  have hlt : t.val < 100 := lt_of_lt_of_eq t.isLt N_0
  have hpos : t.val - 1 + 1 = t.val := by omega
  obtain ⟨-, ih10, ih11⟩ := ih
  unfold Inv
  rw [outs_B V c t h0]
  dsimp only
  refine ⟨fun r j => h2_block V c t r j, fun j => ?_, fun j => ?_⟩
  · rw [pay2_apply, ih10 j, hpos, Finset.sum_congr rfl (fun r _ => h2_block V c t r j), below_step (M := 500000) _ 5000 t.val (by omega)]
    rfl
  · rw [pay3_apply, ih11 j, hpos, Finset.sum_congr rfl (fun r _ => congrArg₂ (· * ·) (h2_block V c t r j) (h2_block V c t r j)),
      below_step (M := 500000) _ 5000 t.val (by omega)]
    rfl

theorem inv_all (c : Dev nD) : ∀ (n : ℕ) (h : n < cfg0.N), Inv V c n h
  | 0, h => inv_A V c ⟨0, h⟩ (Nat.zero_mod _)
  | n + 1, h => by
    have hN : cfg0.N = 100 := N_0
    exact inv_B V c ⟨n + 1, h⟩ (by dsimp only; omega) (inv_all c n (Nat.lt_of_succ_lt h))

abbrev G9 (c : Dev nD) : Vec Ideal S500000x32 .f32 := fun i => h2fn V c (i 0) (i 1)
abbrev G10 (c : Dev nD) : Vec Ideal S1x32 .f32 := fun i => Cert.GNN.colSum (h2fn V c) (i 1)
abbrev G11 (c : Dev nD) : Vec Ideal S1x32 .f32 := fun i => Cert.GNN.colSumSq (h2fn V c) (i 1)

theorem flushed9_eq (c : Dev nD) (t : Fin cfg0.N) :
    (dat0 V c).flushed 9 t = ((cfg0.win 9).blk t).view.read (Elt Ideal) (G9 V c) := by
  have hI := idx_facts t
  show (cfg0.win 9).cut (grid0.coords t) ((dat0 V c).after 9 t) = _
  rw [after0_9]
  funext y
  obtain ⟨r, j, rfl⟩ : ∃ (r : Fin 5000) (j : Fin 32), y = ix2 r j := ⟨y 0, y 1, eq_ix2 y⟩
  rw [View.read_apply]
  show (outsAt0 V c t.val t.isLt).1 (ix2 r j) = h2fn V c _ _
  rw [(inv_all V c t.val t.isLt).1 r j]
  congr 1 <;> apply Fin.ext
  · show 5000 * t.val + r.val = win0_9.index t (0 : Fin 2) * 5000 + 1 * r.val; omega
  · show j.val = win0_9.index t (1 : Fin 2) * 32 + 1 * j.val; omega

theorem sum_all (c : Dev nD) (j : Fin 32) : below (fun e => h2fn V c e j) (5000 * 100) = Cert.GNN.colSum (h2fn V c) j := below_all _
theorem sumsq_all (c : Dev nD) (j : Fin 32) :
    below (fun e => h2fn V c e j * h2fn V c e j) (5000 * 100) = Cert.GNN.colSumSq (h2fn V c) j := below_all _

attribute [local irreducible] Cert.GNN.colSum Cert.GNN.colSumSq

theorem flushed10_eq (c : Dev nD) (t : Fin cfg0.N) (hf : (cfg0.win 10).flush t = true) :
    (dat0 V c).flushed 10 t = ((cfg0.win 10).blk t).view.read (Elt Ideal) (G10 V c) := by
  have hI := idx_facts t
  have h99 : t.val + 1 = 100 := by have := (flush0_10 t).mp hf; have := lt_of_lt_of_eq t.isLt N_0; omega
  show (cfg0.win 10).cut (grid0.coords t) ((dat0 V c).after 10 t) = _
  rw [after0_10]
  funext y
  obtain ⟨u, j, rfl⟩ : ∃ (u : Fin 1) (j : Fin 32), y = ix2 u j := ⟨y 0, y 1, eq_ix2 y⟩
  obtain rfl : u = 0 := Subsingleton.elim _ _
  rw [View.read_apply]
  show (outsAt0 V c t.val t.isLt).2.1 (ix2 0 j) = Cert.GNN.colSum (h2fn V c) _
  rw [(inv_all V c t.val t.isLt).2.1 j, h99, sum_all]
  congr 1; apply Fin.ext
  show j.val = win0_10.index t (1 : Fin 2) * 32 + 1 * j.val; omega

theorem flushed11_eq (c : Dev nD) (t : Fin cfg0.N) (hf : (cfg0.win 11).flush t = true) :
    (dat0 V c).flushed 11 t = ((cfg0.win 11).blk t).view.read (Elt Ideal) (G11 V c) := by
  have hI := idx_facts t
  have h99 : t.val + 1 = 100 := by have := (flush0_11 t).mp hf; have := lt_of_lt_of_eq t.isLt N_0; omega
  show (cfg0.win 11).cut (grid0.coords t) ((dat0 V c).after 11 t) = _
  rw [after0_11]
  funext y
  obtain ⟨u, j, rfl⟩ : ∃ (u : Fin 1) (j : Fin 32), y = ix2 u j := ⟨y 0, y 1, eq_ix2 y⟩
  obtain rfl : u = 0 := Subsingleton.elim _ _
  rw [View.read_apply]
  show (outsAt0 V c t.val t.isLt).2.2 (ix2 0 j) = Cert.GNN.colSumSq (h2fn V c) _
  rw [(inv_all V c t.val t.isLt).2.2 j, h99, sumsq_all]
  congr 1; apply Fin.ext
  show j.val = win0_11.index t (1 : Fin 2) * 32 + 1 * j.val; omega

theorem cover9 (i : S500000x32.Idx) : ∃ t : Fin cfg0.N, (cfg0.win 9).flush t = true ∧ i ∈ ((cfg0.win 9).blk t).view.set := by
  have hN : cfg0.N = 100 := N_0
  have hi0 : (i 0).val < 500000 := (i 0).isLt
  have hi1 : (i 1).val < 32 := (i 1).isLt
  obtain ⟨t, ht⟩ : ∃ t : Fin cfg0.N, t.val = (i 0).val / 5000 := ⟨⟨(i 0).val / 5000, by omega⟩, rfl⟩
  have hI := idx_facts t
  refine ⟨t, flush0_9 t, ?_⟩
  show i ∈ ((View.whole main_v17_0).slice (win0_9.rect t)).set
  rw [View.set_slice_whole, Rect.mem_set_unit]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 32 ≤ (i 1).val ∧ (i 1).val < win0_9.index t (1 : Fin 2) * 32 + 32; omega

theorem cover10 (i : S1x32.Idx) : ∃ t : Fin cfg0.N, (cfg0.win 10).flush t = true ∧ i ∈ ((cfg0.win 10).blk t).view.set := by
  have hN : cfg0.N = 100 := N_0
  have hi0 : (i 0).val < 1 := (i 0).isLt
  have hi1 : (i 1).val < 32 := (i 1).isLt
  obtain ⟨t, ht⟩ : ∃ t : Fin cfg0.N, t.val = 99 := ⟨⟨99, by omega⟩, rfl⟩
  have hI := idx_facts t
  refine ⟨t, (flush0_10 t).mpr (by omega), ?_⟩
  show i ∈ ((View.whole main_v17_1).slice (win0_10.rect t)).set
  rw [View.set_slice_whole, Rect.mem_set_unit]
  intro a
  match a with
  | ⟨0, _⟩ => show win0_10.index t (0 : Fin 2) * 1 ≤ (i 0).val ∧ (i 0).val < win0_10.index t (0 : Fin 2) * 1 + 1; omega
  | ⟨1, _⟩ => show win0_10.index t (1 : Fin 2) * 32 ≤ (i 1).val ∧ (i 1).val < win0_10.index t (1 : Fin 2) * 32 + 32; omega

theorem cover11 (i : S1x32.Idx) : ∃ t : Fin cfg0.N, (cfg0.win 11).flush t = true ∧ i ∈ ((cfg0.win 11).blk t).view.set := by
  have hN : cfg0.N = 100 := N_0
  have hi0 : (i 0).val < 1 := (i 0).isLt
  have hi1 : (i 1).val < 32 := (i 1).isLt
  obtain ⟨t, ht⟩ : ∃ t : Fin cfg0.N, t.val = 99 := ⟨⟨99, by omega⟩, rfl⟩
  have hI := idx_facts t
  refine ⟨t, (flush0_11 t).mpr (by omega), ?_⟩
  show i ∈ ((View.whole main_v17_2).slice (win0_11.rect t)).set
  rw [View.set_slice_whole, Rect.mem_set_unit]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 32 ≤ (i 1).val ∧ (i 1).val < win0_11.index t (1 : Fin 2) * 32 + 32; omega

theorem h2_val (c : Dev nD) : (dat0 V c).arrAt 9 cfg0.N = fun i => h2fn V c (i 0) (i 1) :=
  (dat0 V c).arrAt_eq_of_cover 9 (G9 V c) (fun t _ => flushed9_eq V c t) cover9

theorem sum_val (c : Dev nD) : (dat0 V c).arrAt 10 cfg0.N = fun i => Cert.GNN.colSum (h2fn V c) (i 1) :=
  (dat0 V c).arrAt_eq_of_cover 10 (G10 V c) (flushed10_eq V c) cover10

theorem sumsq_val (c : Dev nD) : (dat0 V c).arrAt 11 cfg0.N = fun i => Cert.GNN.colSumSq (h2fn V c) (i 1) :=
  (dat0 V c).arrAt_eq_of_cover 11 (G11 V c) (flushed11_eq V c) cover11

end Run

end Cert.KernelIdeal.Reg0

end
-- ==== Proof.KReg2.lean ====
import proofs.«419603_j44143673869053_2_alg».proof.Proof.Gen.KernelIdeal.Frame
import proofs.«419603_j44143673869053_2_alg».proof.Proof.LibRows
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Reg2

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen Cert.GNN.Rows

section Arith

theorem pay6_apply (x0 : Vec Ideal S2000x128 .f32) (x1 : Vec Ideal S2000x32 .f32) (x2 : Vec Ideal S128x256 .f32)
    (x3 : Vec Ideal S32x256 .f32) (x4 : Vec Ideal S1x256 .f32) (x5 : Vec Ideal S256x128 .f32) (x6 : Vec Ideal S1x128 .f32)
    (r : Fin 2000) (j : Fin 128) :
    k2_pay6 x0 x1 x2 x3 x4 x5 x6 (ix2 r j)
      = (∑ k : Fin 256, Cert.GNN.elu (((∑ q : Fin 128, x0 (ix2 r q) * x2 (ix2 q k)) + (∑ q : Fin 32, x1 (ix2 r q) * x3 (ix2 q k))) + x4 (ix2 0 k)) * x5 (ix2 k j))
        + x6 (ix2 0 j) := by
  unfold k2_pay6
  refine congrArg₂ (· + ·) ((mm_apply _ rfl _ _ r j).trans (Finset.sum_congr rfl fun k _ =>
    congrArg₂ (· * ·) ?_ (congrFun (shapeCast_self x5 _) (ix2 k j)))) (row_bcast x6 _ _ r j)
  refine (elu_apply _ (ix2 r k)).trans (congrArg Cert.GNN.elu (congrArg₂ (· + ·) (congrArg₂ (· + ·) ?_ ?_) (row_bcast x4 _ _ r k)))
  all_goals exact (mm_apply _ rfl _ _ r k).trans (Finset.sum_congr rfl fun q _ =>
    congrArg₂ (· * ·) (congrFun (shapeCast_self _ _) _) (congrFun (shapeCast_self _ _) _))

theorem pay1_apply (v : FVec Ideal S2000x128 .f32) (r : Fin 2000) (j : Fin 128) :
    k2_pay1 v (ix2 r j) = Cert.GNN.elu (v (ix2 r j)) := elu_apply v (ix2 r j)

theorem pay2_apply (v : FVec Ideal S2000x128 .f32) (acc : Vec Ideal S1x128 .f32) (j : Fin 128) :
    k2_pay2 v acc (ix2 0 j) = acc (ix2 0 j) + ∑ r : Fin 2000, k2_pay1 v (ix2 r j) := by
  unfold k2_pay2
  exact congrArg₂ (· + ·) (congrFun (shapeCast_self acc _) (ix2 0 j)) (colsum_apply _ _ _ _ _ j)

theorem pay3_apply (v : FVec Ideal S2000x128 .f32) (acc : Vec Ideal S1x128 .f32) (j : Fin 128) :
    k2_pay3 v acc (ix2 0 j) = acc (ix2 0 j) + ∑ r : Fin 2000, k2_pay1 v (ix2 r j) * k2_pay1 v (ix2 r j) := by
  unfold k2_pay3
  exact congrArg₂ (· + ·) (congrFun (shapeCast_self acc _) (ix2 0 j)) (colsum_apply _ _ _ _ _ j)

theorem pay4_apply (j : Fin 128) : k2_pay4 (F := Ideal) (ix2 0 j) = 0 := Ideal.ofBits_zero_f32
theorem pay5_apply (j : Fin 128) : k2_pay5 (F := Ideal) (ix2 0 j) = 0 := Ideal.ofBits_zero_f32

end Arith

section Region

variable (V : (c : Dev nD) → (b : Ref sig .tc) → Buf (Elt Ideal) ((c : Thread nD τ).loc b))

abbrev n0 (c : Dev nD) : Vec Ideal S100000x128 .f32 := V c (Pipeline.arrRef spec2 0)
abbrev n1 (c : Dev nD) : Vec Ideal S100000x32 .f32 := V c (Pipeline.arrRef spec2 1)
abbrev n2 (c : Dev nD) : Vec Ideal S128x256 .f32 := V c (Pipeline.arrRef spec2 2)
abbrev n3 (c : Dev nD) : Vec Ideal S32x256 .f32 := V c (Pipeline.arrRef spec2 3)
abbrev n4 (c : Dev nD) : Vec Ideal S1x256 .f32 := V c (Pipeline.arrRef spec2 4)
abbrev n5 (c : Dev nD) : Vec Ideal S256x128 .f32 := V c (Pipeline.arrRef spec2 5)
abbrev n6 (c : Dev nD) : Vec Ideal S1x128 .f32 := V c (Pipeline.arrRef spec2 6)
abbrev b0 (c : Dev nD) (t : Fin cfg2.N) : Vec Ideal S2000x128 .f32 := iblk2 V c 0 t
abbrev b1 (c : Dev nD) (t : Fin cfg2.N) : Vec Ideal S2000x32 .f32 := iblk2 V c 1 t
abbrev b2 (c : Dev nD) (t : Fin cfg2.N) : Vec Ideal S128x256 .f32 := iblk2 V c 2 t
abbrev b3 (c : Dev nD) (t : Fin cfg2.N) : Vec Ideal S32x256 .f32 := iblk2 V c 3 t
abbrev b4 (c : Dev nD) (t : Fin cfg2.N) : Vec Ideal S1x256 .f32 := iblk2 V c 4 t
abbrev b5 (c : Dev nD) (t : Fin cfg2.N) : Vec Ideal S256x128 .f32 := iblk2 V c 5 t
abbrev b6 (c : Dev nD) (t : Fin cfg2.N) : Vec Ideal S1x128 .f32 := iblk2 V c 6 t

theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

theorem N50 (t : Fin cfg2.N) : t.val < 50 := lt_of_lt_of_eq t.isLt (show cfg2.N = 50 from N_2)

def rowN (t : Fin cfg2.N) (r : Fin 2000) : Fin 100000 := ⟨2000 * t.val + r.val, by have := N50 t; have := r.isLt; omega⟩

theorem blk0 (c : Dev nD) (t : Fin cfg2.N) (r : Fin 2000) (q : Fin 128) :
    b0 V c t (ix2 r q) = n0 V c (ix2 (rowN t r) q) := by
  have hI := idx_facts t
  refine congrArg (n0 V c) (funext fun a => Fin.ext ?_)
  match a with
  | ⟨0, _⟩ => show win2_0.index t (0 : Fin 2) * 2000 + 1 * r.val = 2000 * t.val + r.val; omega
  | ⟨1, _⟩ => show win2_0.index t (1 : Fin 2) * 128 + 1 * q.val = q.val; omega
theorem blk1 (c : Dev nD) (t : Fin cfg2.N) (r : Fin 2000) (q : Fin 32) :
    b1 V c t (ix2 r q) = n1 V c (ix2 (rowN t r) q) := by
  have hI := idx_facts t
  refine congrArg (n1 V c) (funext fun a => Fin.ext ?_)
  match a with
  | ⟨0, _⟩ => show win2_1.index t (0 : Fin 2) * 2000 + 1 * r.val = 2000 * t.val + r.val; omega
  | ⟨1, _⟩ => show win2_1.index t (1 : Fin 2) * 32 + 1 * q.val = q.val; omega
theorem blk2 (c : Dev nD) (t : Fin cfg2.N) : b2 V c t = n2 V c := by
  have hI := idx_facts t
  funext y
  refine congrArg (n2 V c) (funext fun a => Fin.ext ?_)
  match a with
  | ⟨0, _⟩ => show win2_2.index t (0 : Fin 2) * 128 + 1 * (y 0).val = (y 0).val; omega
  | ⟨1, _⟩ => show win2_2.index t (1 : Fin 2) * 256 + 1 * (y 1).val = (y 1).val; omega
theorem blk3 (c : Dev nD) (t : Fin cfg2.N) : b3 V c t = n3 V c := by
  have hI := idx_facts t
  funext y
  refine congrArg (n3 V c) (funext fun a => Fin.ext ?_)
  match a with
  | ⟨0, _⟩ => show win2_3.index t (0 : Fin 2) * 32 + 1 * (y 0).val = (y 0).val; omega
  | ⟨1, _⟩ => show win2_3.index t (1 : Fin 2) * 256 + 1 * (y 1).val = (y 1).val; omega
theorem blk4 (c : Dev nD) (t : Fin cfg2.N) : b4 V c t = n4 V c := by
  have hI := idx_facts t
  funext y
  refine congrArg (n4 V c) (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega
theorem blk5 (c : Dev nD) (t : Fin cfg2.N) : b5 V c t = n5 V c := by
  have hI := idx_facts t
  funext y
  refine congrArg (n5 V c) (funext fun a => Fin.ext ?_)
  match a with
  | ⟨0, _⟩ => show win2_5.index t (0 : Fin 2) * 256 + 1 * (y 0).val = (y 0).val; omega
  | ⟨1, _⟩ => show win2_5.index t (1 : Fin 2) * 128 + 1 * (y 1).val = (y 1).val; omega
theorem blk6 (c : Dev nD) (t : Fin cfg2.N) : b6 V c t = n6 V c := by
  have hI := idx_facts t
  funext y
  refine congrArg (n6 V c) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

def h2fn (c : Dev nD) : Fin 100000 → Fin 128 → EReal := fun n j =>
  Cert.GNN.mlp2 (fun k => ((∑ q : Fin 128, n0 V c (ix2 n q) * n2 V c (ix2 q k)) + (∑ q : Fin 32, n1 V c (ix2 n q) * n3 V c (ix2 q k))) + n4 V c (ix2 0 k))
    (fun j k => n5 V c (ix2 k j)) (fun j => n6 V c (ix2 0 j)) j

abbrev pre (c : Dev nD) (t : Fin cfg2.N) := k2_pay6 (b0 V c t) (b1 V c t) (b2 V c t) (b3 V c t) (b4 V c t) (b5 V c t) (b6 V c t)

theorem h2_block (c : Dev nD) (t : Fin cfg2.N) (r : Fin 2000) (j : Fin 128) :
    k2_pay1 (pre V c t) (ix2 r j) = h2fn V c (rowN t r) j := by
  unfold pre
  rw [pay1_apply, pay6_apply, blk2, blk3, blk4, blk5, blk6]
  simp only [blk0, blk1]
  rfl

theorem outs_A (c : Dev nD) (t : Fin cfg2.N) (h0 : t.val % 50 = 0) :
    outsAt2 V c t.val t.isLt = (k2_pay1 (pre V c t), k2_pay2 (pre V c t) (k2_pay4 (F := Ideal)), k2_pay3 (pre V c t) (k2_pay5 (F := Ideal))) := by
  rw [outsAt2_A V c t h0]
  unfold out2_A_7 out2_A_8 out2_A_9
  rw [View.read_writes_eq_canon _ _ _ fun _ => cover2_A_7 .., View.read_writes_eq_canon _ _ _ fun _ => cover2_A_8 ..,
    View.read_writes_eq_canon _ _ _ fun _ => cover2_A_9 ..]
  unfold kernelRun2_A
  dsimp only
  sl_unfold_words
  rw [View.canon_unit_zero hz, View.canon_cons_unit_zero (S := S1x128) hz, View.canon_cons_unit_zero (S := S1x128) hz]
  simp only [View.readAt_eq_ld, (hs2_0 t).read_unread, (hs2_1 t).read_unread, (hs2_2 t).read_unread, (hs2_3 t).read_unread, (hs2_4 t).read_unread, (hs2_5 t).read_unread, (hs2_6 t).read_unread, (hs2_8 t).read_unread, (hs2_9 t).read_unread, View.ld_unit_zero (S := S2000x128) hz, View.ld_unit_zero (S := S2000x32) hz, View.ld_unit_zero (S := S128x256) hz, View.ld_unit_zero (S := S32x256) hz, View.ld_unit_zero (S := S1x256) hz, View.ld_unit_zero (S := S256x128) hz, View.ld_unit_zero (S := S1x128) hz, View.readCov_unit_zero (S := S1x128) _ hz]

theorem outs_B (c : Dev nD) (t : Fin cfg2.N) (h0 : ¬t.val % 50 = 0) :
    outsAt2 V c t.val t.isLt = (k2_pay1 (pre V c t), k2_pay2 (pre V c t) (outsAt2 V c (t.val - 1) (Nat.lt_of_le_of_lt (Nat.sub_le _ _) t.isLt)).2.1,
      k2_pay3 (pre V c t) (outsAt2 V c (t.val - 1) (Nat.lt_of_le_of_lt (Nat.sub_le _ _) t.isLt)).2.2) := by
  rw [outsAt2_B V c t h0]
  unfold out2_B_7 out2_B_8 out2_B_9
  rw [View.read_writes_eq_canon _ _ _ fun _ => cover2_B_7 .., View.read_writes_eq_canon _ _ _ fun _ => cover2_B_8 ..,
    View.read_writes_eq_canon _ _ _ fun _ => cover2_B_9 ..]
  unfold kernelRun2_B
  dsimp only
  sl_unfold_words
  rw [View.canon_unit_zero hz, View.canon_unit_zero hz, View.canon_unit_zero hz]
  simp only [View.readAt_eq_ld, (hs2_0 t).read_unread, (hs2_1 t).read_unread, (hs2_2 t).read_unread, (hs2_3 t).read_unread, (hs2_4 t).read_unread, (hs2_5 t).read_unread, (hs2_6 t).read_unread, (hs2_8 t).read_unread, (hs2_9 t).read_unread, View.ld_unit_zero (S := S2000x128) hz, View.ld_unit_zero (S := S2000x32) hz, View.ld_unit_zero (S := S128x256) hz, View.ld_unit_zero (S := S32x256) hz, View.ld_unit_zero (S := S1x256) hz, View.ld_unit_zero (S := S256x128) hz, View.ld_unit_zero (S := S1x128) hz, View.readCov_unit_zero (S := S1x128) _ hz]

def Inv (c : Dev nD) (n : ℕ) (h : n < cfg2.N) : Prop :=
  (∀ (r : Fin 2000) (j : Fin 128), (outsAt2 V c n h).1 (ix2 r j) = h2fn V c (rowN ⟨n, h⟩ r) j)
  ∧ (∀ j : Fin 128, (outsAt2 V c n h).2.1 (ix2 0 j) = below (fun e => h2fn V c e j) (2000 * (n + 1)))
  ∧ (∀ j : Fin 128, (outsAt2 V c n h).2.2 (ix2 0 j) = below (fun e => h2fn V c e j * h2fn V c e j) (2000 * (n + 1)))

theorem inv_A (c : Dev nD) (t : Fin cfg2.N) (h0 : t.val % 50 = 0) : Inv V c t.val t.isLt := by
  have hlt := N50 t
  have ht : t.val = 0 := by omega
  unfold Inv
  rw [outs_A V c t h0]
  dsimp only
  refine ⟨fun r j => h2_block V c t r j, fun j => ?_, fun j => ?_⟩
  · rw [pay2_apply, pay4_apply, Finset.sum_congr rfl (fun r _ => h2_block V c t r j),
      below_step (M := 100000) _ 2000 t.val (by omega), below_zero _ 2000 ht]
    rfl
  · rw [pay3_apply, pay5_apply, Finset.sum_congr rfl (fun r _ => congrArg₂ (· * ·) (h2_block V c t r j) (h2_block V c t r j)),
      below_step (M := 100000) _ 2000 t.val (by omega), below_zero _ 2000 ht]
    rfl

theorem inv_B (c : Dev nD) (t : Fin cfg2.N) (h0 : ¬t.val % 50 = 0)
    (ih : Inv V c (t.val - 1) (Nat.lt_of_le_of_lt (Nat.sub_le _ _) t.isLt)) : Inv V c t.val t.isLt := by
  have hlt := N50 t
  have hpos : t.val - 1 + 1 = t.val := by omega
  obtain ⟨-, ih8, ih9⟩ := ih
  unfold Inv
  rw [outs_B V c t h0]
  dsimp only
  refine ⟨fun r j => h2_block V c t r j, fun j => ?_, fun j => ?_⟩
  · rw [pay2_apply, ih8 j, hpos, Finset.sum_congr rfl (fun r _ => h2_block V c t r j), below_step (M := 100000) _ 2000 t.val (by omega)]
    rfl
  · rw [pay3_apply, ih9 j, hpos, Finset.sum_congr rfl (fun r _ => congrArg₂ (· * ·) (h2_block V c t r j) (h2_block V c t r j)),
      below_step (M := 100000) _ 2000 t.val (by omega)]
    rfl

theorem inv_all (c : Dev nD) : ∀ (n : ℕ) (h : n < cfg2.N), Inv V c n h
  | 0, h => inv_A V c ⟨0, h⟩ (Nat.zero_mod _)
  | n + 1, h => by
    have hN : cfg2.N = 50 := N_2
    exact inv_B V c ⟨n + 1, h⟩ (by dsimp only; omega) (inv_all c n (Nat.lt_of_succ_lt h))

theorem flushed7 (c : Dev nD) (t : Fin cfg2.N) :
    (dat2 V c).flushed 7 t = ((cfg2.win 7).blk t).view.read (Elt Ideal) (fun i : S100000x128.Idx => h2fn V c (i 0) (i 1)) := by
  have hI := idx_facts t
  show (cfg2.win 7).cut (grid2.coords t) ((dat2 V c).after 7 t) = _
  rw [after2_7]
  funext y
  obtain ⟨r, j, rfl⟩ : ∃ (r : Fin 2000) (j : Fin 128), y = ix2 r j := ⟨y 0, y 1, eq_ix2 y⟩
  rw [View.read_apply]
  show (outsAt2 V c t.val t.isLt).1 (ix2 r j) = h2fn V c _ _
  rw [(inv_all V c t.val t.isLt).1 r j]
  congr 1 <;> apply Fin.ext
  · show 2000 * t.val + r.val = win2_7.index t (0 : Fin 2) * 2000 + 1 * r.val; omega
  · show j.val = win2_7.index t (1 : Fin 2) * 128 + 1 * j.val; omega

theorem cover7 (i : S100000x128.Idx) : ∃ t : Fin cfg2.N, (cfg2.win 7).flush t = true ∧ i ∈ ((cfg2.win 7).blk t).view.set := by
  have hi0 : (i 0).val < 100000 := (i 0).isLt
  have hi1 : (i 1).val < 128 := (i 1).isLt
  obtain ⟨t, ht⟩ : ∃ t : Fin cfg2.N, t.val = (i 0).val / 2000 := ⟨⟨(i 0).val / 2000, by rw [show cfg2.N = 50 from N_2]; omega⟩, rfl⟩
  have hI := idx_facts t
  refine ⟨t, flush2_7 t, ?_⟩
  show i ∈ ((View.whole main_v64_0).slice (win2_7.rect t)).set
  rw [View.set_slice_whole, Rect.mem_set_unit]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

theorem h2_val (c : Dev nD) : (dat2 V c).arrAt 7 cfg2.N = fun i => h2fn V c (i 0) (i 1) :=
  (dat2 V c).arrAt_eq_of_cover 7 (fun i : S100000x128.Idx => h2fn V c (i 0) (i 1)) (fun t _ => flushed7 V c t) cover7

theorem sum_all (c : Dev nD) (j : Fin 128) : below (fun e => h2fn V c e j) (2000 * 50) = Cert.GNN.colSum (h2fn V c) j := below_all _
theorem sumsq_all (c : Dev nD) (j : Fin 128) :
    below (fun e => h2fn V c e j * h2fn V c e j) (2000 * 50) = Cert.GNN.colSumSq (h2fn V c) j := below_all _

attribute [local irreducible] Cert.GNN.colSum Cert.GNN.colSumSq

theorem flushed8 (c : Dev nD) (t : Fin cfg2.N) (hf : (cfg2.win 8).flush t = true) :
    (dat2 V c).flushed 8 t = ((cfg2.win 8).blk t).view.read (Elt Ideal) (fun i : S1x128.Idx => Cert.GNN.colSum (h2fn V c) (i 1)) := by
  have hI := idx_facts t
  have h49 : t.val + 1 = 50 := by have := (flush2_8 t).mp hf; have := N50 t; omega
  show (cfg2.win 8).cut (grid2.coords t) ((dat2 V c).after 8 t) = _
  rw [after2_8]
  funext y
  obtain ⟨u, j, rfl⟩ : ∃ (u : Fin 1) (j : Fin 128), y = ix2 u j := ⟨y 0, y 1, eq_ix2 y⟩
  obtain rfl : u = 0 := Subsingleton.elim _ _
  rw [View.read_apply]
  show (outsAt2 V c t.val t.isLt).2.1 (ix2 0 j) = Cert.GNN.colSum (h2fn V c) _
  rw [(inv_all V c t.val t.isLt).2.1 j, h49, sum_all]
  congr 1; apply Fin.ext
  show j.val = win2_8.index t (1 : Fin 2) * 128 + 1 * j.val; omega

theorem cover8 (i : S1x128.Idx) : ∃ t : Fin cfg2.N, (cfg2.win 8).flush t = true ∧ i ∈ ((cfg2.win 8).blk t).view.set := by
  have hi0 : (i 0).val < 1 := (i 0).isLt
  have hi1 : (i 1).val < 128 := (i 1).isLt
  obtain ⟨t, ht⟩ : ∃ t : Fin cfg2.N, t.val = 49 := ⟨⟨49, by rw [show cfg2.N = 50 from N_2]; omega⟩, rfl⟩
  have hI := idx_facts t
  refine ⟨t, (flush2_8 t).mpr (by rw [ht]), ?_⟩
  show i ∈ ((View.whole main_v64_1).slice (win2_8.rect t)).set
  rw [View.set_slice_whole, Rect.mem_set_unit]
  intro a
  match a with
  | ⟨0, _⟩ => show win2_8.index t (0 : Fin 2) * 1 ≤ (i 0).val ∧ (i 0).val < win2_8.index t (0 : Fin 2) * 1 + 1; omega
  | ⟨1, _⟩ => show win2_8.index t (1 : Fin 2) * 128 ≤ (i 1).val ∧ (i 1).val < win2_8.index t (1 : Fin 2) * 128 + 128; omega

theorem sum_val (c : Dev nD) : (dat2 V c).arrAt 8 cfg2.N = fun i => Cert.GNN.colSum (h2fn V c) (i 1) :=
  (dat2 V c).arrAt_eq_of_cover 8 (fun i : S1x128.Idx => Cert.GNN.colSum (h2fn V c) (i 1)) (flushed8 V c) cover8

theorem flushed9 (c : Dev nD) (t : Fin cfg2.N) (hf : (cfg2.win 9).flush t = true) :
    (dat2 V c).flushed 9 t = ((cfg2.win 9).blk t).view.read (Elt Ideal) (fun i : S1x128.Idx => Cert.GNN.colSumSq (h2fn V c) (i 1)) := by
  have hI := idx_facts t
  have h49 : t.val + 1 = 50 := by have := (flush2_9 t).mp hf; have := N50 t; omega
  show (cfg2.win 9).cut (grid2.coords t) ((dat2 V c).after 9 t) = _
  rw [after2_9]
  funext y
  obtain ⟨u, j, rfl⟩ : ∃ (u : Fin 1) (j : Fin 128), y = ix2 u j := ⟨y 0, y 1, eq_ix2 y⟩
  obtain rfl : u = 0 := Subsingleton.elim _ _
  rw [View.read_apply]
  show (outsAt2 V c t.val t.isLt).2.2 (ix2 0 j) = Cert.GNN.colSumSq (h2fn V c) _
  rw [(inv_all V c t.val t.isLt).2.2 j, h49, sumsq_all]
  congr 1; apply Fin.ext
  show j.val = win2_9.index t (1 : Fin 2) * 128 + 1 * j.val; omega

theorem cover9 (i : S1x128.Idx) : ∃ t : Fin cfg2.N, (cfg2.win 9).flush t = true ∧ i ∈ ((cfg2.win 9).blk t).view.set := by
  have hi0 : (i 0).val < 1 := (i 0).isLt
  have hi1 : (i 1).val < 128 := (i 1).isLt
  obtain ⟨t, ht⟩ : ∃ t : Fin cfg2.N, t.val = 49 := ⟨⟨49, by rw [show cfg2.N = 50 from N_2]; omega⟩, rfl⟩
  have hI := idx_facts t
  refine ⟨t, (flush2_9 t).mpr (by rw [ht]), ?_⟩
  show i ∈ ((View.whole main_v64_2).slice (win2_9.rect t)).set
  rw [View.set_slice_whole, Rect.mem_set_unit]
  intro a
  match a with
  | ⟨0, _⟩ => show win2_9.index t (0 : Fin 2) * 1 ≤ (i 0).val ∧ (i 0).val < win2_9.index t (0 : Fin 2) * 1 + 1; omega
  | ⟨1, _⟩ => show win2_9.index t (1 : Fin 2) * 128 ≤ (i 1).val ∧ (i 1).val < win2_9.index t (1 : Fin 2) * 128 + 128; omega

theorem sumsq_val (c : Dev nD) : (dat2 V c).arrAt 9 cfg2.N = fun i => Cert.GNN.colSumSq (h2fn V c) (i 1) :=
  (dat2 V c).arrAt_eq_of_cover 9 (fun i : S1x128.Idx => Cert.GNN.colSumSq (h2fn V c) (i 1)) (flushed9 V c) cover9

end Region

end Cert.KernelIdeal.Reg2

end
-- ==== Proof.LibIdx.lean ====
import Idealize.ShloMosaic.PureOps.ShapeOps
import Idealize.ShloMosaic.PureOps.Ideal
import Idealize.ShloMosaic.Lib.ValueIdx
import Idealize.ShloMosaic.Lib.StableHlo.Predicate
import proofs.«419603_j44143673869053_2_alg».proof.KernelIdeal
import proofs.«419603_j44143673869053_2_alg».proof.ReferenceIdeal
import proofs.«419603_j44143673869053_2_alg».proof.Proof.Spec

noncomputable section

open scoped BigOperators

namespace Cert.GNN.Idx

open Idealize.ShloMosaic Idealize.ShloMosaic.ValueIdx

theorem toInt_eq_toNat {p : BitVec 32} (h : 0 ≤ p.toInt ∧ p.toInt < 100000) : p.toInt = (p.toNat : Int) := by
  have hlt := p.isLt
  rw [BitVec.toInt_eq_toNat_cond] at h ⊢
  split at h <;> split <;> omega

theorem toNat_lt {p : BitVec 32} (h : 0 ≤ p.toInt ∧ p.toInt < 100000) : p.toNat < 100000 := by
  have := toInt_eq_toNat h
  omega

theorem rowOf_val {p : BitVec 32} (h : 0 ≤ p.toInt ∧ p.toInt < 100000) : (rowOf p).val = p.toNat :=
  Nat.mod_eq_of_lt (toNat_lt h)

theorem rowOf_val_toInt {p : BitVec 32} (h : 0 ≤ p.toInt ∧ p.toInt < 100000) : (rowOf p).val = p.toInt.toNat := by
  rw [rowOf_val h, toInt_eq_toNat h, Int.toNat_natCast]

theorem wrap_eq {p : BitVec 32} (h : 0 ≤ p.toInt ∧ p.toInt < 100000) :
    Scalar.select (IntOp.cmpi .slt p 0#32) (IntOp.addi p 100000#32) p = p := by
  have : p.slt 0#32 = false := by rw [← Bool.not_eq_true, BitVec.slt_iff_toInt_lt]; simpa using h.1
  show Scalar.select (BitVec.ofBool (p.slt 0#32)) _ _ = _
  rw [this]
  exact select_zero _ _

theorem mask_eq {p : BitVec 32} (h : 0 ≤ p.toInt ∧ p.toInt < 100000) :
    IntOp.andi (IntOp.cmpi .sge p 0#32) (IntOp.cmpi .sle p 99999#32) = 1#1 := by
  have h9 : (99999#32 : BitVec 32).toInt = 99999 := by decide
  show IntOp.andi (BitVec.ofBool ((0#32 : BitVec 32).sle p)) (BitVec.ofBool (p.sle 99999#32)) = 1#1
  rw [BitVec.sle_iff_toInt_le.mpr (by simpa using h.1), BitVec.sle_iff_toInt_le.mpr (by omega)]
  rfl

section Gather

variable {s si t : Shape} (d : GatherDims s si t) {w : ℕ} (j : t.Idx) (idx : IVec si w) (a : Fin s.rank)

/-- On a collapsed axis the start indices name, the operand's coordinate is the clamped start index. -/
theorem operandIdx_collapsed (hs : a ∈ d.startIndexMap) (hc : a ∈ d.collapsedSliceDims) (hb : a ∉ d.operandBatchingDims) :
    (d.operandIdx j idx a).val = min (idx (d.siIdx j ⟨d.startIndexMap.idxOf a, List.idxOf_lt_length_iff.2 hs⟩)).toInt.toNat
      (s.size a - d.sliceSizes a) := by
  show d.start j idx a + d.batchCoord j a + d.offCoord j a = _
  rw [d.batchCoord_eq_zero j a hb, d.offCoord_eq_zero j a fun h => ((d.mem_sKept a).mp h).1 hc]
  exact dif_pos hs

/-- On a kept axis the start indices do not name, it is the result's coordinate on the matching offset axis. -/
theorem operandIdx_offset (hs : a ∉ d.startIndexMap) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  rw [d.batchCoord_eq_zero j a ((d.mem_sKept a).mp hk).2, show d.start j idx a = 0 from dif_neg hs, Nat.add_zero, Nat.zero_add]
  exact dif_pos hk

end Gather

abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update whose start plus window coordinate is `i` on every axis lands at `i`. -/
theorem resultIdx_eq_some {s si u : Shape} (d : ScatterDims s si u) {w : ℕ} (j : u.Idx) (idx : IVec si w) (i : s.Idx)
    (h : ∀ a, d.start j idx a + d.window j a = ((i a).val : ℤ)) : d.resultIdx? j idx = some i := by
  unfold ScatterDims.resultIdx?
  rw [dif_pos fun a => by rw [h a]; have := (i a).isLt; omega]
  exact congrArg some (funext fun a => Fin.ext (by show (d.start j idx a + d.window j a).toNat = _; rw [h a]; rfl))

theorem ix2_inj {n0 n1 : Nat} {a a' : Fin n0} {b b' : Fin n1} : ix2 a b = ix2 a' b' ↔ a = a' ∧ b = b' := by
  constructor
  · intro h; exact ⟨congrFun h 0, congrFun h 1⟩
  · rintro ⟨rfl, rfl⟩; rfl

section
variable {N E C w : Nat} (wf : ScatterDims.WF ⟨2, ![N, C]⟩ ⟨2, ![E, 1]⟩ ⟨2, ![E, C]⟩ [1] [0] [0] 1)
  (idx : IVec ⟨2, ![E, 1]⟩ w)

theorem rowScatter_resultIdx (e : Fin E) (c : Fin C)
    (h : 0 ≤ (idx (ix2 e (0 : Fin 1))).toInt ∧ (idx (ix2 e (0 : Fin 1))).toInt < (N : Int)) :
    (rowScatter N E C wf).resultIdx? (ix2 e c) idx
      = some (ix2 ⟨(idx (ix2 e (0 : Fin 1))).toInt.toNat, by omega⟩ c) := by
  refine resultIdx_eq_some _ _ _ _ fun a => ?_
  fin_cases a
  · show (rowScatter N E C wf).start (ix2 e c) idx 0 + ((rowScatter N E C wf).window (ix2 e c) 0 : ℕ)
      = (((idx (ix2 e (0 : Fin 1))).toInt.toNat : ℕ) : ℤ)
    rw [show (rowScatter N E C wf).window (ix2 e c) 0 = 0 from dif_neg (of_decide_eq_false rfl),
      show (rowScatter N E C wf).start (ix2 e c) idx 0 = (idx (ix2 e (0 : Fin 1))).toInt from
        (dif_pos (of_decide_eq_true rfl)).trans (congrArg (fun i => (idx i).toInt)
          (funext fun b => Fin.ext (match b with | ⟨0, _⟩ => rfl | ⟨1, _⟩ => rfl)))]
    omega
  · show (rowScatter N E C wf).start (ix2 e c) idx 1 + ((rowScatter N E C wf).window (ix2 e c) 1 : ℕ) = ((c.val : ℕ) : ℤ)
    rw [show (rowScatter N E C wf).start (ix2 e c) idx 1 = 0 from dif_neg (of_decide_eq_false rfl),
      show (rowScatter N E C wf).window (ix2 e c) 1 = c.val from dif_pos (of_decide_eq_true rfl)]
    omega

theorem rowScatter_add_apply (x : (⟨2, ![N, C]⟩ : Shape).Idx → EReal) (upd : (⟨2, ![E, C]⟩ : Shape).Idx → EReal)
    (hidx : ∀ e : Fin E, 0 ≤ (idx (ix2 e (0 : Fin 1))).toInt ∧ (idx (ix2 e (0 : Fin 1))).toInt < (N : Int))
    (n : Fin N) (j : Fin C) :
    Ideal.hostScatterAdd (rowScatter N E C wf) x idx upd (ix2 n j)
      = x (ix2 n j) + ∑ e ∈ Finset.univ.filter (fun e : Fin E => (idx (ix2 e (0 : Fin 1))).toInt.toNat = n.val),
          upd (ix2 e j) := by
  unfold Ideal.hostScatterAdd
  congr 1
  rw [Finset.sum_filter, Finset.sum_filter, sum_idx2]
  refine Finset.sum_congr rfl (fun e _ => ?_)
  have hr : ∀ c : Fin C, ((rowScatter N E C wf).resultIdx? (ix2 e c) idx = some (ix2 n j))
      ↔ (c = j ∧ (idx (ix2 e (0 : Fin 1))).toInt.toNat = n.val) := fun c => by
    rw [rowScatter_resultIdx wf idx e c (hidx e), Option.some_inj, ix2_inj, Fin.ext_iff, and_comm]
  simp only [hr, ite_and, Finset.sum_ite_eq', Finset.mem_univ, if_true]

end

theorem clamp_eq_rowOf {p : BitVec 32} (h : 0 ≤ p.toInt ∧ p.toInt < 100000) :
    min p.toInt.toNat (100000 - 1) = (rowOf p).val := by
  rw [rowOf_val_toInt h]; omega

theorem filter_rowOf (idx : IVec ⟨2, ![500000, 1]⟩ 32)
    (hidx : ∀ e : Fin 500000, 0 ≤ (idx (ix2 e (0 : Fin 1))).toInt ∧ (idx (ix2 e (0 : Fin 1))).toInt < 100000)
    (n : Fin 100000) :
    Finset.univ.filter (fun e : Fin 500000 => (idx (ix2 e (0 : Fin 1))).toInt.toNat = n.val)
      = Finset.univ.filter (fun e : Fin 500000 => rowOf (idx (ix2 e (0 : Fin 1))) = n) := by
  refine Finset.filter_congr (fun e _ => ?_)
  rw [Fin.ext_iff, rowOf_val_toInt (hidx e)]

section Kernel
variable [Cert.KernelIdeal.Facts₀]

theorem gatherK_apply {α : Type} (x : Cert.KernelIdeal.S100000x128.Idx → α) (idx : IVec Cert.KernelIdeal.S500000x1 32)
    (e : Fin 500000) (k : Fin 128)
    (h : 0 ≤ (idx (ix2 e (0 : Fin 1))).toInt ∧ (idx (ix2 e (0 : Fin 1))).toInt < 100000) :
    Host.gather Cert.KernelIdeal.gather_S100000x128_S500000x1_S500000x128_1_0_n_n_0_1_1128 x idx (ix2 e k) = x (ix2 (rowOf (idx (ix2 e (0 : Fin 1)))) k) := by
  refine congrArg x (funext fun a => Fin.ext ?_)
  fin_cases a <;> first
    | exact operandIdx_offset _ _ _ _ (of_decide_eq_false rfl) (of_decide_eq_true rfl)
    | (refine (operandIdx_collapsed _ _ _ _ (of_decide_eq_true rfl) (of_decide_eq_true rfl) (of_decide_eq_false rfl)).trans
        (.trans ?_ (clamp_eq_rowOf h))
       exact congrArg (fun i => min (idx i).toInt.toNat (100000 - 1))
         (funext fun b => Fin.ext (match b with | ⟨0, _⟩ => rfl | ⟨1, _⟩ => rfl)))

theorem scatterK_apply (x : Cert.KernelIdeal.S100000x32.Idx → EReal) (idx : IVec Cert.KernelIdeal.S500000x1 32)
    (upd : Cert.KernelIdeal.S500000x32.Idx → EReal)
    (hidx : ∀ e : Fin 500000, 0 ≤ (idx (ix2 e (0 : Fin 1))).toInt ∧ (idx (ix2 e (0 : Fin 1))).toInt < 100000)
    (n : Fin 100000) (j : Fin 32) :
    Idealize.ShloMosaic.Ideal.hostScatterAdd Cert.KernelIdeal.scatter_S100000x32_S500000x1_S500000x32_1_0_0_1 x idx upd (ix2 n j)
      = x (ix2 n j) + ∑ e ∈ Finset.univ.filter (fun e : Fin 500000 => rowOf (idx (ix2 e (0 : Fin 1))) = n),
          upd (ix2 e j) := by
  refine (rowScatter_add_apply (N := 100000) (E := 500000) (C := 32)
    Cert.KernelIdeal.Facts₀.scatter_S100000x32_S500000x1_S500000x32_1_0_0_1_wf idx x upd
    (fun e => by simpa using hidx e) n j).trans ?_
  rw [filter_rowOf idx hidx n]

end Kernel

section Reference
variable [Cert.ReferenceIdeal.Facts₀]

theorem gatherR_apply {α : Type} (x : Cert.ReferenceIdeal.S1x100000x128.Idx → α) (idx : IVec Cert.ReferenceIdeal.S500000x1 32)
    (e : Fin 500000) (k : Fin 128)
    (h : 0 ≤ (idx (ix2 e (0 : Fin 1))).toInt ∧ (idx (ix2 e (0 : Fin 1))).toInt < 100000) :
    Host.gather Cert.ReferenceIdeal.gather_S1x100000x128_S500000x1_S1x500000x128_02_1_n_n_1_1_11128 x idx (ix3 (0 : Fin 1) e k)
      = x (ix3 (0 : Fin 1) (rowOf (idx (ix2 e (0 : Fin 1)))) k) := by
  refine congrArg x (funext fun a => Fin.ext ?_)
  fin_cases a <;> first
    | exact operandIdx_offset _ _ _ _ (of_decide_eq_false rfl) (of_decide_eq_true rfl)
    | (refine (operandIdx_collapsed _ _ _ _ (of_decide_eq_true rfl) (of_decide_eq_true rfl) (of_decide_eq_false rfl)).trans
        (.trans ?_ (clamp_eq_rowOf h))
       exact congrArg (fun i => min (idx i).toInt.toNat (100000 - 1))
         (funext fun b => Fin.ext (match b with | ⟨0, _⟩ => rfl | ⟨1, _⟩ => rfl)))

theorem scatterR_apply (x : Cert.ReferenceIdeal.S100000x32.Idx → EReal) (idx : IVec Cert.ReferenceIdeal.S500000x1 32)
    (upd : Cert.ReferenceIdeal.S500000x32.Idx → EReal)
    (hidx : ∀ e : Fin 500000, 0 ≤ (idx (ix2 e (0 : Fin 1))).toInt ∧ (idx (ix2 e (0 : Fin 1))).toInt < 100000)
    (n : Fin 100000) (j : Fin 32) :
    Idealize.ShloMosaic.Ideal.hostScatterAdd Cert.ReferenceIdeal.scatter_S100000x32_S500000x1_S500000x32_1_0_0_1 x idx upd (ix2 n j)
      = x (ix2 n j) + ∑ e ∈ Finset.univ.filter (fun e : Fin 500000 => rowOf (idx (ix2 e (0 : Fin 1))) = n),
          upd (ix2 e j) := by
  refine (rowScatter_add_apply (N := 100000) (E := 500000) (C := 32)
    Cert.ReferenceIdeal.Facts₀.scatter_S100000x32_S500000x1_S500000x32_1_0_0_1_wf idx x upd
    (fun e => by simpa using hidx e) n j).trans ?_
  rw [filter_rowOf idx hidx n]

end Reference

end Cert.GNN.Idx

end
-- ==== Proof.LibIdx2.lean ====
import Idealize.ShloMosaic.PureOps.ShapeOps
import Idealize.ShloMosaic.PureOps.Reduce
import Idealize.ShloMosaic.Lib.ValueIdx
import Idealize.ShloMosaic.Lib.ValueLayout
import Idealize.ShloMosaic.Lib.StableHlo.Predicate
import proofs.«419603_j44143673869053_2_alg».proof.KernelIdeal
import proofs.«419603_j44143673869053_2_alg».proof.Proof.Spec
import proofs.«419603_j44143673869053_2_alg».proof.Proof.LibIdx

noncomputable section

namespace Cert.GNN.Idx

open Idealize.ShloMosaic Idealize.ShloMosaic.ValueIdx

theorem bcast_rows_apply {α : Type} {n m : Nat}
    (h : (⟨1, ![n]⟩ : Shape).BroadcastsInDim ⟨2, ![n, m]⟩ ![0]) (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

-- A conjunction from the set bit over an array of set bits is the set bit.
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  unfold Host.reduce
  rw [hi]
  exact foldl_andi_one (fun n => x (s.rowMajor.symm n)) _ fun n _ => hx _

section Kernel
variable [Cert.KernelIdeal.Facts₀]
open Cert.KernelIdeal Cert.KernelIdeal.Facts₀

-- Column `q` of the index table, cut out and flattened, holds edge `e`'s word `q`.
theorem column_apply (o : ℕ) (q : Fin 2) (hq : q.val = o) (y : IVec S500000x2 32)
    (hs : S500000x2.Slices ![0, o] S500000x1) (e : Fin 500000) :
    shapeCast S500000 (extractStridedSlice S500000x1 ![0, o] y hs) shapeCasts_S500000x1_S500000 (ix1 e) = y (ix2 e q) := by
  refine (shapeCast_apply (s := S500000x1) (t := S500000) _ _ (ix1 e) (ix2 e (0 : Fin 1)) ?_).trans
    (slice2_axis1_apply o y hs e (0 : Fin 1) q (hq.trans (Nat.add_zero o).symm))
  show (S500000x1.rowMajor (ix2 e (0 : Fin 1))).val = (S500000.rowMajor (ix1 e)).val
  rw [Shape.rowMajor_val_two, Shape.rowMajor_val_one]
  show e.val * 1 + (0 : ℕ) = e.val
  omega

def wrapK (wv : IVec S500000 32) : IVec S500000 32 :=
  select (cmpi .slt wv (broadcastInDim S500000 ![] bcast_S_S500000 (constantI S_ 32 0#32)))
    (addi wv (broadcastInDim S500000 ![] bcast_S_S500000 (constantI S_ 32 100000#32))) wv

def colK (wv : IVec S500000 32) : IVec S500000x1 32 :=
  broadcastInDim S500000x1 ![0] bcast_S500000_S500000x1_0 (wrapK wv)

-- On words in range the column of start indices holds the words themselves.
theorem colK_apply (wv : IVec S500000 32) (h : ∀ e : Fin 500000, 0 ≤ (wv (ix1 e)).toInt ∧ (wv (ix1 e)).toInt < 100000)
    (i : S500000x1.Idx) : colK wv i = wv (ix1 (i 0)) :=
  (congrArg (colK wv) (eq_ix2 i)).trans
    ((bcast_rows_apply bcast_S500000_S500000x1_0 (wrapK wv) (i 0) (i 1)).trans (wrap_eq (h _)))

def maskK (v : IVec S500000x1 32) : IVec S500000 1 :=
  Host.reduce IntOp.andi
    (andi (cmpi .sge v (broadcastInDim S500000x1 ![] bcast_S_S500000x1 (constantI S_ 32 0#32)))
      (cmpi .sle v (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

theorem maskK_apply (v : IVec S500000x1 32) (h : ∀ i, 0 ≤ (v i).toInt ∧ (v i).toInt < 100000) (j : S500000.Idx) :
    maskK v j = 1#1 :=
  reduce_andi_one _ _ _ _ j (fun i => mask_eq (h i)) rfl

def takeK {α : Type} (x : S100000x128.Idx → α) (wv : IVec S500000 32) (c : S_.Idx → α) : S500000x128.Idx → α :=
  select (broadcastInDim S500000x128 ![0] bcast_S500000_S500000x128_0 (maskK (colK wv)))
    (Host.gather gather_S100000x128_S500000x1_S500000x128_1_0_n_n_0_1_1128 x (colK wv))
    (broadcastInDim S500000x128 ![] bcast_S_S500000x128 c)

-- On words in range the guarded fetch reads, for edge `e`, the row of the table its word names.
theorem takeK_apply {α : Type} (x : S100000x128.Idx → α) (wv : IVec S500000 32) (c : S_.Idx → α)
    (h : ∀ e : Fin 500000, 0 ≤ (wv (ix1 e)).toInt ∧ (wv (ix1 e)).toInt < 100000) (e : Fin 500000) (k : Fin 128) :
    takeK x wv c (ix2 e k) = x (ix2 (rowOf (wv (ix1 e))) k) := by
  have hc := colK_apply wv h
  have hm : broadcastInDim S500000x128 ![0] bcast_S500000_S500000x128_0 (maskK (colK wv)) (ix2 e k) = 1#1 :=
    (bcast_rows_apply bcast_S500000_S500000x128_0 (maskK (colK wv)) e k).trans
      (maskK_apply (colK wv) (fun i => by rw [hc]; exact h _) (ix1 e))
  show Scalar.select (broadcastInDim S500000x128 ![0] bcast_S500000_S500000x128_0 (maskK (colK wv)) (ix2 e k))
    (Host.gather gather_S100000x128_S500000x1_S500000x128_1_0_n_n_0_1_1128 x (colK wv) (ix2 e k))
    (broadcastInDim S500000x128 ![] bcast_S_S500000x128 c (ix2 e k)) = _
  rw [hm, select_one, gatherK_apply x (colK wv) e k (by rw [hc]; exact h _)]
  exact congrArg (fun p => x (ix2 (rowOf p) k)) (hc _)

end Kernel

end Cert.GNN.Idx

end
-- ==== Proof.LibHost.lean ====
import proofs.«419603_j44143673869053_2_alg».proof.Proof.Gen.KernelIdeal.Frame
import proofs.«419603_j44143673869053_2_alg».proof.Proof.Spec
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Host

open Idealize.ShloMosaic Idealize.ShloMosaic.TcCoe Idealize.ShloMosaic.ValueIdx
open Cert.KernelIdeal Cert.KernelIdeal.Gen

abbrev Quiet (ops : List (HloOp τ sig (Elt Ideal))) (r : Ref sig .tc) : Prop :=
  ∀ op ∈ ops, Proc.devRef (τ := τ) .tc r ∉ op.writes

macro "quiet" : tactic =>
  `(tactic| exact List.forall_iff_forall_mem.mp (by
      simp only [hostOps0, hostOps0_1, hostOps0_2, hostOps0_3, hostOps0_4, hostOps1, hostOps2, hostOps3, hostOps4,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

-- A reference that no operation of a stretch writes keeps its contents through the stretch.
theorem kept (ops : List (HloOp τ sig (Elt Ideal))) (V : Valuation τ sig (Elt Ideal)) (r : Ref sig .tc)
    (h : Quiet ops r := by quiet) : StableHlo.after ops V (Proc.devRef .tc r) = V (Proc.devRef .tc r) :=
  StableHlo.after_of_forall_not_mem ops V h

abbrev Quiet2 (r : Ref sig .tc) : Prop := Quiet hostOps0 r ∧ Quiet hostOps0_1 r
abbrev Quiet4 (r : Ref sig .tc) : Prop := Quiet2 r ∧ Quiet hostOps0_2 r ∧ Quiet hostOps0_3 r
abbrev Quiet6 (r : Ref sig .tc) : Prop := Quiet4 r ∧ Quiet hostOps0_4 r ∧ ∀ w, Pipeline.arrRef spec0 w ≠ r
abbrev Quiet8 (r : Ref sig .tc) : Prop := Quiet6 r ∧ Quiet hostOps1 r ∧ ∀ w, Pipeline.arrRef spec1 w ≠ r
abbrev Quiet10 (r : Ref sig .tc) : Prop := Quiet8 r ∧ Quiet hostOps2 r ∧ ∀ w, Pipeline.arrRef spec2 w ≠ r

macro "untouched" : tactic => `(tactic| ((repeat' apply And.intro) <;> first | quiet | decide))

section Point

variable {C : ℕ} (w : BitVec 32)
  (h21 : (⟨2, ![1, C]⟩ : Shape).ShapeCasts ⟨1, ![C]⟩) (h12 : (⟨1, ![C]⟩ : Shape).ShapeCasts ⟨2, ![1, C]⟩)
  (hb : (⟨0, ![]⟩ : Shape).BroadcastsInDim ⟨1, ![C]⟩ ![])
  (S Q : Vec Ideal ⟨2, ![1, C]⟩ .f32) (g b : Vec Ideal ⟨1, ![C]⟩ .f32)
  (N : EReal) (hN : Ideal.ofBits .f32 w = N)

abbrev spread (x : BitVec 32) : Vec Ideal ⟨1, ![C]⟩ .f32 :=
  broadcastInDim ⟨1, ![C]⟩ ![] hb (constant (F := Ideal) ⟨0, ![]⟩ .f32 x)

theorem spread_apply (x : BitVec 32) (j : Fin C) : spread hb x (ix1 j) = Ideal.ofBits .f32 x := by
  unfold spread
  rw [broadcastInDim_apply ![] hb _ (ix1 j) ix0 (fun a => a.elim0), constant_apply]

abbrev meanV : Vec Ideal ⟨1, ![C]⟩ .f32 :=
  Host.divf (F := Ideal) (φ := .f32) (shapeCast ⟨1, ![C]⟩ S h21) (spread hb w)

abbrev invV : Vec Ideal ⟨1, ![C]⟩ .f32 :=
  Host.rsqrt (F := Ideal) (φ := .f32) (addf (F := Ideal) (φ := .f32) (maximumf (F := Ideal) (φ := .f32)
    (subf (F := Ideal) (φ := .f32) (Host.divf (F := Ideal) (φ := .f32) (shapeCast ⟨1, ![C]⟩ Q h21) (spread hb w))
      (mulf (F := Ideal) (φ := .f32) (meanV w h21 hb S) (meanV w h21 hb S)))
    (spread hb 0x00000000#32)) (spread hb 0x3727C5AC#32))

abbrev scaleV : Vec Ideal ⟨2, ![1, C]⟩ .f32 :=
  shapeCast ⟨2, ![1, C]⟩ (mulf (F := Ideal) (φ := .f32) g (invV w h21 hb S Q)) h12

abbrev offsetV : Vec Ideal ⟨2, ![1, C]⟩ .f32 :=
  shapeCast ⟨2, ![1, C]⟩ (subf (F := Ideal) (φ := .f32) b (mulf (F := Ideal) (φ := .f32)
    (mulf (F := Ideal) (φ := .f32) (meanV w h21 hb S) g) (invV w h21 hb S Q))) h12

include hN

theorem meanV_apply (j : Fin C) : meanV w h21 hb S (ix1 j) = Ideal.div (S (ix2 (0 : Fin 1) j)) N := by
  show Ideal.div (shapeCast ⟨1, ![C]⟩ S h21 (ix1 j)) (spread hb w (ix1 j)) = _
  rw [shapeCast_1a_a_apply, spread_apply, hN]

-- The inverse standard deviation of column `j`, from the column's sum and sum of squares over `N` rows.
theorem invV_apply (j : Fin C) :
    invV w h21 hb S Q (ix1 j)
      = Ideal.rsqrt (max (Ideal.div (Q (ix2 (0 : Fin 1) j)) N
          - Ideal.div (S (ix2 (0 : Fin 1) j)) N * Ideal.div (S (ix2 (0 : Fin 1) j)) N) 0 + Cert.GNN.eps) := by
  show Ideal.rsqrt ((max (Ideal.div (shapeCast ⟨1, ![C]⟩ Q h21 (ix1 j)) (spread hb w (ix1 j))
      - meanV w h21 hb S (ix1 j) * meanV w h21 hb S (ix1 j)) (spread hb 0x00000000#32 (ix1 j)))
      + spread hb 0x3727C5AC#32 (ix1 j)) = _
  rw [shapeCast_1a_a_apply, spread_apply, spread_apply, spread_apply, meanV_apply w h21 hb S N hN, hN,
    Ideal.ofBits_zero_f32]
  rfl

theorem scaleV_apply (j : Fin C) :
    scaleV w h21 h12 hb S Q g (ix2 (0 : Fin 1) j)
      = g (ix1 j) * Ideal.rsqrt (max (Ideal.div (Q (ix2 (0 : Fin 1) j)) N
          - Ideal.div (S (ix2 (0 : Fin 1) j)) N * Ideal.div (S (ix2 (0 : Fin 1) j)) N) 0 + Cert.GNN.eps) := by
  unfold scaleV
  rw [shapeCast_a_1a_apply, mulf_apply, invV_apply w h21 hb S Q N hN]

theorem offsetV_apply (j : Fin C) :
    offsetV w h21 h12 hb S Q g b (ix2 (0 : Fin 1) j)
      = b (ix1 j) - (Ideal.div (S (ix2 (0 : Fin 1) j)) N * g (ix1 j))
          * Ideal.rsqrt (max (Ideal.div (Q (ix2 (0 : Fin 1) j)) N
            - Ideal.div (S (ix2 (0 : Fin 1) j)) N * Ideal.div (S (ix2 (0 : Fin 1) j)) N) 0 + Cert.GNN.eps) := by
  unfold offsetV
  rw [shapeCast_a_1a_apply, subf_apply, mulf_apply, mulf_apply, invV_apply w h21 hb S Q N hN,
    meanV_apply w h21 hb S N hN]

end Point

variable (m : (ℓ : Loc nD τ sig) → Buf (Elt Ideal) ℓ) (ρ : Dev nD → PrngReg) (c : Dev nD)

section Launch

variable {r : Ref sig .tc}

-- A reference that nothing before a boundary writes holds there what the program was launched with.
theorem W2_launch (h : Quiet2 r := by untouched) : W2 m ρ c (Proc.devRef .tc r) = m ((c : Thread nD τ).loc r) :=
  (kept hostOps0_1 _ r h.2).trans (kept hostOps0 _ r h.1)

theorem W4_launch (h : Quiet4 r := by untouched) : W4 m ρ c (Proc.devRef .tc r) = m ((c : Thread nD τ).loc r) :=
  (kept hostOps0_3 _ r h.2.2).trans ((kept hostOps0_2 _ r h.2.1).trans (W2_launch m ρ c h.1))

theorem W6_launch (h : Quiet6 r := by untouched) : W6 m ρ c (Proc.devRef .tc r) = m ((c : Thread nD τ).loc r) :=
  (W6_of_ne m ρ c r h.2.2).trans ((kept hostOps0_4 _ r h.2.1).trans (W4_launch m ρ c h.1))

theorem W8_launch (h : Quiet8 r := by untouched) : W8 m ρ c (Proc.devRef .tc r) = m ((c : Thread nD τ).loc r) :=
  (W8_of_ne m ρ c r h.2.2).trans ((kept hostOps1 _ r h.2.1).trans (W6_launch m ρ c h.1))

theorem W10_launch (h : Quiet10 r := by untouched) : W10 m ρ c (Proc.devRef .tc r) = m ((c : Thread nD τ).loc r) :=
  (W10_of_ne m ρ c r h.2.2).trans ((kept hostOps2 _ r h.2.1).trans (W8_launch m ρ c h.1))

end Launch

theorem W1_v0 (n : Fin 100000) (k : Fin 128) :
    (W1 m ρ c (Proc.devRef .tc main_v0) : Vec Ideal S100000x128 .f32) (ix2 n k)
      = (m ((c : Thread nD τ).loc main_arg0) : Vec Ideal S1x100000x128 .f32) (ix3 0 n k) := by
  have e : W1 m ρ c (Proc.devRef .tc main_v0)
      = (fun i => shapeCast S100000x128 (m ((c : Thread nD τ).loc main_arg0) : Vec Ideal S1x100000x128 .f32)
          shapeCasts_S1x100000x128_S100000x128 i : Vec Ideal S100000x128 .f32) := by
    show StableHlo.after hostOps0 _ (Proc.devRef .tc main_v0) = _
    after_results
    rfl
  rw [e]
  exact shapeCast_1ab_ab_apply _ _ n k

theorem W3_v0 : W3 m ρ c (Proc.devRef .tc main_v0) = W1 m ρ c (Proc.devRef .tc main_v0) :=
  (kept hostOps0_2 _ main_v0).trans (kept hostOps0_1 _ main_v0)

theorem W9_v0 : W9 m ρ c (Proc.devRef .tc main_v0) = W1 m ρ c (Proc.devRef .tc main_v0) :=
  (kept hostOps2 _ main_v0).trans ((W8_of_ne m ρ c main_v0 (by decide)).trans ((kept hostOps1 _ main_v0).trans
    ((W6_of_ne m ρ c main_v0 (by decide)).trans ((kept hostOps0_4 _ main_v0).trans
      ((kept hostOps0_3 _ main_v0).trans (W3_v0 m ρ c))))))

-- The third region only reads the node table, so the last region finds it as the first stretch left it.
theorem W11_v0 : (W11 m ρ c (Proc.devRef .tc main_v0) : S100000x128.Idx → EReal) = W1 m ρ c (Proc.devRef .tc main_v0) :=
  calc (W11 m ρ c (Proc.devRef .tc main_v0) : S100000x128.Idx → EReal)
    _ = W10 m ρ c (Proc.devRef .tc main_v0) := kept hostOps3 _ main_v0
    _ = ((dat2 (V9 m ρ) c).arrAt 0 cfg2.N : S100000x128.Idx → EReal) := W10_arr m ρ c 0
    _ = ((dat2 (V9 m ρ) c).A 0 : S100000x128.Idx → EReal) := (dat2 (V9 m ρ) c).arrAt_in 0 rfl cfg2.N
    _ = W9 m ρ c (Proc.devRef .tc main_v0) := rfl
    _ = W1 m ρ c (Proc.devRef .tc main_v0) := W9_v0 m ρ c

theorem W1_v1 (e : Fin 500000) (k : Fin 32) :
    (W1 m ρ c (Proc.devRef .tc main_v1) : Vec Ideal S500000x32 .f32) (ix2 e k)
      = (m ((c : Thread nD τ).loc main_arg1) : Vec Ideal S1x500000x32 .f32) (ix3 0 e k) := by
  have h : W1 m ρ c (Proc.devRef .tc main_v1)
      = (fun i => shapeCast S500000x32 (m ((c : Thread nD τ).loc main_arg1) : Vec Ideal S1x500000x32 .f32)
          shapeCasts_S1x500000x32_S500000x32 i : Vec Ideal S500000x32 .f32) := by
    show StableHlo.after hostOps0 _ (Proc.devRef .tc main_v1) = _
    after_results
    rfl
  rw [h]
  exact shapeCast_1ab_ab_apply _ _ e k

theorem W5_v1 : W5 m ρ c (Proc.devRef .tc main_v1) = W1 m ρ c (Proc.devRef .tc main_v1) :=
  (kept hostOps0_4 _ main_v1).trans ((kept hostOps0_3 _ main_v1).trans
    ((kept hostOps0_2 _ main_v1).trans (kept hostOps0_1 _ main_v1)))

end Cert.KernelIdeal.Host

end
-- ==== Proof.KHostA.lean ====
import proofs.«419603_j44143673869053_2_alg».proof.Proof.Gen.KernelIdeal.Frame
import proofs.«419603_j44143673869053_2_alg».proof.Proof.Spec
import proofs.«419603_j44143673869053_2_alg».proof.Proof.LibIdx2
import proofs.«419603_j44143673869053_2_alg».proof.Proof.LibHost
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.GNN.KHostA

open Idealize.ShloMosaic Idealize.ShloMosaic.TcCoe Idealize.ShloMosaic.ValueIdx
open Cert.KernelIdeal Cert.KernelIdeal.Gen Cert.KernelIdeal.Host

variable (m : (ℓ : Loc nD τ sig) → Buf (Elt Ideal) ℓ) (ρ : Dev nD → PrngReg)

abbrev fill : Vec Ideal S_ .f32 := constant (F := Ideal) S_ .f32 0x7FC00000#32

set_option maxHeartbeats 1000000 in
theorem ops0_1_v4 (V : Valuation τ sig (Elt Ideal)) :
    StableHlo.after hostOps0_1 V (Proc.devRef .tc main_v4)
      = Idx.takeK (V (Proc.devRef .tc main_v0) : Vec Ideal S100000x128 .f32) (V (Proc.devRef .tc main_v3) : IVec S500000 32) fill := by
  after_results_simp
  simp only [StableHlo.TRef.toBuf, StableHlo.TRef.ofBuf, cast_eq]
  all_goals rfl

set_option maxHeartbeats 1000000 in
theorem ops0_3_v7 (V : Valuation τ sig (Elt Ideal)) :
    StableHlo.after hostOps0_3 V (Proc.devRef .tc main_v7)
      = Idx.takeK (V (Proc.devRef .tc main_v0) : Vec Ideal S100000x128 .f32) (V (Proc.devRef .tc main_v6) : IVec S500000 32) fill := by
  after_results_simp
  simp only [StableHlo.TRef.toBuf, StableHlo.TRef.ofBuf, cast_eq]
  all_goals rfl

theorem ops0_v3 (V : Valuation τ sig (Elt Ideal)) :
    StableHlo.after hostOps0 V (Proc.devRef .tc main_v3)
      = (fun i => shapeCast S500000 (extractStridedSlice S500000x1 ![0, 0] (V (Proc.devRef .tc main_arg2) : IVec S500000x2 32)
          slices_S500000x2_S500000x1_0_0) shapeCasts_S500000x1_S500000 i : IVec S500000 32) := by
  after_results
  all_goals rfl

theorem ops0_2_v6 (V : Valuation τ sig (Elt Ideal)) :
    StableHlo.after hostOps0_2 V (Proc.devRef .tc main_v6)
      = (fun i => shapeCast S500000 (extractStridedSlice S500000x1 ![0, 1] (V (Proc.devRef .tc main_arg2) : IVec S500000x2 32)
          slices_S500000x2_S500000x1_0_1) shapeCasts_S500000x1_S500000 i : IVec S500000 32) := by
  after_results
  all_goals rfl

theorem W1_col0 (c : Dev nD) (e : Fin 500000) :
    (W1 m ρ c (Proc.devRef .tc main_v3) : IVec S500000 32) (ix1 e) = (m ((c : Thread nD τ).loc main_arg2) : IVec S500000x2 32) (ix2 e 0) :=
  (congrFun (ops0_v3 (W0 m ρ c)) (ix1 e)).trans (Idx.column_apply 0 0 rfl _ _ e)

theorem W3_col1 (c : Dev nD) (e : Fin 500000) :
    (W3 m ρ c (Proc.devRef .tc main_v6) : IVec S500000 32) (ix1 e) = (m ((c : Thread nD τ).loc main_arg2) : IVec S500000x2 32) (ix2 e 1) := by
  refine (congrFun (ops0_2_v6 (W2 m ρ c)) (ix1 e)).trans ?_
  rw [W2_launch m ρ c (r := main_arg2)]
  exact Idx.column_apply 1 1 rfl _ _ e

theorem r0_w0 (c : Dev nD)
    (hr : ∀ i, 0 ≤ ((m ((c : Thread nD τ).loc main_arg2) : IVec S500000x2 32) i).toInt
      ∧ ((m ((c : Thread nD τ).loc main_arg2) : IVec S500000x2 32) i).toInt < 100000)
    (e : Fin 500000) (k : Fin 128) :
    (V5 m ρ c (Pipeline.arrRef spec0 0) : Vec Ideal S500000x128 .f32) (ix2 e k)
      = (m ((c : Thread nD τ).loc main_arg0) : Vec Ideal S1x100000x128 .f32)
          (ix3 0 (rowOf ((m ((c : Thread nD τ).loc main_arg2) : IVec S500000x2 32) (ix2 e 0))) k) := by
  have h4 : W5 m ρ c (Proc.devRef .tc main_v4)
      = Idx.takeK (W1 m ρ c (Proc.devRef .tc main_v0) : Vec Ideal S100000x128 .f32) (W1 m ρ c (Proc.devRef .tc main_v3) : IVec S500000 32) fill :=
    (kept hostOps0_4 _ main_v4).trans ((kept hostOps0_3 _ main_v4).trans
      ((kept hostOps0_2 _ main_v4).trans (ops0_1_v4 (W1 m ρ c))))
  show (W5 m ρ c (Proc.devRef .tc main_v4) : Vec Ideal S500000x128 .f32) (ix2 e k) = _
  rw [h4, Idx.takeK_apply _ _ _ (fun e => by rw [W1_col0 m ρ c]; exact hr _) e k, W1_v0 m ρ c, W1_col0 m ρ c]

theorem r0_w1 (c : Dev nD)
    (hr : ∀ i, 0 ≤ ((m ((c : Thread nD τ).loc main_arg2) : IVec S500000x2 32) i).toInt
      ∧ ((m ((c : Thread nD τ).loc main_arg2) : IVec S500000x2 32) i).toInt < 100000)
    (e : Fin 500000) (k : Fin 128) :
    (V5 m ρ c (Pipeline.arrRef spec0 1) : Vec Ideal S500000x128 .f32) (ix2 e k)
      = (m ((c : Thread nD τ).loc main_arg0) : Vec Ideal S1x100000x128 .f32)
          (ix3 0 (rowOf ((m ((c : Thread nD τ).loc main_arg2) : IVec S500000x2 32) (ix2 e 1))) k) := by
  have h7 : W5 m ρ c (Proc.devRef .tc main_v7)
      = Idx.takeK (W3 m ρ c (Proc.devRef .tc main_v0) : Vec Ideal S100000x128 .f32) (W3 m ρ c (Proc.devRef .tc main_v6) : IVec S500000 32) fill :=
    (kept hostOps0_4 _ main_v7).trans (ops0_3_v7 (W3 m ρ c))
  show (W5 m ρ c (Proc.devRef .tc main_v7) : Vec Ideal S500000x128 .f32) (ix2 e k) = _
  rw [h7, Idx.takeK_apply _ _ _ (fun e => by rw [W3_col1 m ρ c]; exact hr _) e k, W3_v0 m ρ c, W1_v0 m ρ c,
    W3_col1 m ρ c]

theorem r0_w2 (c : Dev nD) (e : Fin 500000) (k : Fin 32) :
    (V5 m ρ c (Pipeline.arrRef spec0 2) : Vec Ideal S500000x32 .f32) (ix2 e k)
      = (m ((c : Thread nD τ).loc main_arg1) : Vec Ideal S1x500000x32 .f32) (ix3 0 e k) := by
  show (W5 m ρ c (Proc.devRef .tc main_v1) : Vec Ideal S500000x32 .f32) (ix2 e k) = _
  rw [W5_v1 m ρ c]
  exact W1_v1 m ρ c e k

theorem ops0_4_v9 (V : Valuation τ sig (Elt Ideal)) :
    StableHlo.after hostOps0_4 V (Proc.devRef .tc main_v9)
      = (transpose S128x128 [1, 0] (extractStridedSlice S128x128 ![0, 0] (V (Proc.devRef .tc main_arg3) : Vec Ideal S128x288 .f32)
          slices_S128x288_S128x128_0_0) transposes_S128x128_S128x128_1_0 : Vec Ideal S128x128 .f32) := by
  after_results
  all_goals rfl

theorem ops0_4_v11 (V : Valuation τ sig (Elt Ideal)) :
    StableHlo.after hostOps0_4 V (Proc.devRef .tc main_v11)
      = (transpose S128x128 [1, 0] (extractStridedSlice S128x128 ![0, 128] (V (Proc.devRef .tc main_arg3) : Vec Ideal S128x288 .f32)
          slices_S128x288_S128x128_0_128) transposes_S128x128_S128x128_1_0 : Vec Ideal S128x128 .f32) := by
  after_results
  all_goals rfl

theorem ops0_4_v13 (V : Valuation τ sig (Elt Ideal)) :
    StableHlo.after hostOps0_4 V (Proc.devRef .tc main_v13)
      = (transpose S32x128 [1, 0] (extractStridedSlice S128x32 ![0, 256] (V (Proc.devRef .tc main_arg3) : Vec Ideal S128x288 .f32)
          slices_S128x288_S128x32_0_256) transposes_S128x32_S32x128_1_0 : Vec Ideal S32x128 .f32) := by
  after_results
  all_goals rfl

theorem ops0_4_v14 (V : Valuation τ sig (Elt Ideal)) :
    StableHlo.after hostOps0_4 V (Proc.devRef .tc main_v14)
      = (transpose S128x32 [1, 0] (V (Proc.devRef .tc main_arg5) : Vec Ideal S32x128 .f32) transposes_S32x128_S128x32_1_0 : Vec Ideal S128x32 .f32) := by
  after_results
  all_goals rfl

theorem ops0_4_v15 (V : Valuation τ sig (Elt Ideal)) :
    StableHlo.after hostOps0_4 V (Proc.devRef .tc main_v15)
      = (fun i => shapeCast S1x128 (V (Proc.devRef .tc main_arg4) : Vec Ideal S128 .f32) shapeCasts_S128_S1x128 i : Vec Ideal S1x128 .f32) := by
  after_results
  all_goals rfl

theorem ops0_4_v16 (V : Valuation τ sig (Elt Ideal)) :
    StableHlo.after hostOps0_4 V (Proc.devRef .tc main_v16)
      = (fun i => shapeCast S1x32 (V (Proc.devRef .tc main_arg6) : Vec Ideal S32 .f32) shapeCasts_S32_S1x32 i : Vec Ideal S1x32 .f32) := by
  after_results
  all_goals rfl

theorem r0_w3 (c : Dev nD) (k j : Fin 128) :
    (V5 m ρ c (Pipeline.arrRef spec0 3) : Vec Ideal S128x128 .f32) (ix2 k j)
      = (m ((c : Thread nD τ).loc main_arg3) : Vec Ideal S128x288 .f32) (ix2 j ⟨k.val, by omega⟩) := by
  show (StableHlo.after hostOps0_4 (W4 m ρ c) (Proc.devRef .tc main_v9) : Vec Ideal S128x128 .f32) (ix2 k j) = _
  rw [ops0_4_v9, W4_launch m ρ c (r := main_arg3)]
  exact (transpose_ix2_apply _ _ k j).trans (slice2_axis1_apply 0 _ _ j k _ (Nat.zero_add _).symm)

theorem r0_w4 (c : Dev nD) (k j : Fin 128) :
    (V5 m ρ c (Pipeline.arrRef spec0 4) : Vec Ideal S128x128 .f32) (ix2 k j)
      = (m ((c : Thread nD τ).loc main_arg3) : Vec Ideal S128x288 .f32) (ix2 j ⟨128 + k.val, by omega⟩) := by
  show (StableHlo.after hostOps0_4 (W4 m ρ c) (Proc.devRef .tc main_v11) : Vec Ideal S128x128 .f32) (ix2 k j) = _
  rw [ops0_4_v11, W4_launch m ρ c (r := main_arg3)]
  exact (transpose_ix2_apply _ _ k j).trans (slice2_axis1_apply 128 _ _ j k _ rfl)

theorem r0_w5 (c : Dev nD) (k : Fin 32) (j : Fin 128) :
    (V5 m ρ c (Pipeline.arrRef spec0 5) : Vec Ideal S32x128 .f32) (ix2 k j)
      = (m ((c : Thread nD τ).loc main_arg3) : Vec Ideal S128x288 .f32) (ix2 j ⟨256 + k.val, by omega⟩) := by
  show (StableHlo.after hostOps0_4 (W4 m ρ c) (Proc.devRef .tc main_v13) : Vec Ideal S32x128 .f32) (ix2 k j) = _
  rw [ops0_4_v13, W4_launch m ρ c (r := main_arg3)]
  exact (transpose_ix2_apply _ _ k j).trans (slice2_axis1_apply 256 _ _ j k _ rfl)

theorem r0_w6 (c : Dev nD) (j : Fin 128) :
    (V5 m ρ c (Pipeline.arrRef spec0 6) : Vec Ideal S1x128 .f32) (ix2 0 j)
      = (m ((c : Thread nD τ).loc main_arg4) : Vec Ideal S128 .f32) (ix1 j) := by
  show (StableHlo.after hostOps0_4 (W4 m ρ c) (Proc.devRef .tc main_v15) : Vec Ideal S1x128 .f32) (ix2 0 j) = _
  rw [ops0_4_v15, W4_launch m ρ c (r := main_arg4)]
  exact shapeCast_a_1a_apply _ _ 0 j

theorem r0_w7 (c : Dev nD) (k : Fin 128) (j : Fin 32) :
    (V5 m ρ c (Pipeline.arrRef spec0 7) : Vec Ideal S128x32 .f32) (ix2 k j)
      = (m ((c : Thread nD τ).loc main_arg5) : Vec Ideal S32x128 .f32) (ix2 j k) := by
  show (StableHlo.after hostOps0_4 (W4 m ρ c) (Proc.devRef .tc main_v14) : Vec Ideal S128x32 .f32) (ix2 k j) = _
  rw [ops0_4_v14, W4_launch m ρ c (r := main_arg5)]
  exact transpose_ix2_apply _ _ k j

theorem r0_w8 (c : Dev nD) (j : Fin 32) :
    (V5 m ρ c (Pipeline.arrRef spec0 8) : Vec Ideal S1x32 .f32) (ix2 0 j)
      = (m ((c : Thread nD τ).loc main_arg6) : Vec Ideal S32 .f32) (ix1 j) := by
  show (StableHlo.after hostOps0_4 (W4 m ρ c) (Proc.devRef .tc main_v16) : Vec Ideal S1x32 .f32) (ix2 0 j) = _
  rw [ops0_4_v16, W4_launch m ρ c (r := main_arg6)]
  exact shapeCast_a_1a_apply _ _ 0 j

end Cert.GNN.KHostA
end
-- ==== Proof.KHostB.lean ====
import proofs.«419603_j44143673869053_2_alg».proof.Proof.Gen.KernelIdeal.Frame
import proofs.«419603_j44143673869053_2_alg».proof.Proof.Spec
import proofs.«419603_j44143673869053_2_alg».proof.Proof.Consts
import proofs.«419603_j44143673869053_2_alg».proof.Proof.KArgs
import proofs.«419603_j44143673869053_2_alg».proof.Proof.LibHost
import Idealize.ShloMosaic.Lib.ValueIdx
import Idealize.ShloMosaic.Lib.ValueLayout
import Idealize.ShloMosaic.Lib.Pipeline.Value

set_option maxRecDepth 16384

noncomputable section

namespace Cert.GNN.KHost

open Idealize.ShloMosaic Idealize.ShloMosaic.TcCoe Idealize.ShloMosaic.ValueIdx
open Cert.KernelIdeal Cert.KernelIdeal.Gen Cert.KernelIdeal.Host

variable (m : (ℓ : Loc nD τ sig) → Buf (Elt Ideal) ℓ) (ρ : Dev nD → PrngReg) (c : Dev nD)

abbrev B0 : S500000x32.Idx → EReal := V7 m ρ c (Pipeline.arrRef spec1 0)
abbrev B1 : S500000x32.Idx → EReal := V7 m ρ c (Pipeline.arrRef spec1 1)
abbrev B2 : S1x32.Idx → EReal := V7 m ρ c (Pipeline.arrRef spec1 2)
abbrev B3 : S1x32.Idx → EReal := V7 m ρ c (Pipeline.arrRef spec1 3)
abbrev H2 : S500000x32.Idx → EReal := (dat0 (V5 m ρ) c).arrAt 9 cfg0.N
abbrev SS : S1x32.Idx → EReal := (dat0 (V5 m ρ) c).arrAt 10 cfg0.N
abbrev QQ : S1x32.Idx → EReal := (dat0 (V5 m ρ) c).arrAt 11 cfg0.N
abbrev EO : S500000x32.Idx → EReal := (dat1 (V7 m ρ) c).arrAt 5 cfg1.N
abbrev R1 : S1x500000x32.Idx → EReal := W13 m ρ c (Proc.devRef .tc main_v86)
abbrev meanE (j : Fin 32) : EReal := Ideal.div (SS m ρ c (ix2 0 j)) Cert.GNN.Ne
abbrev varE (j : Fin 32) : EReal := max (Ideal.div (QQ m ρ c (ix2 0 j)) Cert.GNN.Ne - meanE m ρ c j * meanE m ρ c j) 0

theorem r1_w0 : B0 m ρ c = H2 m ρ c :=
  (kept hostOps1 _ main_v17_0).trans (W6_arr m ρ c 9)

-- The first edge stage only reads the edge table, so the second finds it as the first stretch left it.
theorem r1_w1 (e : Fin 500000) (k : Fin 32) :
    B1 m ρ c (ix2 e k) = m ((c : Thread nD τ).loc main_arg1) (ix3 0 e k) := by
  have e1 : B1 m ρ c = W1 m ρ c (Proc.devRef .tc main_v1) :=
    calc V7 m ρ c (Pipeline.arrRef spec1 1)
      _ = W6 m ρ c (Proc.devRef .tc main_v1) := kept hostOps1 _ main_v1
      _ = (dat0 (V5 m ρ) c).arrAt 2 cfg0.N := W6_arr m ρ c 2
      _ = (dat0 (V5 m ρ) c).A 2 := (dat0 (V5 m ρ) c).arrAt_in 2 rfl cfg0.N
      _ = W5 m ρ c (Proc.devRef .tc main_v1) := rfl
      _ = W1 m ρ c (Proc.devRef .tc main_v1) := W5_v1 m ρ c
  rw [e1]
  exact W1_v1 m ρ c e k

set_option maxHeartbeats 1000000 in
theorem B2_eq : B2 m ρ c
    = scaleV 0x48F42400#32 Facts₀.shapeCasts_S1x32_S32 Facts₀.shapeCasts_S32_S1x32 Facts₀.bcast_S_S32
        (W6 m ρ c (Proc.devRef .tc main_v17_1)) (W6 m ρ c (Proc.devRef .tc main_v17_2))
        (W6 m ρ c (Proc.devRef .tc main_arg7)) := by
  show StableHlo.after hostOps1 _ (Proc.devRef .tc main_v32) = _
  after_results; rfl

set_option maxHeartbeats 1000000 in
theorem B3_eq : B3 m ρ c
    = offsetV 0x48F42400#32 Facts₀.shapeCasts_S1x32_S32 Facts₀.shapeCasts_S32_S1x32 Facts₀.bcast_S_S32
        (W6 m ρ c (Proc.devRef .tc main_v17_1)) (W6 m ρ c (Proc.devRef .tc main_v17_2))
        (W6 m ρ c (Proc.devRef .tc main_arg7)) (W6 m ρ c (Proc.devRef .tc main_arg8)) := by
  show StableHlo.after hostOps1 _ (Proc.devRef .tc main_v36) = _
  after_results; rfl

theorem W6_sums : W6 m ρ c (Proc.devRef .tc main_v17_1) = SS m ρ c := W6_arr m ρ c 10
theorem W6_sumsq : W6 m ρ c (Proc.devRef .tc main_v17_2) = QQ m ρ c := W6_arr m ρ c 11

theorem r1_w2 (j : Fin 32) :
    B2 m ρ c (ix2 0 j) = KArgs.eg m c j * Ideal.rsqrt (varE m ρ c j + Cert.GNN.eps) := by
  rw [B2_eq, scaleV_apply _ _ _ _ _ _ _ Cert.GNN.Ne ofBits_5e5, W6_launch m ρ c (r := main_arg7), W6_sums, W6_sumsq]

theorem r1_w3 (j : Fin 32) :
    B3 m ρ c (ix2 0 j) = KArgs.ebt m c j
      - (meanE m ρ c j * KArgs.eg m c j) * Ideal.rsqrt (varE m ρ c j + Cert.GNN.eps) := by
  rw [B3_eq, offsetV_apply _ _ _ _ _ _ _ _ Cert.GNN.Ne ofBits_5e5, W6_launch m ρ c (r := main_arg7),
    W6_launch m ρ c (r := main_arg8), W6_sums, W6_sumsq]

-- No later stage holds the second edge stage's output and no later operation writes it.
theorem W12_main_v37_1 : W12 m ρ c (Proc.devRef .tc main_v37_1) = EO m ρ c :=
  (W12_of_ne m ρ c main_v37_1 (by decide)).trans ((kept hostOps3 _ main_v37_1).trans
    ((W10_of_ne m ρ c main_v37_1 (by decide)).trans ((kept hostOps2 _ main_v37_1).trans (W8_arr m ρ c 5))))

theorem R1_eq : R1 m ρ c
    = broadcastInDim S1x500000x32 (![1, 2] : Fin 2 → Fin S1x500000x32.rank) Facts₀.bcast_S500000x32_S1x500000x32_1_2
        (W12 m ρ c (Proc.devRef .tc main_v37_1)) := by
  show StableHlo.after hostOps4 _ (Proc.devRef .tc main_v86) = _
  after_results

theorem res1 (e : Fin 500000) (j : Fin 32) : R1 m ρ c (ix3 0 e j) = EO m ρ c (ix2 e j) := by
  rw [R1_eq, W12_main_v37_1]
  exact broadcastInDim_apply _ _ _ (ix3 (0 : Fin 1) e j) (ix2 e j)
    (fun a => by match a with | ⟨0, _⟩ => rfl | ⟨1, _⟩ => rfl)

end Cert.GNN.KHost

end
-- ==== Proof.KHostA2.lean ====
import proofs.«419603_j44143673869053_2_alg».proof.Proof.Gen.KernelIdeal.Frame
import proofs.«419603_j44143673869053_2_alg».proof.Proof.KArgs
import proofs.«419603_j44143673869053_2_alg».proof.Proof.Spec
import proofs.«419603_j44143673869053_2_alg».proof.Proof.Consts
import proofs.«419603_j44143673869053_2_alg».proof.Proof.LibIdx
import proofs.«419603_j44143673869053_2_alg».proof.Proof.LibIdx2
import proofs.«419603_j44143673869053_2_alg».proof.Proof.LibHost
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.KHostA2

open Idealize.ShloMosaic Idealize.ShloMosaic.TcCoe Idealize.ShloMosaic.ValueIdx
open Cert.KernelIdeal Cert.KernelIdeal.Gen Cert.KernelIdeal.Host

variable (m : (ℓ : Loc nD τ sig) → Buf (Elt Ideal) ℓ) (ρ : Dev nD → PrngReg)

theorem r2_w0 (c : Dev nD) (n : Fin 100000) (k : Fin 128) :
    (V9 m ρ c (Pipeline.arrRef spec2 0) : S100000x128.Idx → EReal) (ix2 n k)
      = m ((c : Thread nD τ).loc main_arg0) (ix3 (0 : Fin 1) n k) := by
  show (W9 m ρ c (Proc.devRef .tc main_v0) : Vec Ideal S100000x128 .f32) (ix2 n k) = _
  rw [W9_v0 m ρ c]
  exact W1_v0 m ρ c n k

theorem r2_w2 (c : Dev nD) (k : Fin 128) (j : Fin 256) :
    (V9 m ρ c (Pipeline.arrRef spec2 2) : S128x256.Idx → EReal) (ix2 k j)
      = m ((c : Thread nD τ).loc main_arg9) (ix2 j (⟨k.val, by omega⟩ : Fin 160)) := by
  show (StableHlo.after hostOps2 (W8 m ρ c) (Proc.devRef .tc main_v58) : Vec Ideal S128x256 .f32) (ix2 k j) = _
  after_results
  rw [W8_launch m ρ c (r := main_arg9)]
  exact (transpose_ix2_apply _ _ k j).trans (slice2_axis1_apply 0 _ _ j k _ (Nat.zero_add _).symm)

theorem r2_w3 (c : Dev nD) (k : Fin 32) (j : Fin 256) :
    (V9 m ρ c (Pipeline.arrRef spec2 3) : S32x256.Idx → EReal) (ix2 k j)
      = m ((c : Thread nD τ).loc main_arg9) (ix2 j (⟨128 + k.val, by omega⟩ : Fin 160)) := by
  show (StableHlo.after hostOps2 (W8 m ρ c) (Proc.devRef .tc main_v60) : Vec Ideal S32x256 .f32) (ix2 k j) = _
  after_results
  rw [W8_launch m ρ c (r := main_arg9)]
  exact (transpose_ix2_apply _ _ k j).trans (slice2_axis1_apply 128 _ _ j k _ rfl)

theorem r2_w4 (c : Dev nD) (j : Fin 256) :
    (V9 m ρ c (Pipeline.arrRef spec2 4) : S1x256.Idx → EReal) (ix2 0 j)
      = m ((c : Thread nD τ).loc main_arg10) (ix1 j) := by
  show (StableHlo.after hostOps2 (W8 m ρ c) (Proc.devRef .tc main_v62) : Vec Ideal S1x256 .f32) (ix2 0 j) = _
  after_results
  rw [W8_launch m ρ c (r := main_arg10)]
  exact shapeCast_a_1a_apply _ _ 0 j

theorem r2_w5 (c : Dev nD) (k : Fin 256) (j : Fin 128) :
    (V9 m ρ c (Pipeline.arrRef spec2 5) : S256x128.Idx → EReal) (ix2 k j)
      = m ((c : Thread nD τ).loc main_arg11) (ix2 j k) := by
  show (StableHlo.after hostOps2 (W8 m ρ c) (Proc.devRef .tc main_v61) : Vec Ideal S256x128 .f32) (ix2 k j) = _
  after_results
  rw [W8_launch m ρ c (r := main_arg11)]
  exact transpose_ix2_apply _ _ k j

theorem r2_w6 (c : Dev nD) (j : Fin 128) :
    (V9 m ρ c (Pipeline.arrRef spec2 6) : S1x128.Idx → EReal) (ix2 0 j)
      = m ((c : Thread nD τ).loc main_arg12) (ix1 j) := by
  show (StableHlo.after hostOps2 (W8 m ρ c) (Proc.devRef .tc main_v63) : Vec Ideal S1x128 .f32) (ix2 0 j) = _
  after_results
  rw [W8_launch m ρ c (r := main_arg12)]
  exact shapeCast_a_1a_apply _ _ 0 j

abbrev col (o : ℕ) (hs : S500000x2.Slices ![0, o] S500000x1) (a2 : IVec S500000x2 32) : IVec S500000 32 :=
  fun i => shapeCast S500000 (extractStridedSlice S500000x1 ![0, o] a2 hs) shapeCasts_S500000x1_S500000 i

-- One accumulation along column `q` of the index words: node `n` receives the edges whose word `q` names it.
theorem scatter_col (o : ℕ) (q : Fin 2) (hq : q.val = o) (hs : S500000x2.Slices ![0, o] S500000x1) (a2 : IVec S500000x2 32)
    (x : Vec Ideal S100000x32 .f32) (ne : S500000x32.Idx → EReal)
    (hr : ∀ i : S500000x2.Idx, 0 ≤ (a2 i).toInt ∧ (a2 i).toInt < 100000) (n : Fin 100000) (j : Fin 32) :
    (Host.scatterAdd (F := Ideal) (φ := .f32) scatter_S100000x32_S500000x1_S500000x32_1_0_0_1 x (Cert.GNN.Idx.colK (col o hs a2)) ne : Vec Ideal S100000x32 .f32) (ix2 n j)
      = x (ix2 n j) + ∑ e ∈ Finset.univ.filter (fun e : Fin 500000 => Cert.GNN.rowOf (a2 (ix2 e q)) = n), ne (ix2 e j) := by
  have hc : ∀ e : Fin 500000, col o hs a2 (ix1 e) = a2 (ix2 e q) := Cert.GNN.Idx.column_apply o q hq a2 hs
  have h0 : ∀ e : Fin 500000, Cert.GNN.Idx.colK (col o hs a2) (ix2 e (0 : Fin 1)) = a2 (ix2 e q) := fun e =>
    (Cert.GNN.Idx.colK_apply (col o hs a2) (fun e => by rw [hc]; exact hr _) _).trans (hc e)
  show Ideal.hostScatterAdd scatter_S100000x32_S500000x1_S500000x32_1_0_0_1 x (Cert.GNN.Idx.colK (col o hs a2)) ne (ix2 n j) = _
  rw [Cert.GNN.Idx.scatterK_apply _ _ _ (fun e => by rw [h0 e]; exact hr _) n j]
  exact congrArg (x (ix2 n j) + ·) (Finset.sum_congr (Finset.filter_congr fun e _ => by rw [h0 e]) fun _ _ => rfl)

theorem agg_apply (a2 : IVec S500000x2 32) (ne : S500000x32.Idx → EReal)
    (hr : ∀ i : S500000x2.Idx, 0 ≤ (a2 i).toInt ∧ (a2 i).toInt < 100000) (n : Fin 100000) (j : Fin 32) :
    (Host.scatterAdd (F := Ideal) scatter_S100000x32_S500000x1_S500000x32_1_0_0_1
      (Host.scatterAdd (F := Ideal) scatter_S100000x32_S500000x1_S500000x32_1_0_0_1
        (broadcastInDim S100000x32 ![] bcast_S_S100000x32 (constant (F := Ideal) S_ .f32 0x00000000#32))
        (Cert.GNN.Idx.colK (col 0 slices_S500000x2_S500000x1_0_0 a2)) ne)
      (Cert.GNN.Idx.colK (col 1 slices_S500000x2_S500000x1_0_1 a2)) ne : Vec Ideal S100000x32 .f32) (ix2 n j)
      = Cert.GNN.agg (fun e q => a2 (ix2 e q)) (fun e j => ne (ix2 e j)) n j := by
  have hz : ((broadcastInDim S100000x32 ![] bcast_S_S100000x32 (constant (F := Ideal) S_ .f32 0x00000000#32)) : Vec Ideal S100000x32 .f32) (ix2 n j) = (0 : EReal) :=
    (StableHlo.Predicate.bcast_scalar bcast_S_S100000x32 h_S_ _ _).trans Ideal.ofBits_zero_f32
  rw [scatter_col 1 1 rfl _ a2 _ ne hr n j, scatter_col 0 0 rfl _ a2 _ ne hr n j, hz]
  rfl

theorem ops2_v56 (V : Valuation τ sig (Elt Ideal)) :
    StableHlo.after hostOps2 V (Proc.devRef .tc main_v56)
      = (Host.scatterAdd (F := Ideal) scatter_S100000x32_S500000x1_S500000x32_1_0_0_1
          (Host.scatterAdd (F := Ideal) scatter_S100000x32_S500000x1_S500000x32_1_0_0_1
            (broadcastInDim S100000x32 ![] bcast_S_S100000x32 (constant (F := Ideal) S_ .f32 0x00000000#32))
            (Cert.GNN.Idx.colK (col 0 slices_S500000x2_S500000x1_0_0 (V (Proc.devRef .tc main_arg2) : IVec S500000x2 32)))
            (V (Proc.devRef .tc main_v37_0) : Vec Ideal S500000x32 .f32))
          (Cert.GNN.Idx.colK (col 1 slices_S500000x2_S500000x1_0_1 (V (Proc.devRef .tc main_arg2) : IVec S500000x2 32)))
          (V (Proc.devRef .tc main_v37_0) : Vec Ideal S500000x32 .f32) : Vec Ideal S100000x32 .f32) := by
  after_results_simp
  rfl

theorem r2_w1 (c : Dev nD)
    (hr : ∀ i : S500000x2.Idx, 0 ≤ (m ((c : Thread nD τ).loc main_arg2) i).toInt
      ∧ (m ((c : Thread nD τ).loc main_arg2) i).toInt < 100000)
    (n : Fin 100000) (j : Fin 32) :
    (V9 m ρ c (Pipeline.arrRef spec2 1) : S100000x32.Idx → EReal) (ix2 n j)
      = Cert.GNN.agg (fun e q => m ((c : Thread nD τ).loc main_arg2) (ix2 e q))
          (fun e j => (V8 m ρ c (Pipeline.arrRef spec1 4) : S500000x32.Idx → EReal) (ix2 e j)) n j := by
  show (StableHlo.after hostOps2 (W8 m ρ c) (Proc.devRef .tc main_v56) : Vec Ideal S100000x32 .f32) (ix2 n j) = _
  rw [ops2_v56, W8_launch m ρ c (r := main_arg2)]
  exact agg_apply (m ((c : Thread nD τ).loc main_arg2)) (W8 m ρ c (Proc.devRef .tc main_v37_0)) hr n j

end Cert.KernelIdeal.KHostA2

end
-- ==== Proof.KHostB2.lean ====
import proofs.«419603_j44143673869053_2_alg».proof.Proof.Gen.KernelIdeal.Frame
import proofs.«419603_j44143673869053_2_alg».proof.Proof.KArgs
import proofs.«419603_j44143673869053_2_alg».proof.Proof.Spec
import proofs.«419603_j44143673869053_2_alg».proof.Proof.Consts
import proofs.«419603_j44143673869053_2_alg».proof.Proof.LibHost
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.KHostB2

open Idealize.ShloMosaic Idealize.ShloMosaic.TcCoe Idealize.ShloMosaic.ValueIdx
open Cert.KernelIdeal Cert.KernelIdeal.Gen Cert.KernelIdeal.Host

variable (m : (ℓ : Loc nD τ sig) → Buf (Elt Ideal) ℓ) (ρ : Dev nD → PrngReg) (c : Dev nD)

theorem D0_eq :
    (V11 m ρ c (Pipeline.arrRef spec3 0) : S100000x128.Idx → EReal)
      = ((dat2 (V9 m ρ) c).arrAt 7 cfg2.N : S100000x128.Idx → EReal) :=
  calc (W11 m ρ c (Proc.devRef .tc main_v64_0) : S100000x128.Idx → EReal)
    _ = W10 m ρ c (Proc.devRef .tc main_v64_0) := kept hostOps3 _ main_v64_0
    _ = _ := W10_arr m ρ c 7

theorem res_eq (n : Fin 100000) (j : Fin 128) :
    (W13 m ρ c (Proc.devRef .tc main_v85) : S1x100000x128.Idx → EReal) (ix3 (0 : Fin 1) n j)
      = ((dat3 (V11 m ρ) c).arrAt 4 cfg3.N : S100000x128.Idx → EReal) (ix2 n j) := by
  have h85 : W13 m ρ c (Proc.devRef .tc main_v85)
      = (broadcastInDim S1x100000x128 ![1, 2] bcast_S100000x128_S1x100000x128_1_2
          (W12 m ρ c (Proc.devRef .tc main_v84) : Vec Ideal S100000x128 .f32) : Vec Ideal S1x100000x128 .f32) := by
    show StableHlo.after hostOps4 _ (Proc.devRef .tc main_v85) = _
    after_results
    all_goals rfl
  rw [h85, ← W12_arr m ρ c 4]
  exact broadcastInDim_apply (s := S100000x128) (t := S1x100000x128) _ _ _ (ix3 (0 : Fin 1) n j) (ix2 n j)
    (fun a => match a with
      | ⟨0, _⟩ => rfl
      | ⟨1, _⟩ => rfl)

theorem D1_apply (n : Fin 100000) (k : Fin 128) :
    (V11 m ρ c (Pipeline.arrRef spec3 1) : S100000x128.Idx → EReal) (ix2 n k)
      = m ((c : Thread nD τ).loc main_arg0) (ix3 (0 : Fin 1) n k) := by
  show (W11 m ρ c (Proc.devRef .tc main_v0) : S100000x128.Idx → EReal) (ix2 n k) = _
  rw [W11_v0 m ρ c]
  exact W1_v0 m ρ c n k

abbrev meanA (S : S1x128.Idx → EReal) (j : Fin 128) : EReal := Ideal.div (S (ix2 0 j)) Cert.GNN.Nn

abbrev varA (S Q : S1x128.Idx → EReal) (j : Fin 128) : EReal :=
  max (Ideal.div (Q (ix2 0 j)) Cert.GNN.Nn - meanA S j * meanA S j) 0

theorem ops3_scale (V : Valuation τ sig (Elt Ideal)) (G : S128.Idx → EReal) (S Q : S1x128.Idx → EReal)
    (hG : V (Proc.devRef .tc main_arg13) = G) (hS : V (Proc.devRef .tc main_v64_1) = S)
    (hQ : V (Proc.devRef .tc main_v64_2) = Q) (j : Fin 128) :
    (StableHlo.after hostOps3 V (Proc.devRef .tc main_v79) : S1x128.Idx → EReal) (ix2 (0 : Fin 1) j)
      = G (ix1 j) * Ideal.rsqrt (varA S Q j + Cert.GNN.eps) := by
  after_results
  rw [hG, hS, hQ]
  exact scaleV_apply 0x47C35000#32 shapeCasts_S1x128_S128 shapeCasts_S128_S1x128 bcast_S_S128 S Q G Cert.GNN.Nn
    Cert.GNN.ofBits_1e5 j

theorem ops3_offset (V : Valuation τ sig (Elt Ideal)) (G B : S128.Idx → EReal) (S Q : S1x128.Idx → EReal)
    (hG : V (Proc.devRef .tc main_arg13) = G) (hB : V (Proc.devRef .tc main_arg14) = B)
    (hS : V (Proc.devRef .tc main_v64_1) = S) (hQ : V (Proc.devRef .tc main_v64_2) = Q) (j : Fin 128) :
    (StableHlo.after hostOps3 V (Proc.devRef .tc main_v83) : S1x128.Idx → EReal) (ix2 (0 : Fin 1) j)
      = B (ix1 j) - (meanA S j * G (ix1 j)) * Ideal.rsqrt (varA S Q j + Cert.GNN.eps) := by
  after_results_simp
  rw [hG, hB, hS, hQ]
  exact offsetV_apply 0x47C35000#32 shapeCasts_S1x128_S128 shapeCasts_S128_S1x128 bcast_S_S128 S Q G B Cert.GNN.Nn
    Cert.GNN.ofBits_1e5 j

theorem D2_apply (j : Fin 128) :
    (V11 m ρ c (Pipeline.arrRef spec3 2) : S1x128.Idx → EReal) (ix2 (0 : Fin 1) j)
      = KArgs.ng m c j * Ideal.rsqrt (varA ((dat2 (V9 m ρ) c).arrAt 8 cfg2.N : S1x128.Idx → EReal)
          ((dat2 (V9 m ρ) c).arrAt 9 cfg2.N : S1x128.Idx → EReal) j + Cert.GNN.eps) :=
  ops3_scale (W10 m ρ c) _ _ _ (W10_launch m ρ c (r := main_arg13)) (W10_arr m ρ c 8) (W10_arr m ρ c 9) j

theorem D3_apply (j : Fin 128) :
    (V11 m ρ c (Pipeline.arrRef spec3 3) : S1x128.Idx → EReal) (ix2 (0 : Fin 1) j)
      = KArgs.nbt m c j
        - (meanA ((dat2 (V9 m ρ) c).arrAt 8 cfg2.N : S1x128.Idx → EReal) j * KArgs.ng m c j)
          * Ideal.rsqrt (varA ((dat2 (V9 m ρ) c).arrAt 8 cfg2.N : S1x128.Idx → EReal)
              ((dat2 (V9 m ρ) c).arrAt 9 cfg2.N : S1x128.Idx → EReal) j + Cert.GNN.eps) :=
  ops3_offset (W10 m ρ c) _ _ _ _ (W10_launch m ρ c (r := main_arg13)) (W10_launch m ρ c (r := main_arg14))
    (W10_arr m ρ c 8) (W10_arr m ρ c 9) j

end Cert.KernelIdeal.KHostB2
end
-- ==== Proof.KTotal.lean ====
import proofs.«419603_j44143673869053_2_alg».proof.Proof.Gen.KernelIdeal.Frame
import proofs.«419603_j44143673869053_2_alg».proof.Proof.KArgs
import proofs.«419603_j44143673869053_2_alg».proof.Proof.Spec
import proofs.«419603_j44143673869053_2_alg».proof.Proof.KTotalE
import proofs.«419603_j44143673869053_2_alg».proof.Proof.KTotalN
import proofs.«419603_j44143673869053_2_alg».proof.Proof.KReg1
import proofs.«419603_j44143673869053_2_alg».proof.Proof.KReg3
import proofs.«419603_j44143673869053_2_alg».proof.Proof.KReg0
import proofs.«419603_j44143673869053_2_alg».proof.Proof.KReg2
import proofs.«419603_j44143673869053_2_alg».proof.Proof.KHostA
import proofs.«419603_j44143673869053_2_alg».proof.Proof.KHostB
import proofs.«419603_j44143673869053_2_alg».proof.Proof.KHostA2
import proofs.«419603_j44143673869053_2_alg».proof.Proof.KHostB2
import Idealize.ShloMosaic.Lib.ValueIdx

set_option maxRecDepth 16384

noncomputable section

namespace Cert.KernelIdeal.KTotal

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

abbrev ne : Fin 500000 → Fin 32 → EReal :=
  Cert.GNN.newEdgesK (KArgs.nodes m c) (KArgs.edges m c) (KArgs.pair m c) (KArgs.ew1 m c) (KArgs.eb1 m c) (KArgs.ew2 m c) (KArgs.eb2 m c) (KArgs.eg m c) (KArgs.ebt m c)

variable (hr : ∀ i : S500000x2.Idx, 0 ≤ (m ((c.tc : Thread nD τ).loc main_arg2) i).toInt ∧ (m ((c.tc : Thread nD τ).loc main_arg2) i).toInt < 100000)
include hr

theorem newEdge_point (e : Fin 500000) (j : Fin 32) :
    Cert.GNN.KHost.B0 m ρ c (ix2 e j) * Cert.GNN.KHost.B2 m ρ c (ix2 0 j) + Cert.GNN.KHost.B3 m ρ c (ix2 0 j) = ne m c e j :=
  have hfn := KTotalE.h2of_eq (KArgs.nodes m c) (KArgs.edges m c) (KArgs.pair m c) (KArgs.ew1 m c) (KArgs.eb1 m c) (KArgs.ew2 m c) (KArgs.eb2 m c) _ _ _ _ _ _ _ _ _
    (Cert.GNN.KHostA.r0_w0 m ρ c hr) (Cert.GNN.KHostA.r0_w1 m ρ c hr) (Cert.GNN.KHostA.r0_w2 m ρ c) (Cert.GNN.KHostA.r0_w3 m ρ c)
    (Cert.GNN.KHostA.r0_w4 m ρ c) (Cert.GNN.KHostA.r0_w5 m ρ c) (Cert.GNN.KHostA.r0_w6 m ρ c) (Cert.GNN.KHostA.r0_w7 m ρ c)
    (Cert.GNN.KHostA.r0_w8 m ρ c)
  KTotalE.bn_point _ Cert.GNN.Ne Cert.GNN.eps (KArgs.eg m c) (KArgs.ebt m c) _ _ _ _ _ e j
    ((congrFun (Cert.GNN.KHost.r1_w0 m ρ c) _).trans ((congrFun (Reg0.h2_val (V5 m ρ) c) _).trans (congrFun (congrFun hfn e) j)))
    ((congrFun (Reg0.sum_val (V5 m ρ) c) _).trans (congrArg (Cert.GNN.colSum · j) hfn))
    ((congrFun (Reg0.sumsq_val (V5 m ρ) c) _).trans (congrArg (Cert.GNN.colSumSq · j) hfn))
    (Cert.GNN.KHost.r1_w2 m ρ c j) (Cert.GNN.KHost.r1_w3 m ρ c j)

theorem newEdges : (dat1 (V7 m ρ) c).arrAt 4 cfg1.N = fun i => ne m c (i 0) (i 1) :=
  (Reg1.ne_val (V7 m ρ) c).trans (funext fun i => newEdge_point m ρ c hr (i 0) (i 1))

theorem out1 : W13 m ρ c (Proc.devRef .tc main_v86) = KArgs.out1K m c :=
  KTotalE.res_total (M := 500000) (C := 32) _ (KArgs.edges m c) _ _ _ _ _ _ (Cert.GNN.KHost.res1 m ρ c) (Reg1.eo_val (V7 m ρ) c)
    (Cert.GNN.KHost.r1_w1 m ρ c) (newEdge_point m ρ c hr)

theorem out0 : W13 m ρ c (Proc.devRef .tc main_v85) = KArgs.out0K m c :=
  have hne : (fun e j => (V8 m ρ c (Pipeline.arrRef spec1 4) : S500000x32.Idx → EReal) (ix2 e j)) = ne m c :=
    funext fun e => funext fun j => congrFun ((W8_arr m ρ c 4).trans (newEdges m ρ c hr)) (ix2 e j)
  have hfn := KTotalN.h2fn_eq (KArgs.nodes m c) (KArgs.nw1 m c) (KArgs.nb1 m c) (KArgs.nw2 m c) (KArgs.nb2 m c)
    (Cert.GNN.agg (KArgs.pair m c) (ne m c)) _ _ _ _ _ _ _ (Cert.KernelIdeal.KHostA2.r2_w0 m ρ c)
    (fun n j => (Cert.KernelIdeal.KHostA2.r2_w1 m ρ c hr n j).trans (congrArg (Cert.GNN.agg (KArgs.pair m c) · n j) hne))
    (Cert.KernelIdeal.KHostA2.r2_w2 m ρ c) (Cert.KernelIdeal.KHostA2.r2_w3 m ρ c) (Cert.KernelIdeal.KHostA2.r2_w4 m ρ c)
    (Cert.KernelIdeal.KHostA2.r2_w5 m ρ c) (Cert.KernelIdeal.KHostA2.r2_w6 m ρ c)
  KTotalE.res_total (M := 100000) (C := 128) _ (KArgs.nodes m c) _ _ _ _ _ _ (Cert.KernelIdeal.KHostB2.res_eq m ρ c)
    (Reg3.out_val (V11 m ρ) c) (Cert.KernelIdeal.KHostB2.D1_apply m ρ c) fun n j =>
    KTotalE.bn_point _ Cert.GNN.Nn Cert.GNN.eps (KArgs.ng m c) (KArgs.nbt m c) _ _ _ _ _ n j
      ((congrFun (Cert.KernelIdeal.KHostB2.D0_eq m ρ c) _).trans
        ((congrFun (Reg2.h2_val (V9 m ρ) c) _).trans (congrFun (congrFun hfn n) j)))
      ((congrFun (Reg2.sum_val (V9 m ρ) c) _).trans (congrArg (Cert.GNN.colSum · j) hfn))
      ((congrFun (Reg2.sumsq_val (V9 m ρ) c) _).trans (congrArg (Cert.GNN.colSumSq · j) hfn))
      (Cert.KernelIdeal.KHostB2.D2_apply m ρ c j) (Cert.KernelIdeal.KHostB2.D3_apply m ρ c j)

end Cert.KernelIdeal.KTotal

end
-- ==== Proof.RRun.lean ====
import proofs.«419603_j44143673869053_2_alg».proof.ReferenceIdeal
import proofs.«419603_j44143673869053_2_alg».proof.Proof.Gen.ReferenceIdeal
import Idealize.ShloMosaic.Lib.StableHlo.Run

noncomputable section

namespace Cert.ReferenceIdeal

open Cert.ReferenceIdeal.Gen Idealize.ShloMosaic Idealize.ShloMosaic.TcCoe Idealize.SL.Sem Idealize.ShloMosaic.StableHlo

variable {F : FTy → Type} [FloatOps F]

namespace RSegs

def segS : List (HloOp τ sig (Elt F)) :=
  [ StableHlo.unary main_cst_6 main_v51 (broadcastInDim S100000x32 ![] bcast_S_S100000x32 : (⟨S_, .f32⟩ : BufTy).Contents (Elt F) → (⟨S100000x32, .f32⟩ : BufTy).Contents (Elt F)),
    StableHlo.unary main_arg2 main_v52 ((extractStridedSlice S500000x1 ![0, 0] · slices_S500000x2_S500000x1_0_0) : (⟨S500000x2, .i32⟩ : BufTy).Contents (Elt F) → (⟨S500000x1, .i32⟩ : BufTy).Contents (Elt F)),
    StableHlo.reshape main_v52 main_v53 rfl shapeCasts_S500000x1_S500000,
    StableHlo.nullary main_c_7 (constantI S_ 32 0#32),
    StableHlo.unary main_c_7 main_v54 (broadcastInDim S500000 ![] bcast_S_S500000 : (⟨S_, .i32⟩ : BufTy).Contents (Elt F) → (⟨S500000, .i32⟩ : BufTy).Contents (Elt F)),
    StableHlo.binary main_v53 main_v54 main_v55 (cmpi .slt : (⟨S500000, .i32⟩ : BufTy).Contents (Elt F) → (⟨S500000, .i32⟩ : BufTy).Contents (Elt F) → (⟨S500000, .i1⟩ : BufTy).Contents (Elt F)),
    StableHlo.nullary main_c_8 (constantI S_ 32 100000#32),
    StableHlo.unary main_c_8 main_v56 (broadcastInDim S500000 ![] bcast_S_S500000 : (⟨S_, .i32⟩ : BufTy).Contents (Elt F) → (⟨S500000, .i32⟩ : BufTy).Contents (Elt F)),
    StableHlo.binary main_v53 main_v56 main_v57 (addi : (⟨S500000, .i32⟩ : BufTy).Contents (Elt F) → (⟨S500000, .i32⟩ : BufTy).Contents (Elt F) → (⟨S500000, .i32⟩ : BufTy).Contents (Elt F)),
    StableHlo.ternary main_v55 main_v57 main_v53 main_v58 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v58 main_v59 (broadcastInDim S500000x1 ![0] bcast_S500000_S500000x1_0 : (⟨S500000, .i32⟩ : BufTy).Contents (Elt F) → (⟨S500000x1, .i32⟩ : BufTy).Contents (Elt F)),
    StableHlo.ternary main_v51 main_v59 main_v50 main_v60 ((fun x i u => Host.scatterAdd scatter_S100000x32_S500000x1_S500000x32_1_0_0_1 x i u) : (⟨S100000x32, .f32⟩ : BufTy).Contents (Elt F) → (⟨S500000x1, .i32⟩ : BufTy).Contents (Elt F) → (⟨S500000x32, .f32⟩ : BufTy).Contents (Elt F) → (⟨S100000x32, .f32⟩ : BufTy).Contents (Elt F)),
    StableHlo.unary main_arg2 main_v61 ((extractStridedSlice S500000x1 ![0, 1] · slices_S500000x2_S500000x1_0_1) : (⟨S500000x2, .i32⟩ : BufTy).Contents (Elt F) → (⟨S500000x1, .i32⟩ : BufTy).Contents (Elt F)),
    StableHlo.reshape main_v61 main_v62 rfl shapeCasts_S500000x1_S500000,
    StableHlo.nullary main_c_9 (constantI S_ 32 0#32),
    StableHlo.unary main_c_9 main_v63 (broadcastInDim S500000 ![] bcast_S_S500000 : (⟨S_, .i32⟩ : BufTy).Contents (Elt F) → (⟨S500000, .i32⟩ : BufTy).Contents (Elt F)),
    StableHlo.binary main_v62 main_v63 main_v64 (cmpi .slt : (⟨S500000, .i32⟩ : BufTy).Contents (Elt F) → (⟨S500000, .i32⟩ : BufTy).Contents (Elt F) → (⟨S500000, .i1⟩ : BufTy).Contents (Elt F)),
    StableHlo.nullary main_c_10 (constantI S_ 32 100000#32),
    StableHlo.unary main_c_10 main_v65 (broadcastInDim S500000 ![] bcast_S_S500000 : (⟨S_, .i32⟩ : BufTy).Contents (Elt F) → (⟨S500000, .i32⟩ : BufTy).Contents (Elt F)),
    StableHlo.binary main_v62 main_v65 main_v66 (addi : (⟨S500000, .i32⟩ : BufTy).Contents (Elt F) → (⟨S500000, .i32⟩ : BufTy).Contents (Elt F) → (⟨S500000, .i32⟩ : BufTy).Contents (Elt F)),
    StableHlo.ternary main_v64 main_v66 main_v62 main_v67 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v67 main_v68 (broadcastInDim S500000x1 ![0] bcast_S500000_S500000x1_0 : (⟨S500000, .i32⟩ : BufTy).Contents (Elt F) → (⟨S500000x1, .i32⟩ : BufTy).Contents (Elt F)),
    StableHlo.ternary main_v60 main_v68 main_v50 main_v69 ((fun x i u => Host.scatterAdd scatter_S100000x32_S500000x1_S500000x32_1_0_0_1 x i u) : (⟨S100000x32, .f32⟩ : BufTy).Contents (Elt F) → (⟨S500000x1, .i32⟩ : BufTy).Contents (Elt F) → (⟨S500000x32, .f32⟩ : BufTy).Contents (Elt F) → (⟨S100000x32, .f32⟩ : BufTy).Contents (Elt F)) ]

def segP1 : List (HloOp τ sig (Elt F)) :=
  [ StableHlo.unary main_v69 main_v70 (broadcastInDim S1x100000x32 ![1, 2] bcast_S100000x32_S1x100000x32_1_2 : (⟨S100000x32, .f32⟩ : BufTy).Contents (Elt F) → (⟨S1x100000x32, .f32⟩ : BufTy).Contents (Elt F)),
    StableHlo.binary main_arg0 main_v70 main_v71 ((fun a b => concatenate S1x100000x160 2 [⟨S1x100000x128, a⟩, ⟨S1x100000x32, b⟩] concatenates_S1x100000x128_S1x100000x32_S1x100000x160_d2) : (⟨S1x100000x128, .f32⟩ : BufTy).Contents (Elt F) → (⟨S1x100000x32, .f32⟩ : BufTy).Contents (Elt F) → (⟨S1x100000x160, .f32⟩ : BufTy).Contents (Elt F)),
    StableHlo.binary main_v71 main_arg9 main_v72 ((fun l r => Host.dotGeneral dot_S1x100000x160_S256x160_S1x100000x256_2_1_01_0_n_n none l r) : (⟨S1x100000x160, .f32⟩ : BufTy).Contents (Elt F) → (⟨S256x160, .f32⟩ : BufTy).Contents (Elt F) → (⟨S1x100000x256, .f32⟩ : BufTy).Contents (Elt F)),
    StableHlo.unary main_arg10 main_v73 (broadcastInDim S1x1x256 ![2] bcast_S256_S1x1x256_2 : (⟨S256, .f32⟩ : BufTy).Contents (Elt F) → (⟨S1x1x256, .f32⟩ : BufTy).Contents (Elt F)),
    StableHlo.unary main_v73 main_v74 (broadcastInDim S1x100000x256 ![0, 1, 2] bcast_S1x1x256_S1x100000x256_0_1_2 : (⟨S1x1x256, .f32⟩ : BufTy).Contents (Elt F) → (⟨S1x100000x256, .f32⟩ : BufTy).Contents (Elt F)),
    StableHlo.binary main_v72 main_v74 main_v75 (addf : (⟨S1x100000x256, .f32⟩ : BufTy).Contents (Elt F) → (⟨S1x100000x256, .f32⟩ : BufTy).Contents (Elt F) → (⟨S1x100000x256, .f32⟩ : BufTy).Contents (Elt F)) ]

def segE5 : List (HloOp τ sig (Elt F)) :=
  [ StableHlo.TRef.nullary main_call3.cst (constant S_ .f32 0x00000000#32),
    StableHlo.TRef.unary main_call3.cst main_call3.v0 (broadcastInDim S1x100000x256 ![] bcast_S_S1x100000x256),
    StableHlo.TRef.binary (.of main_v75 : StableHlo.TRef sig ⟨S1x100000x256, .f32⟩) main_call3.v0 main_call3.v1 (cmpf .ogt),
    StableHlo.TRef.nullary main_call3.cst_0 (constant S_ .f32 0x00000000#32),
    StableHlo.TRef.unary main_call3.cst_0 main_call3.v2 (broadcastInDim S1x100000x256 ![] bcast_S_S1x100000x256),
    StableHlo.TRef.binary (.of main_v75 : StableHlo.TRef sig ⟨S1x100000x256, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S1x100000x256 ![] bcast_S_S1x100000x256),
    StableHlo.TRef.ternary main_call3.v3 main_call3.call0.v1 (.of main_v75 : StableHlo.TRef sig ⟨S1x100000x256, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S1x100000x256 ![] bcast_S_S1x100000x256),
    StableHlo.TRef.binary main_call3.v6 main_call3.v5 main_call3.v7 mulf,
    StableHlo.TRef.ternary main_call3.v1 (.of main_v75 : StableHlo.TRef sig ⟨S1x100000x256, .f32⟩) main_call3.v7 main_call3.call1.v0 select ]

def segP2 : List (HloOp τ sig (Elt F)) :=
  [ StableHlo.binary main_v76 main_arg11 main_v77 ((fun l r => Host.dotGeneral dot_S1x100000x256_S128x256_S1x100000x128_2_1_01_0_n_n none l r) : (⟨S1x100000x256, .f32⟩ : BufTy).Contents (Elt F) → (⟨S128x256, .f32⟩ : BufTy).Contents (Elt F) → (⟨S1x100000x128, .f32⟩ : BufTy).Contents (Elt F)),
    StableHlo.unary main_arg12 main_v78 (broadcastInDim S1x1x128 ![2] bcast_S128_S1x1x128_2 : (⟨S128, .f32⟩ : BufTy).Contents (Elt F) → (⟨S1x1x128, .f32⟩ : BufTy).Contents (Elt F)),
    StableHlo.unary main_v78 main_v79 (broadcastInDim S1x100000x128 ![0, 1, 2] bcast_S1x1x128_S1x100000x128_0_1_2 : (⟨S1x1x128, .f32⟩ : BufTy).Contents (Elt F) → (⟨S1x100000x128, .f32⟩ : BufTy).Contents (Elt F)),
    StableHlo.binary main_v77 main_v79 main_v80 (addf : (⟨S1x100000x128, .f32⟩ : BufTy).Contents (Elt F) → (⟨S1x100000x128, .f32⟩ : BufTy).Contents (Elt F) → (⟨S1x100000x128, .f32⟩ : BufTy).Contents (Elt F)) ]

def segE8 : List (HloOp τ sig (Elt F)) :=
  [ StableHlo.TRef.nullary main_call4.cst (constant S_ .f32 0x00000000#32),
    StableHlo.TRef.unary main_call4.cst main_call4.v0 (broadcastInDim S1x100000x128 ![] bcast_S_S1x100000x128),
    StableHlo.TRef.binary (.of main_v80 : StableHlo.TRef sig ⟨S1x100000x128, .f32⟩) main_call4.v0 main_call4.v1 (cmpf .ogt),
    StableHlo.TRef.nullary main_call4.cst_0 (constant S_ .f32 0x00000000#32),
    StableHlo.TRef.unary main_call4.cst_0 main_call4.v2 (broadcastInDim S1x100000x128 ![] bcast_S_S1x100000x128),
    StableHlo.TRef.binary (.of main_v80 : StableHlo.TRef sig ⟨S1x100000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S1x100000x128 ![] bcast_S_S1x100000x128),
    StableHlo.TRef.ternary main_call4.v3 main_call4.call0.v1 (.of main_v80 : StableHlo.TRef sig ⟨S1x100000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S1x100000x128 ![] bcast_S_S1x100000x128),
    StableHlo.TRef.binary main_call4.v6 main_call4.v5 main_call4.v7 mulf,
    StableHlo.TRef.ternary main_call4.v1 (.of main_v80 : StableHlo.TRef sig ⟨S1x100000x128, .f32⟩) main_call4.v7 main_call4.call1.v0 select ]

def segN : List (HloOp τ sig (Elt F)) :=
  [ StableHlo.reshape main_v81 main_v82 rfl shapeCasts_S1x100000x128_S100000x128,
    StableHlo.nullary main_cst_11 (constant S_ .f32 0x00000000#32),
    StableHlo.binary main_v82 main_cst_11 main_v83 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v84 (broadcastInDim S128 ![] bcast_S_S128 : (⟨S_, .f32⟩ : BufTy).Contents (Elt F) → (⟨S128, .f32⟩ : BufTy).Contents (Elt F)),
    StableHlo.binary main_v83 main_v84 main_v85 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call5.cst (constant S_ .f32 0x00000000#32),
    StableHlo.TRef.binary (.of main_v82 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v82 : StableHlo.TRef sig ⟨S100000x128, .f32⟩) main_call5.v4 main_call5.v5 subf,
    StableHlo.TRef.binary main_call5.v5 main_call5.v5 main_call5.v6 mulf,
    StableHlo.TRef.unary (.of main_c_13 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v85 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v88 main_v89 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v90 (broadcastInDim S128 ![] bcast_S_S128 : (⟨S_, .f32⟩ : BufTy).Contents (Elt F) → (⟨S128, .f32⟩ : BufTy).Contents (Elt F)),
    StableHlo.binary main_v86 main_v90 main_v91 (addf : (⟨S128, .f32⟩ : BufTy).Contents (Elt F) → (⟨S128, .f32⟩ : BufTy).Contents (Elt F) → (⟨S128, .f32⟩ : BufTy).Contents (Elt F)),
    StableHlo.unary main_v91 main_v92 (Host.rsqrt : (⟨S128, .f32⟩ : BufTy).Contents (Elt F) → (⟨S128, .f32⟩ : BufTy).Contents (Elt F)),
    StableHlo.unary main_v92 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v94 main_v95 (mulf : (⟨S100000x128, .f32⟩ : BufTy).Contents (Elt F) → (⟨S100000x128, .f32⟩ : BufTy).Contents (Elt F) → (⟨S100000x128, .f32⟩ : BufTy).Contents (Elt F)),
    StableHlo.unary main_arg13 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v97 main_v98 (mulf : (⟨S100000x128, .f32⟩ : BufTy).Contents (Elt F) → (⟨S100000x128, .f32⟩ : BufTy).Contents (Elt F) → (⟨S100000x128, .f32⟩ : BufTy).Contents (Elt F)),
    StableHlo.unary main_arg14 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v100 main_v101 (addf : (⟨S100000x128, .f32⟩ : BufTy).Contents (Elt F) → (⟨S100000x128, .f32⟩ : BufTy).Contents (Elt F) → (⟨S100000x128, .f32⟩ : BufTy).Contents (Elt F)),
    StableHlo.reshape main_v101 main_v102 rfl shapeCasts_S100000x128_S1x100000x128 ]

end RSegs

namespace RRun

open RSegs

set_option maxHeartbeats 40000000 in
abbrev ops0 : List (HloOp τ sig (Elt F)) :=
  [ StableHlo.unary main_arg2 main_v0 ((extractStridedSlice S500000x1 ![0, 0] · slices_S500000x2_S500000x1_0_0) : (⟨S500000x2, .i32⟩ : BufTy).Contents (Elt F) → (⟨S500000x1, .i32⟩ : BufTy).Contents (Elt F)),
    StableHlo.reshape main_v0 main_v1 rfl shapeCasts_S500000x1_S500000,
    StableHlo.nullary main_c (constantI S_ 32 0#32),
    StableHlo.unary main_c main_v2 (broadcastInDim S500000 ![] bcast_S_S500000 : (⟨S_, .i32⟩ : BufTy).Contents (Elt F) → (⟨S500000, .i32⟩ : BufTy).Contents (Elt F)),
    StableHlo.binary main_v1 main_v2 main_v3 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 100000#32),
    StableHlo.unary main_c_0 main_v4 (broadcastInDim S500000 ![] bcast_S_S500000 : (⟨S_, .i32⟩ : BufTy).Contents (Elt F) → (⟨S500000, .i32⟩ : BufTy).Contents (Elt F)),
    StableHlo.binary main_v1 main_v4 main_v5 (addi : (⟨S500000, .i32⟩ : BufTy).Contents (Elt F) → (⟨S500000, .i32⟩ : BufTy).Contents (Elt F) → (⟨S500000, .i32⟩ : BufTy).Contents (Elt F)),
    StableHlo.ternary main_v3 main_v5 main_v1 main_v6 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v6 main_v7 (broadcastInDim S500000x1 ![0] bcast_S500000_S500000x1_0 : (⟨S500000, .i32⟩ : BufTy).Contents (Elt F) → (⟨S500000x1, .i32⟩ : BufTy).Contents (Elt F)),
    StableHlo.binary main_arg0 main_v7 main_v8 ((fun x i => Host.gather gather_S1x100000x128_S500000x1_S1x500000x128_02_1_n_n_1_1_11128 x i) : (⟨S1x100000x128, .f32⟩ : BufTy).Contents (Elt F) → (⟨S500000x1, .i32⟩ : BufTy).Contents (Elt F) → (⟨S1x500000x128, .f32⟩ : BufTy).Contents (Elt F)),
    StableHlo.unary main_arg2 main_v9 ((extractStridedSlice S500000x1 ![0, 1] · slices_S500000x2_S500000x1_0_1) : (⟨S500000x2, .i32⟩ : BufTy).Contents (Elt F) → (⟨S500000x1, .i32⟩ : BufTy).Contents (Elt F)),
    StableHlo.reshape main_v9 main_v10 rfl shapeCasts_S500000x1_S500000,
    StableHlo.nullary main_c_1 (constantI S_ 32 0#32),
    StableHlo.unary main_c_1 main_v11 (broadcastInDim S500000 ![] bcast_S_S500000 : (⟨S_, .i32⟩ : BufTy).Contents (Elt F) → (⟨S500000, .i32⟩ : BufTy).Contents (Elt F)),
    StableHlo.binary main_v10 main_v11 main_v12 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 100000#32),
    StableHlo.unary main_c_2 main_v13 (broadcastInDim S500000 ![] bcast_S_S500000 : (⟨S_, .i32⟩ : BufTy).Contents (Elt F) → (⟨S500000, .i32⟩ : BufTy).Contents (Elt F)),
    StableHlo.binary main_v10 main_v13 main_v14 (addi : (⟨S500000, .i32⟩ : BufTy).Contents (Elt F) → (⟨S500000, .i32⟩ : BufTy).Contents (Elt F) → (⟨S500000, .i32⟩ : BufTy).Contents (Elt F)),
    StableHlo.ternary main_v12 main_v14 main_v10 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v15 main_v16 (broadcastInDim S500000x1 ![0] bcast_S500000_S500000x1_0 : (⟨S500000, .i32⟩ : BufTy).Contents (Elt F) → (⟨S500000x1, .i32⟩ : BufTy).Contents (Elt F)),
    StableHlo.binary main_arg0 main_v16 main_v17 ((fun x i => Host.gather gather_S1x100000x128_S500000x1_S1x500000x128_02_1_n_n_1_1_11128 x i) : (⟨S1x100000x128, .f32⟩ : BufTy).Contents (Elt F) → (⟨S500000x1, .i32⟩ : BufTy).Contents (Elt F) → (⟨S1x500000x128, .f32⟩ : BufTy).Contents (Elt F)),
    StableHlo.nary ![main_v8, main_v17, main_arg1] main_v18 (fun u => concatenate S1x500000x288 2 [⟨S1x500000x128, u 0⟩, ⟨S1x500000x128, u 1⟩, ⟨S1x500000x32, u 2⟩] concatenates_S1x500000x128_S1x500000x128_S1x500000x32_S1x500000x288_d2),
    StableHlo.binary main_v18 main_arg3 main_v19 ((fun l r => Host.dotGeneral dot_S1x500000x288_S128x288_S1x500000x128_2_1_01_0_n_n none l r) : (⟨S1x500000x288, .f32⟩ : BufTy).Contents (Elt F) → (⟨S128x288, .f32⟩ : BufTy).Contents (Elt F) → (⟨S1x500000x128, .f32⟩ : BufTy).Contents (Elt F)),
    StableHlo.unary main_arg4 main_v20 (broadcastInDim S1x1x128 ![2] bcast_S128_S1x1x128_2 : (⟨S128, .f32⟩ : BufTy).Contents (Elt F) → (⟨S1x1x128, .f32⟩ : BufTy).Contents (Elt F)),
    StableHlo.unary main_v20 main_v21 (broadcastInDim S1x500000x128 ![0, 1, 2] bcast_S1x1x128_S1x500000x128_0_1_2 : (⟨S1x1x128, .f32⟩ : BufTy).Contents (Elt F) → (⟨S1x500000x128, .f32⟩ : BufTy).Contents (Elt F)),
    StableHlo.binary main_v19 main_v21 main_v22 (addf : (⟨S1x500000x128, .f32⟩ : BufTy).Contents (Elt F) → (⟨S1x500000x128, .f32⟩ : BufTy).Contents (Elt F) → (⟨S1x500000x128, .f32⟩ : BufTy).Contents (Elt F)),
    StableHlo.TRef.nullary main_call0.cst (constant S_ .f32 0x00000000#32),
    StableHlo.TRef.unary main_call0.cst main_call0.v0 (broadcastInDim S1x500000x128 ![] bcast_S_S1x500000x128),
    StableHlo.TRef.binary (.of main_v22 : StableHlo.TRef sig ⟨S1x500000x128, .f32⟩) main_call0.v0 main_call0.v1 (cmpf .ogt),
    StableHlo.TRef.nullary main_call0.cst_0 (constant S_ .f32 0x00000000#32),
    StableHlo.TRef.unary main_call0.cst_0 main_call0.v2 (broadcastInDim S1x500000x128 ![] bcast_S_S1x500000x128),
    StableHlo.TRef.binary (.of main_v22 : StableHlo.TRef sig ⟨S1x500000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S1x500000x128 ![] bcast_S_S1x500000x128),
    StableHlo.TRef.ternary main_call0.v3 main_call0.call0.v1 (.of main_v22 : StableHlo.TRef sig ⟨S1x500000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S1x500000x128 ![] bcast_S_S1x500000x128),
    StableHlo.TRef.binary main_call0.v6 main_call0.v5 main_call0.v7 mulf,
    StableHlo.TRef.ternary main_call0.v1 (.of main_v22 : StableHlo.TRef sig ⟨S1x500000x128, .f32⟩) main_call0.v7 main_call0.call1.v0 select,
    StableHlo.binary main_v23 main_arg5 main_v24 ((fun l r => Host.dotGeneral dot_S1x500000x128_S32x128_S1x500000x32_2_1_01_0_n_n none l r) : (⟨S1x500000x128, .f32⟩ : BufTy).Contents (Elt F) → (⟨S32x128, .f32⟩ : BufTy).Contents (Elt F) → (⟨S1x500000x32, .f32⟩ : BufTy).Contents (Elt F)),
    StableHlo.unary main_arg6 main_v25 (broadcastInDim S1x1x32 ![2] bcast_S32_S1x1x32_2 : (⟨S32, .f32⟩ : BufTy).Contents (Elt F) → (⟨S1x1x32, .f32⟩ : BufTy).Contents (Elt F)),
    StableHlo.unary main_v25 main_v26 (broadcastInDim S1x500000x32 ![0, 1, 2] bcast_S1x1x32_S1x500000x32_0_1_2 : (⟨S1x1x32, .f32⟩ : BufTy).Contents (Elt F) → (⟨S1x500000x32, .f32⟩ : BufTy).Contents (Elt F)),
    StableHlo.binary main_v24 main_v26 main_v27 (addf : (⟨S1x500000x32, .f32⟩ : BufTy).Contents (Elt F) → (⟨S1x500000x32, .f32⟩ : BufTy).Contents (Elt F) → (⟨S1x500000x32, .f32⟩ : BufTy).Contents (Elt F)),
    StableHlo.TRef.nullary main_call1.cst (constant S_ .f32 0x00000000#32),
    StableHlo.TRef.unary main_call1.cst main_call1.v0 (broadcastInDim S1x500000x32 ![] bcast_S_S1x500000x32),
    StableHlo.TRef.binary (.of main_v27 : StableHlo.TRef sig ⟨S1x500000x32, .f32⟩) main_call1.v0 main_call1.v1 (cmpf .ogt),
    StableHlo.TRef.nullary main_call1.cst_0 (constant S_ .f32 0x00000000#32),
    StableHlo.TRef.unary main_call1.cst_0 main_call1.v2 (broadcastInDim S1x500000x32 ![] bcast_S_S1x500000x32),
    StableHlo.TRef.binary (.of main_v27 : StableHlo.TRef sig ⟨S1x500000x32, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S1x500000x32 ![] bcast_S_S1x500000x32),
    StableHlo.TRef.ternary main_call1.v3 main_call1.call0.v1 (.of main_v27 : StableHlo.TRef sig ⟨S1x500000x32, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S1x500000x32 ![] bcast_S_S1x500000x32),
    StableHlo.TRef.binary main_call1.v6 main_call1.v5 main_call1.v7 mulf,
    StableHlo.TRef.ternary main_call1.v1 (.of main_v27 : StableHlo.TRef sig ⟨S1x500000x32, .f32⟩) main_call1.v7 main_call1.call1.v0 select,
    StableHlo.reshape main_v28 main_v29 rfl shapeCasts_S1x500000x32_S500000x32,
    StableHlo.nullary main_cst (constant S_ .f32 0x00000000#32),
    StableHlo.binary main_v29 main_cst main_v30 ((fun x v => Host.reduceAdd x v reducesTo_S500000x32_S32_d0 h_S_) : (⟨S500000x32, .f32⟩ : BufTy).Contents (Elt F) → (⟨S_, .f32⟩ : BufTy).Contents (Elt F) → (⟨S32, .f32⟩ : BufTy).Contents (Elt F)),
    StableHlo.nullary main_cst_3 (constant S_ .f32 0x48F42400#32),
    StableHlo.unary main_cst_3 main_v31 (broadcastInDim S32 ![] bcast_S_S32 : (⟨S_, .f32⟩ : BufTy).Contents (Elt F) → (⟨S32, .f32⟩ : BufTy).Contents (Elt F)),
    StableHlo.binary main_v30 main_v31 main_v32 (Host.divf : (⟨S32, .f32⟩ : BufTy).Contents (Elt F) → (⟨S32, .f32⟩ : BufTy).Contents (Elt F) → (⟨S32, .f32⟩ : BufTy).Contents (Elt F)),
    StableHlo.nullary main_c_4 (constantI S_ 32 0#32),
    StableHlo.TRef.nullary main_call2.cst (constant S_ .f32 0x00000000#32),
    StableHlo.TRef.binary (.of main_v29 : StableHlo.TRef sig ⟨S500000x32, .f32⟩) main_call2.cst main_call2.v0 (fun x v => Host.reduceAdd x v reducesTo_S500000x32_S32_d0 h_S_),
    StableHlo.TRef.unary main_call2.v0 main_call2.v1 (broadcastInDim S1x32 ![1] bcast_S32_S1x32_1),
    StableHlo.TRef.nullary main_call2.cst_0 (constant S_ .f32 0x48F42400#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S500000x32 ![0, 1] bcast_S1x32_S500000x32_0_1),
    StableHlo.TRef.binary (.of main_v29 : StableHlo.TRef sig ⟨S500000x32, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x48F42400#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S500000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v32 main_v34 (broadcastInDim S1x32 ![1] bcast_S32_S1x32_1 : (⟨S32, .f32⟩ : BufTy).Contents (Elt F) → (⟨S1x32, .f32⟩ : BufTy).Contents (Elt F)),
    StableHlo.unary main_v34 main_v35 (broadcastInDim S500000x32 ![0, 1] bcast_S1x32_S500000x32_0_1 : (⟨S1x32, .f32⟩ : BufTy).Contents (Elt F) → (⟨S500000x32, .f32⟩ : BufTy).Contents (Elt F)),
    StableHlo.binary main_v29 main_v35 main_v36 (subf : (⟨S500000x32, .f32⟩ : BufTy).Contents (Elt F) → (⟨S500000x32, .f32⟩ : BufTy).Contents (Elt F) → (⟨S500000x32, .f32⟩ : BufTy).Contents (Elt F)),
    StableHlo.nullary main_cst_5 (constant S_ .f32 0x3727C5AC#32),
    StableHlo.unary main_cst_5 main_v37 (broadcastInDim S32 ![] bcast_S_S32 : (⟨S_, .f32⟩ : BufTy).Contents (Elt F) → (⟨S32, .f32⟩ : BufTy).Contents (Elt F)),
    StableHlo.binary main_v33 main_v37 main_v38 (addf : (⟨S32, .f32⟩ : BufTy).Contents (Elt F) → (⟨S32, .f32⟩ : BufTy).Contents (Elt F) → (⟨S32, .f32⟩ : BufTy).Contents (Elt F)),
    StableHlo.unary main_v38 main_v39 (Host.rsqrt : (⟨S32, .f32⟩ : BufTy).Contents (Elt F) → (⟨S32, .f32⟩ : BufTy).Contents (Elt F)),
    StableHlo.unary main_v39 main_v40 (broadcastInDim S1x32 ![1] bcast_S32_S1x32_1 : (⟨S32, .f32⟩ : BufTy).Contents (Elt F) → (⟨S1x32, .f32⟩ : BufTy).Contents (Elt F)),
    StableHlo.unary main_v40 main_v41 (broadcastInDim S500000x32 ![0, 1] bcast_S1x32_S500000x32_0_1 : (⟨S1x32, .f32⟩ : BufTy).Contents (Elt F) → (⟨S500000x32, .f32⟩ : BufTy).Contents (Elt F)),
    StableHlo.binary main_v36 main_v41 main_v42 (mulf : (⟨S500000x32, .f32⟩ : BufTy).Contents (Elt F) → (⟨S500000x32, .f32⟩ : BufTy).Contents (Elt F) → (⟨S500000x32, .f32⟩ : BufTy).Contents (Elt F)),
    StableHlo.unary main_arg7 main_v43 (broadcastInDim S1x32 ![1] bcast_S32_S1x32_1 : (⟨S32, .f32⟩ : BufTy).Contents (Elt F) → (⟨S1x32, .f32⟩ : BufTy).Contents (Elt F)),
    StableHlo.unary main_v43 main_v44 (broadcastInDim S500000x32 ![0, 1] bcast_S1x32_S500000x32_0_1 : (⟨S1x32, .f32⟩ : BufTy).Contents (Elt F) → (⟨S500000x32, .f32⟩ : BufTy).Contents (Elt F)),
    StableHlo.binary main_v42 main_v44 main_v45 (mulf : (⟨S500000x32, .f32⟩ : BufTy).Contents (Elt F) → (⟨S500000x32, .f32⟩ : BufTy).Contents (Elt F) → (⟨S500000x32, .f32⟩ : BufTy).Contents (Elt F)),
    StableHlo.unary main_arg8 main_v46 (broadcastInDim S1x32 ![1] bcast_S32_S1x32_1 : (⟨S32, .f32⟩ : BufTy).Contents (Elt F) → (⟨S1x32, .f32⟩ : BufTy).Contents (Elt F)),
    StableHlo.unary main_v46 main_v47 (broadcastInDim S500000x32 ![0, 1] bcast_S1x32_S500000x32_0_1 : (⟨S1x32, .f32⟩ : BufTy).Contents (Elt F) → (⟨S500000x32, .f32⟩ : BufTy).Contents (Elt F)),
    StableHlo.binary main_v45 main_v47 main_v48 (addf : (⟨S500000x32, .f32⟩ : BufTy).Contents (Elt F) → (⟨S500000x32, .f32⟩ : BufTy).Contents (Elt F) → (⟨S500000x32, .f32⟩ : BufTy).Contents (Elt F)),
    StableHlo.reshape main_v48 main_v49 rfl shapeCasts_S500000x32_S1x500000x32,
    StableHlo.reshape main_v49 main_v50 rfl shapeCasts_S1x500000x32_S500000x32,
    StableHlo.nullary main_cst_6 (constant S_ .f32 0x00000000#32) ]

abbrev ops1 : List (HloOp τ sig (Elt F)) := segS ++ (segP1 ++ (segE5 ++ (segP2 ++ (segE8 ++ segN))))

abbrev ops2 : List (HloOp τ sig (Elt F)) :=
  [ StableHlo.binary main_v102 main_arg0 main_v103 (addf : (⟨S1x100000x128, .f32⟩ : BufTy).Contents (Elt F) → (⟨S1x100000x128, .f32⟩ : BufTy).Contents (Elt F) → (⟨S1x100000x128, .f32⟩ : BufTy).Contents (Elt F)),
    StableHlo.binary main_v49 main_arg1 main_v104 (addf : (⟨S1x500000x32, .f32⟩ : BufTy).Contents (Elt F) → (⟨S1x500000x32, .f32⟩ : BufTy).Contents (Elt F) → (⟨S1x500000x32, .f32⟩ : BufTy).Contents (Elt F)) ]

abbrev ops : List (HloOp τ sig (Elt F)) := ops0 ++ ops1 ++ ops2

set_option maxRecDepth 16384 in
set_option maxHeartbeats 40000000 in
theorem main_part0_eq (c : Dev nD) : main_part0 (F := F) c = seq ops0 := by
  simp only [main_part0, fn_elu.body, fn_where.body, fn_where_0.body, fn_elu_1.body, fn_where_2.body, fn_where_3.body, fn_var.body, fn_where_4.body, seq, bind_assoc, pure_bind]
  rfl

set_option maxRecDepth 16384 in
set_option maxHeartbeats 40000000 in
theorem main_part1_eq (c : Dev nD) : main_part1 (F := F) c = seq ops1 := by
  simp only [main_part1, fn_elu_5.body, fn_where_6.body, fn_where_7.body, fn_elu_8.body, fn_where_9.body, fn_where_10.body, fn_var_11.body, fn_where_12.body, segS, segP1, segE5, segP2, segE8, segN, List.cons_append, List.nil_append, seq, bind_assoc, pure_bind]
  rfl

theorem main_eq (c : Dev nD) : main (F := F) c = seq ops := by
  rw [show (ops : List (HloOp τ sig (Elt F))) = ops0 ++ (ops1 ++ ops2) from List.append_assoc _ _ _, seq_append, seq_append,
    ← main_part0_eq c, ← main_part1_eq c]
  rfl

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) : after ops V = after ops2 (after ops1 (after ops0 V)) := by
  rw [after_append, after_append]

set_option maxRecDepth 16384 in
set_option maxHeartbeats 40000000 in
theorem ops_sub : (ops : List (HloOp τ sig (Elt F))).Forall fun op => op.bufs ⊆ tcRefs τ sig := by
  simp only [ops, ops0, ops1, ops2, segS, segP1, segE5, segP2, segE8, segN, List.cons_append, List.nil_append, List.Forall,
    nullary_bufs_sub, unary_bufs_sub, binary_bufs_sub, ternary_bufs_sub, reshape_bufs_sub, nary_bufs_sub, and_self]

set_option maxRecDepth 16384 in
set_option maxHeartbeats 40000000 in
theorem ops_fresh : ∀ op ∈ (ops : List (HloOp τ sig (Elt F))), op.fresh = ∅ :=
  (List.map_inj_left (f := fun op : HloOp τ sig (Elt F) => op.fresh) (g := fun _ => ∅)).mp rfl

abbrev written0 : List (Ref sig .tc) :=
  [ main_v0, main_v1, main_c, main_v2, main_v3, main_c_0, main_v4, main_v5,
    main_v6, main_v7, main_v8, main_v9, main_v10, main_c_1, main_v11, main_v12,
    main_c_2, main_v13, main_v14, main_v15, main_v16, main_v17, main_v18, main_v19,
    main_v20, main_v21, main_v22, main_call0_cst, main_call0_v0, main_call0_v1, main_call0_cst_0, main_call0_v2,
    main_call0_v3, main_call0_cst_1, main_call0_call0_v0, main_call0_call0_v1, main_call0_v4, main_call0_v5, main_call0_cst_2, main_call0_v6,
    main_call0_v7, main_v23, main_v24, main_v25, main_v26, main_v27, main_call1_cst, main_call1_v0,
    main_call1_v1, main_call1_cst_0, main_call1_v2, main_call1_v3, main_call1_cst_1, main_call1_call0_v0, main_call1_call0_v1, main_call1_v4,
    main_call1_v5, main_call1_cst_2, main_call1_v6, main_call1_v7, main_v28, main_v29, main_cst, main_v30,
    main_cst_3, main_v31, main_v32, main_c_4, main_call2_cst, main_call2_v0, main_call2_v1, main_call2_cst_0,
    main_call2_v2, main_call2_v3, main_call2_v4, main_call2_v5, main_call2_v6, main_call2_v7, main_call2_cst_1, main_call2_v8,
    main_call2_cst_2, main_call2_v9, main_call2_v10, main_call2_v11, main_call2_cst_3, main_call2_v12, main_call2_cst_4, main_call2_call0_v0,
    main_call2_call0_v1, main_v33, main_v34, main_v35, main_v36, main_cst_5, main_v37, main_v38,
    main_v39, main_v40, main_v41, main_v42, main_v43, main_v44, main_v45, main_v46,
    main_v47, main_v48, main_v49, main_v50, main_cst_6 ]

abbrev written1 : List (Ref sig .tc) :=
  [ main_v51, main_v52, main_v53, main_c_7, main_v54, main_v55, main_c_8, main_v56,
    main_v57, main_v58, main_v59, main_v60, main_v61, main_v62, main_c_9, main_v63,
    main_v64, main_c_10, main_v65, main_v66, main_v67, main_v68, main_v69, main_v70,
    main_v71, main_v72, main_v73, main_v74, main_v75, main_call3_cst, main_call3_v0, main_call3_v1,
    main_call3_cst_0, main_call3_v2, main_call3_v3, main_call3_cst_1, main_call3_call0_v0, main_call3_call0_v1, main_call3_v4, main_call3_v5,
    main_call3_cst_2, main_call3_v6, main_call3_v7, main_v76, main_v77, main_v78, main_v79, main_v80,
    main_call4_cst, main_call4_v0, main_call4_v1, main_call4_cst_0, main_call4_v2, main_call4_v3, main_call4_cst_1, main_call4_call0_v0,
    main_call4_call0_v1, main_call4_v4, main_call4_v5, main_call4_cst_2, main_call4_v6, main_call4_v7, main_v81, main_v82,
    main_cst_11, main_v83, main_cst_12, main_v84, main_v85, main_c_13, main_call5_cst, main_call5_v0,
    main_call5_v1, main_call5_cst_0, main_call5_v2, main_call5_v3, main_call5_v4, main_call5_v5, main_call5_v6, main_call5_v7,
    main_call5_cst_1, main_call5_v8, main_call5_cst_2, main_call5_v9, main_call5_v10, main_call5_v11, main_call5_cst_3, main_call5_v12,
    main_call5_cst_4, main_call5_call0_v0, main_call5_call0_v1, main_v86, main_v87, main_v88, main_v89, main_cst_14,
    main_v90, main_v91, main_v92, main_v93, main_v94, main_v95, main_v96, main_v97,
    main_v98, main_v99, main_v100, main_v101, main_v102 ]

abbrev written2 : List (Ref sig .tc) :=
  [ main_v103, main_v104 ]

abbrev written : List (Ref sig .tc) := written0 ++ written1 ++ written2

set_option maxRecDepth 16384 in
set_option maxHeartbeats 40000000 in
theorem ops0_writes : (ops0 : List (HloOp τ sig (Elt F))).map (fun op : HloOp τ sig (Elt F) => op.writes) = written0.map (fun y : Ref sig .tc => ({(Proc.devRef .tc y : DevRef τ sig)} : Finset (DevRef τ sig))) := rfl

set_option maxRecDepth 16384 in
set_option maxHeartbeats 40000000 in
theorem ops1_writes : (ops1 : List (HloOp τ sig (Elt F))).map (fun op : HloOp τ sig (Elt F) => op.writes) = written1.map (fun y : Ref sig .tc => ({(Proc.devRef .tc y : DevRef τ sig)} : Finset (DevRef τ sig))) := rfl

theorem ops2_writes : (ops2 : List (HloOp τ sig (Elt F))).map (fun op : HloOp τ sig (Elt F) => op.writes) = written2.map (fun y : Ref sig .tc => ({(Proc.devRef .tc y : DevRef τ sig)} : Finset (DevRef τ sig))) := rfl

theorem ops_writes : (ops : List (HloOp τ sig (Elt F))).map (fun op : HloOp τ sig (Elt F) => op.writes) = written.map (fun y : Ref sig .tc => ({(Proc.devRef .tc y : DevRef τ sig)} : Finset (DevRef τ sig))) := by
  rw [show (ops : List (HloOp τ sig (Elt F))) = (ops0 ++ ops1) ++ ops2 from rfl, List.map_append, List.map_append, ops0_writes, ops1_writes,
    ops2_writes, show written = (written0 ++ written1) ++ written2 from rfl, List.map_append, List.map_append]

theorem ops_writes_sub :
    (ops : List (HloOp τ sig (Elt F))).Forall fun op => op.writes ⊆ (written.map (Proc.devRef (τ := τ) .tc)).toFinset :=
  List.forall_iff_forall_mem.mpr fun op hop => by
    have h : op.writes ∈ (ops : List (HloOp τ sig (Elt F))).map (fun op : HloOp τ sig (Elt F) => op.writes) := List.mem_map.mpr ⟨op, hop, rfl⟩
    rw [ops_writes] at h
    obtain ⟨y, hy, e⟩ := List.mem_map.mp h
    rw [← e]
    exact Finset.singleton_subset_iff.mpr (List.mem_toFinset.mpr (List.mem_map.mpr ⟨y, hy, rfl⟩))

theorem after_keep {r : Ref sig .tc} (hr : r ∉ written) (V : Valuation τ sig (Elt F)) :
    after ops V (Proc.devRef .tc r) = V (Proc.devRef .tc r) :=
  after_of_writes_sub ops V ops_writes_sub hr

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = after ops (fun b => m (c, b)) (Proc.devRef .tc main_v103)
      ∧ r.2.mem ((c.tc : Thread nD τ).loc main_v104) = after ops (fun b => m (c, b)) (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun s h c =>
      have k {r : Ref sig .tc} (hr : r ∉ written) : s.2.mem ((c.tc : Thread nD τ).loc r) = m ((c.tc : Thread nD τ).loc r) :=
        (h c r).trans (after_keep hr _)
      ⟨h c _, h c _, k (by decide), k (by decide), k (by decide), k (by decide), k (by decide), k (by decide), k (by decide), k (by decide), k (by decide), k (by decide), k (by decide), k (by decide), k (by decide), k (by decide), k (by decide)⟩)
    (run_seq (by decide) (by decide) defs main (fun _ => ops) main_eq (fun _ => ops_sub) m ρ (fun _ => ops_fresh))

end RRun

end Cert.ReferenceIdeal

end
-- ==== Proof.RLibVar.lean ====
import proofs.«419603_j44143673869053_2_alg».proof.ReferenceIdeal
import proofs.«419603_j44143673869053_2_alg».proof.Proof.Spec
import proofs.«419603_j44143673869053_2_alg».proof.Proof.Consts
import Idealize.ShloMosaic.Lib.ValueIdx
import Idealize.ShloMosaic.Lib.IdealHost
import Idealize.ShloMosaic.Lib.KernelVsHost
import Idealize.ShloMosaic.Lib.Pipeline.Value

set_option maxRecDepth 16384

noncomputable section

namespace Cert.ReferenceIdeal.RLibVar

open Idealize.ShloMosaic Idealize.ShloMosaic.ValueIdx
open Cert.ReferenceIdeal
open scoped BigOperators

theorem bcast_const_apply {T : Shape} (h : S_.BroadcastsInDim T ![]) (w : BitVec 32) (i : T.Idx) :
    broadcastInDim T ![] h (constant (F := Ideal) S_ .f32 w) i = Ideal.ofBits .f32 w :=
  broadcastInDim_scalar_apply h _ i

section Cols

variable {R C : ℕ} {α : Type}

-- A coordinate of an axis of extent one is zero.
theorem col_ite (j : Fin C) : j.val = if C = 1 then 0 else j.val := by
  have := j.isLt
  split <;> omega

theorem row1_apply (h1 : (⟨1, ![C]⟩ : Shape).BroadcastsInDim ⟨2, ![1, C]⟩ ![1]) (b : (⟨1, ![C]⟩ : Shape).Idx → α) (j : Fin C) :
    broadcastInDim ⟨2, ![1, C]⟩ ![1] h1 b (ix2 0 j) = b (ix1 j) :=
  broadcastInDim_apply _ h1 b _ (ix1 j) fun a => match a with
    | ⟨0, _⟩ => col_ite j

theorem rows_apply (h2 : (⟨2, ![1, C]⟩ : Shape).BroadcastsInDim ⟨2, ![R, C]⟩ ![0, 1]) (b : (⟨2, ![1, C]⟩ : Shape).Idx → α)
    (n : Fin R) (j : Fin C) : broadcastInDim ⟨2, ![R, C]⟩ ![0, 1] h2 b (ix2 n j) = b (ix2 0 j) :=
  broadcastInDim_apply _ h2 b _ (ix2 0 j) fun a => match a with
    | ⟨0, _⟩ => rfl
    | ⟨1, _⟩ => col_ite j

variable (hred : (⟨2, ![R, C]⟩ : Shape).ReducesTo [0] ⟨1, ![C]⟩) (hu : 0 < S_.numel)
  (x : FVec Ideal ⟨2, ![R, C]⟩ .f32)

include hred in
theorem reduces_rows : (⟨2, ![R, C]⟩ : Shape).Reduces [0] ⟨1, ![C]⟩ := by
  obtain ⟨h, hb⟩ := hred
  exact Exists.intro h ⟨Nat.one_pos, hb⟩

theorem colsum_apply (j : Fin C) :
    Host.reduceAdd x (constant (F := Ideal) S_ .f32 0x00000000#32) hred hu (ix1 j) = ∑ n : Fin R, x (ix2 n j) := by
  refine (hostReduceAdd_apply x _ hred hu (ix1 j)).trans ?_
  refine (Ideal.hostReduceAdd_single hred (reduces_rows hred) x _ (ix1 j)).trans ?_
  refine (congrArg₂ (· + ·) Ideal.ofBits_zero_f32 (Finset.sum_congr rfl fun n _ => congrArg x (funext fun a => Fin.ext ?_))).trans
    (zero_add _)
  match a with
  | ⟨0, _⟩ => rfl
  | ⟨1, _⟩ => rfl

variable (w : BitVec 32) {N : EReal} (hw : Ideal.ofBits .f32 w = N)

include hw in
-- The column mean as the program takes it before the variance: the column sum over the row count.
theorem meanOutG_apply (hs : S_.BroadcastsInDim ⟨1, ![C]⟩ ![]) (j : Fin C) :
    Host.divf (Host.reduceAdd x (constant (F := Ideal) S_ .f32 0x00000000#32) hred hu)
        (broadcastInDim ⟨1, ![C]⟩ ![] hs (constant (F := Ideal) S_ .f32 w)) (ix1 j)
      = Cert.GNN.meanOf (fun n k => x (ix2 n k)) N j := by
  refine (hostDivf_apply _ _ (ix1 j)).trans ?_
  rw [colsum_apply hred hu, bcast_const_apply hs, hw]
  rfl

variable (h1 : (⟨1, ![C]⟩ : Shape).BroadcastsInDim ⟨2, ![1, C]⟩ ![1]) (hs1 : S_.BroadcastsInDim ⟨2, ![1, C]⟩ ![])
  (h2 : (⟨2, ![1, C]⟩ : Shape).BroadcastsInDim ⟨2, ![R, C]⟩ ![0, 1])

def meanInG : FVec Ideal ⟨2, ![R, C]⟩ .f32 :=
  broadcastInDim ⟨2, ![R, C]⟩ ![0, 1] h2
    (Host.divf (broadcastInDim ⟨2, ![1, C]⟩ ![1] h1 (Host.reduceAdd x (constant (F := Ideal) S_ .f32 0x00000000#32) hred hu))
      (broadcastInDim ⟨2, ![1, C]⟩ ![] hs1 (constant (F := Ideal) S_ .f32 w)))

include hw in
theorem meanInG_apply (n : Fin R) (j : Fin C) :
    meanInG hred hu x w h1 hs1 h2 (ix2 n j) = Cert.GNN.meanOf (fun n k => x (ix2 n k)) N j := by
  unfold meanInG
  refine (rows_apply h2 _ n j).trans ((hostDivf_apply _ _ (ix2 0 j)).trans ?_)
  rw [row1_apply h1, colsum_apply hred hu, bcast_const_apply hs1, hw]
  rfl

include hw in
-- The variance function: the divisor is the row count less a converted integer zero, positive, so the guard holds.
theorem varG_apply (hN : 0 < N) (hs : S_.BroadcastsInDim ⟨1, ![C]⟩ ![]) (c : IVec S_ 32) (hc : c ix0 = 0#32)
    (nan : FVec Ideal S_ .f32) (j : Fin C) :
    select
        (broadcastInDim ⟨1, ![C]⟩ ![] hs
          (cmpf .ogt (subf (constant (F := Ideal) S_ .f32 w) (sitofp .f32 c)) (constant (F := Ideal) S_ .f32 0x00000000#32)))
        (Host.divf
          (Host.reduceAdd
            (mulf (subf x (meanInG hred hu x w h1 hs1 h2)) (subf x (meanInG hred hu x w h1 hs1 h2)))
            (constant (F := Ideal) S_ .f32 0x00000000#32) hred hu)
          (broadcastInDim ⟨1, ![C]⟩ ![] hs (subf (constant (F := Ideal) S_ .f32 w) (sitofp .f32 c))))
        (broadcastInDim ⟨1, ![C]⟩ ![] hs nan) (ix1 j)
      = Cert.GNN.varR (fun n k => x (ix2 n k)) N j := by
  have hd : subf (constant (F := Ideal) S_ .f32 w) (sitofp .f32 c) ix0 = N := by
    show Ideal.ofBits .f32 w - (Scalar.sitofp .f32 (c ix0) : Ideal .f32) = _
    rw [hc, sitofp_zero, hw, sub_zero]
  have hg : cmpf .ogt (subf (constant (F := Ideal) S_ .f32 w) (sitofp .f32 c)) (constant (F := Ideal) S_ .f32 0x00000000#32) ix0
      = 1#1 := by
    show FloatOps.cmpf .ogt (subf (constant (F := Ideal) S_ .f32 w) (sitofp .f32 c) ix0) (Ideal.ofBits .f32 0x00000000#32) = _
    rw [hd, Ideal.ofBits_zero_f32, Ideal.cmpf_def]
    simp [Ideal.cmp, hN]
  refine (select_apply _ _ _ (ix1 j)).trans ?_
  rw [broadcastInDim_scalar_apply hs, hg, select_one]
  refine (hostDivf_apply _ _ (ix1 j)).trans ?_
  rw [broadcastInDim_scalar_apply hs, hd, colsum_apply hred hu]
  unfold Cert.GNN.varR
  refine congrArg (fun t => Ideal.div t N) (Finset.sum_congr rfl fun n _ => ?_)
  show (x (ix2 n j) - meanInG hred hu x w h1 hs1 h2 (ix2 n j)) * (x (ix2 n j) - meanInG hred hu x w h1 hs1 h2 (ix2 n j)) = _
  rw [meanInG_apply hred hu x w hw]

end Cols

theorem Nn_pos : (0 : EReal) < Cert.GNN.Nn := by
  unfold Cert.GNN.Nn; exact_mod_cast (by norm_num : (0 : ℝ) < 100000)

variable (hred : S100000x128.ReducesTo [0] S128) (hu : 0 < S_.numel) (h1 : S128.BroadcastsInDim S1x128 ![1])
  (hs1 : S_.BroadcastsInDim S1x128 ![]) (h2 : S1x128.BroadcastsInDim S100000x128 ![0, 1]) (hs : S_.BroadcastsInDim S128 ![])
  (x : FVec Ideal S100000x128 .f32)

theorem meanOut_apply (j : Fin 128) :
    Host.divf (Host.reduceAdd x (constant (F := Ideal) S_ .f32 0x00000000#32) hred hu)
        (broadcastInDim S128 ![] hs (constant (F := Ideal) S_ .f32 0x47C35000#32)) (ix1 j)
      = Cert.GNN.meanOf (fun n k => x (ix2 n k)) Cert.GNN.Nn j :=
  meanOutG_apply hred hu x _ Cert.GNN.ofBits_1e5 hs j

def meanIn : FVec Ideal S100000x128 .f32 := meanInG hred hu x 0x47C35000#32 h1 hs1 h2

theorem var_apply (c : IVec S_ 32) (hc : c ix0 = 0#32) (nan : FVec Ideal S_ .f32) (j : Fin 128) :
    select
        (broadcastInDim S128 ![] hs
          (cmpf .ogt (subf (constant (F := Ideal) S_ .f32 0x47C35000#32) (sitofp .f32 c)) (constant (F := Ideal) S_ .f32 0x00000000#32)))
        (Host.divf
          (Host.reduceAdd
            (mulf (subf x (meanIn hred hu h1 hs1 h2 x)) (subf x (meanIn hred hu h1 hs1 h2 x)))
            (constant (F := Ideal) S_ .f32 0x00000000#32) hred hu)
          (broadcastInDim S128 ![] hs (subf (constant (F := Ideal) S_ .f32 0x47C35000#32) (sitofp .f32 c))))
        (broadcastInDim S128 ![] hs nan) (ix1 j)
      = Cert.GNN.varR (fun n k => x (ix2 n k)) Cert.GNN.Nn j :=
  varG_apply hred hu x _ Cert.GNN.ofBits_1e5 h1 hs1 h2 Nn_pos hs c hc nan j

end Cert.ReferenceIdeal.RLibVar

end
-- ==== Proof.LibRef.lean ====
import proofs.«419603_j44143673869053_2_alg».proof.Proof.Consts
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.GNN.Ref

open Idealize.ShloMosaic Idealize.ShloMosaic.ValueIdx
open scoped BigOperators

abbrev rows3 {N C : Nat} (x : (⟨3, ![1, N, C]⟩ : Shape).Idx → EReal) : Fin N → Fin C → EReal := fun n k => x (ix3 0 n k)
abbrev rows2 {N C : Nat} (x : (⟨2, ![N, C]⟩ : Shape).Idx → EReal) : Fin N → Fin C → EReal := fun n k => x (ix2 n k)
abbrev col1 {C : Nat} (x : (⟨1, ![C]⟩ : Shape).Idx → EReal) : Fin C → EReal := fun k => x (ix1 k)

-- a product contracting the last axis of both operands is, entry by entry, the sum over that axis
theorem dot_apply {N K M : ℕ} (wf : DotDims.WF ⟨3, ![1, N, K]⟩ ⟨2, ![M, K]⟩ ⟨3, ![1, N, M]⟩ [2] [1] [0, 1] [0] [] [])
    (l : FVec Ideal ⟨3, ![1, N, K]⟩ .f32) (r : FVec Ideal ⟨2, ![M, K]⟩ .f32) (n : Fin N) (j : Fin M) :
    Host.dotGeneral ⟨[2], [1], [0, 1], [0], [], [], wf⟩ none l r (ix3 0 n j) = ∑ k : Fin K, l (ix3 0 n k) * r (ix2 j k) := by
  simp only [Host.dotGeneral]
  rw [Ideal.dotGeneral_apply, ← Equiv.sum_comp (contrEquiv1 _ K rfl rfl).symm]
  refine Finset.sum_congr rfl fun k _ => ?_
  have c := contrEquiv1_symm_val (⟨[2], [1], [0, 1], [0], [], [], wf⟩ : DotDims ⟨3, ![1, N, K]⟩ ⟨2, ![M, K]⟩ ⟨3, ![1, N, M]⟩) K rfl rfl k
  refine congrArg₂ (· * ·) (congrArg l (funext fun a => ?_)) (congrArg r (funext fun a => ?_))
  · match a with
    | ⟨0, _⟩ => rfl
    | ⟨1, _⟩ => rfl
    | ⟨2, _⟩ => exact Fin.ext c
  · match a with
    | ⟨0, _⟩ => rfl
    | ⟨1, _⟩ => exact Fin.ext c

-- a vector of `C` entries given two unit axes, then spread over the rows
theorem bias_apply {α : Type} {N C : ℕ} (hC : C ≠ 1) (x : (⟨1, ![C]⟩ : Shape).Idx → α)
    (h1 : (⟨1, ![C]⟩ : Shape).BroadcastsInDim ⟨3, ![1, 1, C]⟩ ![2])
    (h2 : (⟨3, ![1, 1, C]⟩ : Shape).BroadcastsInDim ⟨3, ![1, N, C]⟩ ![0, 1, 2]) (n : Fin N) (j : Fin C) :
    broadcastInDim ⟨3, ![1, N, C]⟩ ![0, 1, 2] h2 (broadcastInDim ⟨3, ![1, 1, C]⟩ ![2] h1 x) (ix3 0 n j) = x (ix1 j) :=
  (broadcastInDim_apply _ h2 _ _ (ix3 (0 : Fin 1) (0 : Fin 1) j)
    (fun a => match a with | ⟨0, _⟩ => rfl | ⟨1, _⟩ => rfl | ⟨2, _⟩ => (if_neg hC).symm)).trans
  (broadcastInDim_apply _ h1 x _ (ix1 j) (fun a => match a with | ⟨0, _⟩ => (if_neg hC).symm))

-- a vector of `C` entries given one unit axis, then spread over the rows
theorem col_apply {α : Type} {N C : ℕ} (hC : C ≠ 1) (x : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (j : Fin C) :
    broadcastInDim ⟨2, ![N, C]⟩ ![0, 1] h2 (broadcastInDim ⟨2, ![1, C]⟩ ![1] h1 x) (ix2 n j) = x (ix1 j) :=
  (broadcastInDim_oneRow_apply h2 _ n j).trans
  (broadcastInDim_apply _ h1 x _ (ix1 j) (fun a => match a with | ⟨0, _⟩ => (if_neg hC).symm))

-- a table given a leading unit axis
theorem lead_apply {α : Type} {N C : ℕ} (hN : N ≠ 1) (hC : C ≠ 1) (x : (⟨2, ![N, C]⟩ : Shape).Idx → α)
    (h : (⟨2, ![N, C]⟩ : Shape).BroadcastsInDim ⟨3, ![1, N, C]⟩ ![1, 2]) (n : Fin N) (j : Fin C) :
    broadcastInDim ⟨3, ![1, N, C]⟩ ![1, 2] h x (ix3 0 n j) = x (ix2 n j) :=
  broadcastInDim_apply _ h x _ (ix2 n j) (fun a => match a with | ⟨0, _⟩ => (if_neg hN).symm | ⟨1, _⟩ => (if_neg hC).symm)

-- the unit as the program spells it: the entry where positive, else one times (the exponential of the entry, less one)
theorem elu_apply {s : Shape} (h : (⟨0, ![]⟩ : Shape).BroadcastsInDim s ![]) (x : FVec Ideal s .f32) (i : s.Idx) :
    select (cmpf .ogt x (broadcastInDim s ![] h (constant ⟨0, ![]⟩ .f32 0x00000000#32))) x
      (mulf (broadcastInDim s ![] h (constant ⟨0, ![]⟩ .f32 0x3F800000#32))
        (Host.expm1 (select (cmpf .ogt x (broadcastInDim s ![] h (constant ⟨0, ![]⟩ .f32 0x00000000#32)))
          (broadcastInDim s ![] h (constant ⟨0, ![]⟩ .f32 0x00000000#32)) x))) i = Cert.GNN.elu (x i) := by
  show Scalar.select (Ideal.cmp .ogt (x i) (Ideal.ofBits .f32 0x00000000#32)) (x i)
      (Ideal.ofBits .f32 0x3F800000#32 * (Ideal.exp (Scalar.select (Ideal.cmp .ogt (x i) (Ideal.ofBits .f32 0x00000000#32))
        (Ideal.ofBits .f32 0x00000000#32) (x i)) - 1)) = _
  rw [Ideal.ofBits_zero_f32, Cert.GNN.ofBits_one, one_mul]
  unfold Cert.GNN.elu Ideal.cmp
  by_cases h : (0 : EReal) < x i <;> simp [h, Scalar.select]

end Cert.GNN.Ref

end
-- ==== Proof.RValE.lean ====
import proofs.«419603_j44143673869053_2_alg».proof.ReferenceIdeal
import proofs.«419603_j44143673869053_2_alg».proof.Proof.Gen.ReferenceIdeal
import proofs.«419603_j44143673869053_2_alg».proof.Proof.Spec
import proofs.«419603_j44143673869053_2_alg».proof.Proof.Consts
import proofs.«419603_j44143673869053_2_alg».proof.Proof.LibIdx
import proofs.«419603_j44143673869053_2_alg».proof.Proof.RRun
import proofs.«419603_j44143673869053_2_alg».proof.Proof.RArgs
import proofs.«419603_j44143673869053_2_alg».proof.Proof.RLibVar
import proofs.«419603_j44143673869053_2_alg».proof.Proof.LibRef
import Idealize.ShloMosaic.Lib.ValueIdx
import Idealize.ShloMosaic.Lib.IdealHost
import Idealize.ShloMosaic.Lib.KernelVsHost
import Idealize.ShloMosaic.Lib.Pipeline.Value
import Idealize.ShloMosaic.Lib.ValueLayout

set_option maxRecDepth 16384

noncomputable section

namespace Cert.ReferenceIdeal.RValE

open Idealize.ShloMosaic Idealize.ShloMosaic.ValueIdx
open Cert.ReferenceIdeal Cert.ReferenceIdeal.Gen Cert.ReferenceIdeal.RLibVar Cert.GNN.Ref
open scoped BigOperators

-- Off the last axis an index of a piece and the index of the whole row agree.
theorem ix3_off_last {a b c c' : ℕ} (u : Fin a) (e : Fin b) (k : Fin c) (k' : Fin c') (q : Fin 3) (hq : q ≠ 2) :
    (ix3 u e k' q : ℕ) = ix3 u e k q :=
  match q with
  | ⟨0, _⟩ => rfl
  | ⟨1, _⟩ => rfl
  | ⟨2, _⟩ => absurd rfl hq

theorem concat3_apply (s r : FVec Ideal S1x500000x128 .f32) (ed : FVec Ideal S1x500000x32 .f32)
    (h : Shape.Concatenates [S1x500000x128, S1x500000x128, S1x500000x32] S1x500000x288 2)
    (e : Fin 500000) (k : Fin 288) :
    concatenate S1x500000x288 2 [⟨S1x500000x128, s⟩, ⟨S1x500000x128, r⟩, ⟨S1x500000x32, ed⟩] h (ix3 0 e k)
      = if h1 : k.val < 128 then s (ix3 0 e ⟨k.val, h1⟩)
        else if h2 : k.val < 256 then r (ix3 0 e ⟨k.val - 128, by omega⟩)
        else ed (ix3 0 e ⟨k.val - 256, by omega⟩) := by
  have P := concatenate_apply_piece (t := S1x500000x288) (2 : Fin 3)
    [⟨S1x500000x128, s⟩, ⟨S1x500000x128, r⟩, ⟨S1x500000x32, ed⟩] h (ix3 0 e k)
  split
  · next h1 =>
    exact P 0 (by show 0 < 3; omega) S1x500000x128 s rfl rfl 0 rfl (ix3 0 e ⟨k.val, h1⟩) (ix3_off_last _ _ _ _)
      (Nat.zero_add _)
  · split
    · next h2 =>
      exact P 1 (by show 1 < 3; omega) S1x500000x128 r rfl rfl 128 rfl (ix3 0 e ⟨k.val - 128, by omega⟩)
        (ix3_off_last _ _ _ _) (by show 128 + (k.val - 128) = k.val; omega)
    · exact P 2 (by show 2 < 3; omega) S1x500000x32 ed rfl rfl 256 rfl (ix3 0 e ⟨k.val - 256, by omega⟩)
        (ix3_off_last _ _ _ _) (by show 256 + (k.val - 256) = k.val; omega)

-- Contents carried to a buffer's own type and back are the contents.
theorem ofBuf_toBuf {T : BufTy} (y : StableHlo.TRef sig T) (v : T.Contents (Elt Ideal)) : y.ofBuf (y.toBuf v) = v := by
  obtain ⟨r, rfl, _, _⟩ := y
  rfl

-- The column q of the index pairs, as a vector.
theorem paircol_apply (p : IVec S500000x2 32) (q : Fin 2) (hs : S500000x2.Slices ![0, q.val] S500000x1)
    (hc : S500000x1.ShapeCasts S500000) (e : Fin 500000) :
    shapeCast S500000 (extractStridedSlice S500000x1 ![0, q.val] p hs) hc (ix1 e) = p (ix2 e q) :=
  (shapeCast_apply _ _ (ix1 e) (ix2 e (0 : Fin 1)) (by
    rw [Shape.rowMajor_val_two, Shape.rowMajor_val_one]; show e.val * 1 + 0 = e.val; omega)).trans
  (extractStridedSlice_apply _ _ _ (ix2 e (0 : Fin 1)) (ix2 e q) fun a => match a with
    | ⟨0, _⟩ => (Nat.zero_add _).symm
    | ⟨1, _⟩ => rfl)

-- Index words in range: wrapping a negative word round is the identity, and the gather reads the row the word names.
theorem gather_wrap (x : FVec Ideal S1x100000x128 .f32) (c : IVec S500000 32) (v : Fin 500000 → BitVec 32)
    (hc : ∀ e, c (ix1 e) = v e) (hv : ∀ e, 0 ≤ (v e).toInt ∧ (v e).toInt < 100000)
    (hb : S_.BroadcastsInDim S500000 ![]) (hb1 : S500000.BroadcastsInDim S500000x1 ![0]) (e : Fin 500000) (k : Fin 128) :
    Host.gather gather_S1x100000x128_S500000x1_S1x500000x128_02_1_n_n_1_1_11128 x
        (broadcastInDim S500000x1 ![0] hb1
          (select (cmpi .slt c (broadcastInDim S500000 ![] hb (constantI S_ 32 0#32)))
            (addi c (broadcastInDim S500000 ![] hb (constantI S_ 32 100000#32))) c)) (ix3 0 e k)
      = x (ix3 0 (Cert.GNN.rowOf (v e)) k) := by
  have hw : broadcastInDim S500000x1 ![0] hb1
      (select (cmpi .slt c (broadcastInDim S500000 ![] hb (constantI S_ 32 0#32)))
        (addi c (broadcastInDim S500000 ![] hb (constantI S_ 32 100000#32))) c) (ix2 e (0 : Fin 1)) = v e := by
    refine (broadcastInDim_apply _ _ _ (ix2 e (0 : Fin 1)) (ix1 e) fun a => match a with
      | ⟨0, _⟩ => rfl).trans ?_
    show Scalar.select (IntOp.cmpi .slt (c (ix1 e)) 0#32) (IntOp.addi (c (ix1 e)) 100000#32) (c (ix1 e)) = _
    rw [hc]
    exact Cert.GNN.Idx.wrap_eq (hv e)
  refine (Cert.GNN.Idx.gatherR_apply _ _ e k ?_).trans ?_
  · rw [hw]; exact hv e
  · rw [hw]

theorem Ne_pos : (0 : EReal) < Cert.GNN.Ne := by
  unfold Cert.GNN.Ne; exact_mod_cast (by norm_num : (0 : ℝ) < 500000)

section Line

open Idealize.ShloMosaic.StableHlo Idealize.SL.Sem Cert.ReferenceIdeal.RRun

variable (V : Valuation τ sig (Elt Ideal))

abbrev asF {S : Shape} (x : FVec Ideal S .f32) : FVec Ideal S .f32 := x
abbrev asI {S : Shape} (x : IVec S 32) : IVec S 32 := x

abbrev L : List (HloOp τ sig (Elt Ideal)) := ops
abbrev A (r : Ref sig .tc) : r.ty.Contents (Elt Ideal) := after L V (Proc.devRef .tc r)

section Read

variable (k : ℕ)

-- A buffer that no operation from position k on writes holds at the end what it held before position k.
theorem take_eq {r : Ref sig .tc} (hr : r ∉ written.drop k) : after (L.take k) V (Proc.devRef .tc r) = A V r := by
  show _ = after L V _
  conv_rhs => rw [← List.take_append_drop k L, after_append]
  refine (after_of_forall_not_mem (L.drop k) _ fun op hop hmem => ?_).symm
  have h : op.writes ∈ (L.drop k).map (fun op => op.writes) := List.mem_map.mpr ⟨op, hop, rfl⟩
  rw [List.map_drop, ops_writes, ← List.map_drop] at h
  obtain ⟨y, hy, e⟩ := List.mem_map.mp h
  rw [← e, Finset.mem_singleton] at hmem
  exact hr (Proc.devRef_injective _ hmem ▸ hy)

theorem eq_result {op : HloOp τ sig (Elt Ideal)} (hop : L[k]? = some op) {r : Ref sig .tc} (hr : r ∉ written.drop (k + 1)) :
    A V r = op.result (after (L.take k) V) (Proc.devRef .tc r) := by
  obtain ⟨hk, e⟩ := List.getElem?_eq_some_iff.mp hop
  rw [← take_eq V (k + 1) hr, List.take_succ_eq_append_getElem hk, after_append, e]
  rfl

-- So a buffer holds at the end what its operation, at position k, makes of its operands as they are at the end.
theorem rd0 {y : Ref sig .tc} {v : y.ty.Contents (Elt Ideal)} {hy}
    (hop : L[k]? = some (nullary y v hy)) (hy' : y ∉ written.drop (k + 1) := by decide) : A V y = v := by
  rw [eq_result V k hop hy', nullary_result]

theorem rd1 {x y : Ref sig .tc} {f : x.ty.Contents (Elt Ideal) → y.ty.Contents (Elt Ideal)} {hx hy}
    (hop : L[k]? = some (unary x y f hx hy)) (hy' : y ∉ written.drop (k + 1) := by decide)
    (hx' : x ∉ written.drop k := by decide) : A V y = f (A V x) := by
  rw [eq_result V k hop hy', unary_result, take_eq V k hx']

theorem rd2 {a b y : Ref sig .tc} {f : a.ty.Contents (Elt Ideal) → b.ty.Contents (Elt Ideal) → y.ty.Contents (Elt Ideal)} {ha hb hy}
    (hop : L[k]? = some (binary a b y f ha hb hy)) (hy' : y ∉ written.drop (k + 1) := by decide)
    (ha' : a ∉ written.drop k := by decide) (hb' : b ∉ written.drop k := by decide) : A V y = f (A V a) (A V b) := by
  rw [eq_result V k hop hy', binary_result, take_eq V k ha', take_eq V k hb']

theorem rd3 {c a b y : Ref sig .tc}
    {f : c.ty.Contents (Elt Ideal) → a.ty.Contents (Elt Ideal) → b.ty.Contents (Elt Ideal) → y.ty.Contents (Elt Ideal)} {hc ha hb hy}
    (hop : L[k]? = some (ternary c a b y f hc ha hb hy)) (hy' : y ∉ written.drop (k + 1) := by decide)
    (hc' : c ∉ written.drop k := by decide) (ha' : a ∉ written.drop k := by decide) (hb' : b ∉ written.drop k := by decide) :
    A V y = f (A V c) (A V a) (A V b) := by
  rw [eq_result V k hop hy', ternary_result, take_eq V k hc', take_eq V k ha', take_eq V k hb']

theorem rdS {x y : Ref sig .tc} {he : x.ty.elt = y.ty.elt} {hn : x.ty.shape.ShapeCasts y.ty.shape} {hx hy}
    (hop : L[k]? = some (reshape x y he hn hx hy)) (hy' : y ∉ written.drop (k + 1) := by decide)
    (hx' : x ∉ written.drop k := by decide) : A V y = fun i => he ▸ shapeCast y.ty.shape (A V x) hn i := by
  rw [eq_result V k hop hy', reshape_result, take_eq V k hx']

theorem rdN {n : Nat} {xs : Fin n → Ref sig .tc} {y : Ref sig .tc}
    {f : ((j : Fin n) → (xs j).ty.Contents (Elt Ideal)) → y.ty.Contents (Elt Ideal)} {hxs hy}
    (hop : L[k]? = some (nary xs y f hxs hy)) (hy' : y ∉ written.drop (k + 1) := by decide)
    (hx' : ∀ j, xs j ∉ written.drop k := by decide) : A V y = f (fun j => A V (xs j)) := by
  rw [eq_result V k hop hy', nary_result]
  exact congrArg f (funext fun j => take_eq V k (hx' j))

end Read

def InRange : Prop := ∀ i : S500000x2.Idx, 0 ≤ (A V main_arg2 i).toInt ∧ (A V main_arg2 i).toInt < 100000

theorem snd_apply (hr : InRange V) (e : Fin 500000) (k : Fin 128) :
    A V main_v8 (ix3 (0 : Fin 1) e k) = A V main_arg0 (ix3 (0 : Fin 1) (Cert.GNN.rowOf (A V main_arg2 (ix2 e 0))) k) := by
  rw [rd2 V 10 rfl, rd1 V 9 rfl, rd3 V 8 rfl, rd2 V 4 rfl, rd2 V 7 rfl, rdS V 1 rfl, rd1 V 0 rfl, rd1 V 3 rfl, rd0 V 2 rfl, rd1 V 6 rfl, rd0 V 5 rfl]
  exact gather_wrap _ _ (fun e => A V main_arg2 (ix2 e 0)) (fun e => paircol_apply _ 0 _ _ e) (fun e => hr _) _ _ e k

theorem rcv_apply (hr : InRange V) (e : Fin 500000) (k : Fin 128) :
    A V main_v17 (ix3 (0 : Fin 1) e k) = A V main_arg0 (ix3 (0 : Fin 1) (Cert.GNN.rowOf (A V main_arg2 (ix2 e 1))) k) := by
  rw [rd2 V 21 rfl, rd1 V 20 rfl, rd3 V 19 rfl, rd2 V 15 rfl, rd2 V 18 rfl, rdS V 12 rfl, rd1 V 11 rfl, rd1 V 14 rfl, rd0 V 13 rfl, rd1 V 17 rfl, rd0 V 16 rfl]
  exact gather_wrap _ _ (fun e => A V main_arg2 (ix2 e 1)) (fun e => paircol_apply _ 1 _ _ e) (fun e => hr _) _ _ e k

theorem cat_apply (e : Fin 500000) (k : Fin 288) :
    A V main_v18 (ix3 (0 : Fin 1) e k)
      = if h1 : k.val < 128 then A V main_v8 (ix3 (0 : Fin 1) e ⟨k.val, h1⟩)
        else if h2 : k.val < 256 then A V main_v17 (ix3 (0 : Fin 1) e ⟨k.val - 128, by omega⟩)
        else A V main_arg1 (ix3 (0 : Fin 1) e ⟨k.val - 256, by omega⟩) := by
  rw [rdN V 22 rfl]
  exact concat3_apply _ _ _ _ e k

theorem pre1_apply (e : Fin 500000) (j : Fin 128) :
    A V main_v22 (ix3 (0 : Fin 1) e j)
      = (∑ k : Fin 288, asF (A V main_v18) (ix3 (0 : Fin 1) e k) * asF (A V main_arg3) (ix2 j k)) + asF (A V main_arg4) (ix1 j) := by
  rw [rd2 V 26 rfl, rd2 V 23 rfl, rd1 V 25 rfl, rd1 V 24 rfl]
  exact congrArg₂ (· + ·) (dot_apply _ _ _ e j) (bias_apply (by decide) _ _ _ e j)

theorem elu0_apply (i : S1x500000x128.Idx) : A V main_v23 i = Cert.GNN.elu (A V main_v22 i) := by
  rw [rd3 V 41 rfl, rd2 V 29 rfl, rd2 V 40 rfl, rd1 V 37 rfl, rd3 V 36 rfl, rd2 V 32 rfl, rd1 V 28 rfl, rd1 V 31 rfl, rd1 V 39 rfl, rd1 V 35 rfl, rd1 V 34 rfl, rd0 V 27 rfl, rd0 V 30 rfl, rd0 V 33 rfl, rd0 V 38 rfl]
  simp only [ofBuf_toBuf]
  exact elu_apply bcast_S_S1x500000x128 _ i

theorem pre2_apply (e : Fin 500000) (j : Fin 32) :
    A V main_v27 (ix3 (0 : Fin 1) e j)
      = (∑ k : Fin 128, asF (A V main_v23) (ix3 (0 : Fin 1) e k) * asF (A V main_arg5) (ix2 j k)) + asF (A V main_arg6) (ix1 j) := by
  rw [rd2 V 45 rfl, rd2 V 42 rfl, rd1 V 44 rfl, rd1 V 43 rfl]
  exact congrArg₂ (· + ·) (dot_apply _ _ _ e j) (bias_apply (by decide) _ _ _ e j)

theorem elu1_apply (i : S1x500000x32.Idx) : A V main_v28 i = Cert.GNN.elu (A V main_v27 i) := by
  rw [rd3 V 60 rfl, rd2 V 48 rfl, rd2 V 59 rfl, rd1 V 56 rfl, rd3 V 55 rfl, rd2 V 51 rfl, rd1 V 47 rfl, rd1 V 50 rfl, rd1 V 58 rfl, rd1 V 54 rfl, rd1 V 53 rfl, rd0 V 46 rfl, rd0 V 49 rfl, rd0 V 52 rfl, rd0 V 57 rfl]
  simp only [ofBuf_toBuf]
  exact elu_apply bcast_S_S1x500000x32 _ i

theorem tab_apply (e : Fin 500000) (j : Fin 32) : A V main_v29 (ix2 e j) = A V main_v28 (ix3 (0 : Fin 1) e j) := by
  rw [rdS V 61 rfl]
  exact shapeCast_1ab_ab_apply _ _ e j

abbrev tab : Fin 500000 → Fin 32 → EReal := fun e j => asF (A V main_v29) (ix2 e j)

theorem mean_apply (j : Fin 32) : A V main_v32 (ix1 j) = Cert.GNN.meanOf (tab V) Cert.GNN.Ne j := by
  rw [rd2 V 66 rfl, rd2 V 63 rfl, rd1 V 65 rfl, rd0 V 62 rfl, rd0 V 64 rfl]
  exact meanOutG_apply reducesTo_S500000x32_S32_d0 h_S_ _ _ Cert.GNN.ofBits_5e5 bcast_S_S32 j

theorem var_line_apply (j : Fin 32) : A V main_v33 (ix1 j) = Cert.GNN.varR (tab V) Cert.GNN.Ne j := by
  rw [rd3 V 89 rfl, rd2 V 85 rfl, rd2 V 83 rfl, rd1 V 88 rfl, rd1 V 87 rfl, rd2 V 81 rfl, rd1 V 82 rfl, rd2 V 79 rfl, rd1 V 77 rfl, rd2 V 76 rfl, rd2 V 75 rfl, rd1 V 74 rfl, rd2 V 73 rfl, rd1 V 70 rfl, rd1 V 72 rfl, rd2 V 69 rfl, rd0 V 68 rfl, rd0 V 71 rfl, rd0 V 78 rfl, rd0 V 80 rfl, rd0 V 84 rfl, rd0 V 86 rfl, rd0 V 67 rfl]
  simp only [ofBuf_toBuf]
  exact varG_apply reducesTo_S500000x32_S32_d0 h_S_ (asF (A V main_v29)) _ Cert.GNN.ofBits_5e5 bcast_S32_S1x32_1 bcast_S_S1x32
    bcast_S1x32_S500000x32_0_1 Ne_pos bcast_S_S32 (constantI S_ 32 0#32) rfl _ j

theorem bn_apply (e : Fin 500000) (j : Fin 32) :
    A V main_v48 (ix2 e j)
      = ((tab V e j - Cert.GNN.meanOf (tab V) Cert.GNN.Ne j) * Ideal.rsqrt (Cert.GNN.varR (tab V) Cert.GNN.Ne j + Cert.GNN.eps))
          * asF (A V main_arg7) (ix1 j) + asF (A V main_arg8) (ix1 j) := by
  rw [rd2 V 105 rfl, rd2 V 102 rfl, rd1 V 104 rfl, rd1 V 103 rfl, rd2 V 99 rfl, rd1 V 101 rfl, rd1 V 100 rfl, rd2 V 92 rfl, rd1 V 98 rfl, rd1 V 97 rfl, rd1 V 96 rfl, rd2 V 95 rfl, rd1 V 94 rfl, rd0 V 93 rfl, rd1 V 91 rfl, rd1 V 90 rfl]
  rw [addf_apply, mulf_apply, mulf_apply, subf_apply]
  exact congrArg₂ (· + ·) (congrArg₂ (· * ·) (congrArg₂ (· * ·) (congrArg₂ (· - ·) rfl
      ((rows_apply _ _ e j).trans ((row1_apply _ _ j).trans (mean_apply V j))))
      ((rows_apply _ _ e j).trans ((row1_apply _ _ j).trans
        (congrArg Ideal.rsqrt (congrArg₂ (· + ·) (var_line_apply V j) (bcast_const_apply _ _ _))))))
      ((rows_apply _ _ e j).trans (row1_apply _ _ j)))
    ((rows_apply _ _ e j).trans (row1_apply _ _ j))

theorem v49_apply (e : Fin 500000) (j : Fin 32) : A V main_v49 (ix3 (0 : Fin 1) e j) = A V main_v48 (ix2 e j) := by
  rw [rdS V 106 rfl]
  exact shapeCast_ab_1ab_apply _ _ 0 e j

theorem v50_apply (e : Fin 500000) (j : Fin 32) : A V main_v50 (ix2 e j) = A V main_v48 (ix2 e j) := by
  rw [rdS V 107 rfl]
  exact (shapeCast_1ab_ab_apply _ _ e j).trans (v49_apply V e j)

theorem v104_apply (e : Fin 500000) (j : Fin 32) :
    A V main_v104 (ix3 (0 : Fin 1) e j) = asF (A V main_v48) (ix2 e j) + asF (A V main_arg1) (ix3 (0 : Fin 1) e j) := by
  rw [rd2 V 219 rfl]
  exact congrArg (· + _) (v49_apply V e j)

abbrev nodesV : Fin 100000 → Fin 128 → EReal := fun n k => asF (A V main_arg0) (ix3 (0 : Fin 1) n k)
abbrev edgesV : Fin 500000 → Fin 32 → EReal := fun e k => asF (A V main_arg1) (ix3 (0 : Fin 1) e k)
abbrev pairV : Fin 500000 → Fin 2 → BitVec 32 := fun e q => asI (A V main_arg2) (ix2 e q)
abbrev ew1V : Fin 128 → Fin 288 → EReal := fun j k => asF (A V main_arg3) (ix2 j k)
abbrev eb1V : Fin 128 → EReal := fun j => asF (A V main_arg4) (ix1 j)
abbrev ew2V : Fin 32 → Fin 128 → EReal := fun j k => asF (A V main_arg5) (ix2 j k)
abbrev eb2V : Fin 32 → EReal := fun j => asF (A V main_arg6) (ix1 j)
abbrev egV : Fin 32 → EReal := fun j => asF (A V main_arg7) (ix1 j)
abbrev ebtV : Fin 32 → EReal := fun j => asF (A V main_arg8) (ix1 j)

theorem eCat_line (hr : InRange V) (e : Fin 500000) (k : Fin 288) :
    A V main_v18 (ix3 (0 : Fin 1) e k) = Cert.GNN.eCat (nodesV V) (edgesV V) (pairV V) e k := by
  rw [cat_apply]
  unfold Cert.GNN.eCat Cert.GNN.snd Cert.GNN.rcv
  by_cases h1 : k.val < 128
  · rw [dif_pos h1, dif_pos h1]; exact snd_apply V hr e ⟨k.val, h1⟩
  · rw [dif_neg h1, dif_neg h1]
    by_cases h2 : k.val < 256
    · rw [dif_pos h2, dif_pos h2]; exact rcv_apply V hr e ⟨k.val - 128, by omega⟩
    · rw [dif_neg h2, dif_neg h2]

theorem pre1_line (hr : InRange V) (e : Fin 500000) (j : Fin 128) :
    A V main_v22 (ix3 (0 : Fin 1) e j)
      = Cert.GNN.ePre1R (nodesV V) (edgesV V) (pairV V) (ew1V V) (eb1V V) e j := by
  rw [pre1_apply]
  unfold Cert.GNN.ePre1R
  exact congrArg₂ (· + ·) (Finset.sum_congr rfl fun k _ => congrArg₂ (· * ·) (eCat_line V hr e k) rfl) rfl

theorem tab_line (hr : InRange V) :
    tab V = Cert.GNN.eH2R (nodesV V) (edgesV V) (pairV V) (ew1V V) (eb1V V) (ew2V V) (eb2V V) := by
  funext e j
  show A V main_v29 (ix2 e j) = _
  rw [tab_apply, elu1_apply, pre2_apply]
  unfold Cert.GNN.eH2R Cert.GNN.mlp2
  refine congrArg Cert.GNN.elu (congrArg₂ (· + ·) (Finset.sum_congr rfl fun k _ => congrArg₂ (· * ·) ?_ rfl) rfl)
  exact (elu0_apply V _).trans (congrArg Cert.GNN.elu (pre1_line V hr e k))

theorem newEdges_line (hr : InRange V) (e : Fin 500000) (j : Fin 32) :
    A V main_v48 (ix2 e j)
      = Cert.GNN.newEdgesR (nodesV V) (edgesV V) (pairV V) (ew1V V) (eb1V V) (ew2V V) (eb2V V) (egV V) (ebtV V) e j := by
  rw [bn_apply, tab_line V hr]
  rfl

end Line

section Final

open Idealize.ShloMosaic.StableHlo Idealize.SL.Sem Cert.ReferenceIdeal.RRun

variable (m : (ℓ : Loc nD τ sig) → Buf (Elt Ideal) ℓ) (c : Dev nD)
  (hr : ∀ i : S500000x2.Idx, 0 ≤ (m ((c.tc : Thread nD τ).loc main_arg2) i).toInt ∧ (m ((c.tc : Thread nD τ).loc main_arg2) i).toInt < 100000)

abbrev V0 : Valuation τ sig (Elt Ideal) := fun b => m ((c : Dev nD), b)

include hr in
-- The new edge features over the launch contents: no operation writes an argument, so each holds at the end what the launch gave it.
theorem newEdges_final (e : Fin 500000) (j : Fin 32) :
    A (V0 m c) main_v48 (ix2 e j)
      = Cert.GNN.newEdgesR (RArgs.nodes m c) (RArgs.edges m c) (RArgs.pair m c) (RArgs.ew1 m c) (RArgs.eb1 m c)
          (RArgs.ew2 m c) (RArgs.eb2 m c) (RArgs.eg m c) (RArgs.ebt m c) e j := by
  have k : ∀ r : Ref sig .tc, r ∉ written → A (V0 m c) r = V0 m c (Proc.devRef .tc r) := fun _ h => after_keep h _
  refine (newEdges_line (V0 m c) (fun i => ?_) e j).trans ?_
  · show 0 ≤ (A (V0 m c) main_arg2 i).toInt ∧ (A (V0 m c) main_arg2 i).toInt < 100000
    rw [k main_arg2 (by decide)]
    exact hr i
  · unfold nodesV edgesV pairV ew1V eb1V ew2V eb2V egV ebtV
    rw [k main_arg0 (by decide), k main_arg1 (by decide), k main_arg2 (by decide), k main_arg3 (by decide), k main_arg4 (by decide),
      k main_arg5 (by decide), k main_arg6 (by decide), k main_arg7 (by decide), k main_arg8 (by decide)]

theorem v50 (m : (ℓ : Loc nD τ sig) → Buf (Elt Ideal) ℓ) (c : Dev nD)
    (hr : ∀ i : S500000x2.Idx, 0 ≤ (m ((c.tc : Thread nD τ).loc main_arg2) i).toInt ∧ (m ((c.tc : Thread nD τ).loc main_arg2) i).toInt < 100000)
    (e : Fin 500000) (j : Fin 32) :
    StableHlo.after (RRun.ops (F := Ideal)) (fun b => m ((c : Dev nD), b)) (Proc.devRef .tc main_v50) (ix2 e j)
      = Cert.GNN.newEdgesR (RArgs.nodes m c) (RArgs.edges m c) (RArgs.pair m c) (RArgs.ew1 m c) (RArgs.eb1 m c)
          (RArgs.ew2 m c) (RArgs.eb2 m c) (RArgs.eg m c) (RArgs.ebt m c) e j :=
  (v50_apply (V0 m c) e j).trans (newEdges_final m c hr e j)

theorem out1 (m : (ℓ : Loc nD τ sig) → Buf (Elt Ideal) ℓ) (c : Dev nD)
    (hr : ∀ i : S500000x2.Idx, 0 ≤ (m ((c.tc : Thread nD τ).loc main_arg2) i).toInt ∧ (m ((c.tc : Thread nD τ).loc main_arg2) i).toInt < 100000) :
    StableHlo.after (RRun.ops (F := Ideal)) (fun b => m ((c : Dev nD), b)) (Proc.devRef .tc main_v104) = RArgs.out1R m c := by
  funext i
  obtain ⟨a, e, j, rfl⟩ : ∃ (a : Fin 1) (e : Fin 500000) (j : Fin 32), i = ix3 a e j := ⟨i 0, i 1, i 2, eq_ix3 i⟩
  obtain rfl : a = 0 := Fin.eq_zero a
  refine (v104_apply (V0 m c) e j).trans ?_
  rw [show asF (A (V0 m c) main_v48) (ix2 e j) = _ from newEdges_final m c hr e j]
  exact congrArg (_ + ·) (congrFun (after_keep (r := main_arg1) (by decide) _) _)

end Final

end Cert.ReferenceIdeal.RValE

end
-- ==== Proof.RSegs.lean ====
import proofs.«419603_j44143673869053_2_alg».proof.Proof.RRun

noncomputable section

namespace Cert.ReferenceIdeal.RSegs

open Cert.ReferenceIdeal Idealize.ShloMosaic Idealize.SL.Sem Idealize.ShloMosaic.StableHlo

variable {F : FTy → Type} [FloatOps F]

theorem ops1_split : (RRun.ops1 : List (HloOp τ sig (Elt F))) = segS ++ (segP1 ++ (segE5 ++ (segP2 ++ (segE8 ++ segN)))) := rfl

theorem after_ops1 (V : Valuation τ sig (Elt F)) :
    after RRun.ops1 V = after segN (after segE8 (after segP2 (after segE5 (after segP1 (after segS V))))) := by
  rw [ops1_split, RRun.after_append, RRun.after_append, RRun.after_append, RRun.after_append, RRun.after_append]

end Cert.ReferenceIdeal.RSegs

end
-- ==== Proof.RNorm.lean ====
import proofs.«419603_j44143673869053_2_alg».proof.Proof.RSegs
import proofs.«419603_j44143673869053_2_alg».proof.Proof.RLibVar
import proofs.«419603_j44143673869053_2_alg».proof.Proof.LibRef
import Idealize.ShloMosaic.Lib.StableHlo.Run
import Idealize.ShloMosaic.Lib.ValueIdx
import Idealize.ShloMosaic.Lib.ValueLayout

set_option maxRecDepth 16384

noncomputable section

namespace Cert.ReferenceIdeal.RNorm

open Cert.ReferenceIdeal Cert.ReferenceIdeal.Gen Idealize.ShloMosaic Idealize.ShloMosaic.TcCoe Idealize.SL.Sem Idealize.ShloMosaic.StableHlo
open Idealize.ShloMosaic.ValueIdx Cert.GNN.Ref
open scoped BigOperators

set_option maxHeartbeats 4000000 in
-- mean taken off, scaled by the inverse root of variance plus offset, then gain and shift: the written-out normalisation
theorem segN_rows (X : Valuation τ sig (Elt Ideal)) :
    rows3 (after (RSegs.segN (F := Ideal)) X (Proc.devRef .tc main_v102))
      = Cert.GNN.bnR (rows3 (X (Proc.devRef .tc main_v81))) Cert.GNN.Nn Cert.GNN.eps
          (col1 (X (Proc.devRef .tc main_arg13))) (col1 (X (Proc.devRef .tc main_arg14))) := by
  funext n j
  unfold RSegs.segN
  after_results_simp
  refine (shapeCast_ab_1ab_apply _ shapeCasts_S100000x128_S1x100000x128 0 n j).trans ?_
  rw [show rows3 (X (Proc.devRef .tc main_v81))
      = rows2 (shapeCast S100000x128 (X (Proc.devRef .tc main_v81)) shapeCasts_S1x100000x128_S100000x128) from
    funext fun n => funext fun k => (shapeCast_1ab_ab_apply _ shapeCasts_S1x100000x128_S100000x128 n k).symm]
  unfold Cert.GNN.bnR
  refine (addf_apply _ _ _).trans (congrArg₂ (· + ·) ?_ (col_apply (by decide) _ _ _ n j))
  refine (mulf_apply _ _ _).trans (congrArg₂ (· * ·) ?_ (col_apply (by decide) _ _ _ n j))
  refine (mulf_apply _ _ _).trans (congrArg₂ (· * ·) ?_ ?_)
  · exact (subf_apply _ _ _).trans (congrArg₂ (· - ·) rfl
      ((col_apply (by decide) _ _ _ n j).trans (RLibVar.meanOut_apply _ _ _ _ j)))
  · refine (col_apply (by decide) _ _ _ n j).trans (congrArg Ideal.rsqrt (congrArg₂ (· + ·) ?_ (RLibVar.bcast_const_apply bcast_S_S128 _ _)))
    exact RLibVar.var_apply reducesTo_S100000x128_S128_d0 h_S_ bcast_S128_S1x128_1 bcast_S_S1x128 bcast_S1x128_S100000x128_0_1
      bcast_S_S128 _ (constantI S_ 32 0#32) rfl (constant (F := Ideal) S_ .f32 0x7FC00000#32) j

end Cert.ReferenceIdeal.RNorm

end
-- ==== Proof.RAgg.lean ====
import proofs.«419603_j44143673869053_2_alg».proof.ReferenceIdeal
import proofs.«419603_j44143673869053_2_alg».proof.Proof.Gen.ReferenceIdeal
import proofs.«419603_j44143673869053_2_alg».proof.Proof.Spec
import proofs.«419603_j44143673869053_2_alg».proof.Proof.LibIdx
import proofs.«419603_j44143673869053_2_alg».proof.Proof.RRun
import proofs.«419603_j44143673869053_2_alg».proof.Proof.RSegs
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.ReferenceIdeal.RAgg

open Idealize.ShloMosaic Idealize.ShloMosaic.ValueIdx Idealize.ShloMosaic.StableHlo Idealize.SL.Sem
open Cert.ReferenceIdeal Cert.ReferenceIdeal.Gen Cert.ReferenceIdeal.RRun
open scoped BigOperators

theorem keep {l : List (HloOp τ sig (Elt Ideal))} (hl : ∀ op ∈ l, op ∈ (ops : List (HloOp τ sig (Elt Ideal))))
    {r : Ref sig .tc} (hr : r ∉ written) (V : Valuation τ sig (Elt Ideal)) :
    after l V (Proc.devRef .tc r) = V (Proc.devRef .tc r) :=
  after_of_writes_sub l V
    (List.forall_iff_forall_mem.mpr fun op h => List.forall_iff_forall_mem.mp ops_writes_sub op (hl op h)) hr

theorem keep_of_writes {l : List (HloOp τ sig (Elt Ideal))} {W : List (Ref sig .tc)}
    (hW : l.map (fun op : HloOp τ sig (Elt Ideal) => op.writes)
      = W.map (fun y : Ref sig .tc => ({(Proc.devRef .tc y : DevRef τ sig)} : Finset (DevRef τ sig))))
    {r : Ref sig .tc} (hr : r ∉ W) (V : Valuation τ sig (Elt Ideal)) :
    after l V (Proc.devRef .tc r) = V (Proc.devRef .tc r) :=
  after_of_forall_not_mem l V fun op hop hmem => by
    have h : op.writes ∈ l.map (fun op : HloOp τ sig (Elt Ideal) => op.writes) := List.mem_map.mpr ⟨op, hop, rfl⟩
    rw [hW] at h
    obtain ⟨y, hy, e⟩ := List.mem_map.mp h
    rw [← e, Finset.mem_singleton] at hmem
    exact hr (Proc.devRef_injective _ hmem ▸ hy)

abbrev flatCol (o : Nat) (hs : S500000x2.Slices ![0, o] S500000x1) (pair : IVec S500000x2 32) : IVec S500000 32 :=
  shapeCast S500000 (extractStridedSlice S500000x1 ![0, o] pair hs) shapeCasts_S500000x1_S500000

def wrapCol (o : Nat) (hs : S500000x2.Slices ![0, o] S500000x1) (pair : IVec S500000x2 32) : IVec S500000x1 32 :=
  broadcastInDim S500000x1 ![0] bcast_S500000_S500000x1_0
    (select (cmpi .slt (flatCol o hs pair) (broadcastInDim S500000 ![] bcast_S_S500000 (constantI S_ 32 0#32)))
      (addi (flatCol o hs pair) (broadcastInDim S500000 ![] bcast_S_S500000 (constantI S_ 32 100000#32))) (flatCol o hs pair))

-- a word in range is not wrapped, so the column of start indices is column `q` of the table
theorem wrapCol_apply (o : Nat) (hs : S500000x2.Slices ![0, o] S500000x1) (q : Fin 2) (hq : q.val = o)
    (pair : IVec S500000x2 32) (e : Fin 500000)
    (h : 0 ≤ (pair (ix2 e q)).toInt ∧ (pair (ix2 e q)).toInt < 100000) :
    wrapCol o hs pair (ix2 e (0 : Fin 1)) = pair (ix2 e q) := by
  have hw : flatCol o hs pair (ix1 e) = pair (ix2 e q) :=
    (shapeCast_apply _ shapeCasts_S500000x1_S500000 (ix1 e) (ix2 e (0 : Fin 1)) (by
      rw [Shape.rowMajor_val_two, Shape.rowMajor_val_one]
      show e.val * 1 + 0 = e.val
      omega)).trans (slice2_axis1_apply o pair hs e 0 q (by show q.val = o + 0; omega))
  unfold wrapCol
  exact (broadcastInDim_apply _ bcast_S500000_S500000x1_0 _ (ix2 e (0 : Fin 1)) (ix1 e)
    fun a => match a with | ⟨0, _⟩ => rfl).trans
    ((Cert.GNN.Idx.wrap_eq (p := flatCol o hs pair (ix1 e)) (hw ▸ h)).trans hw)

def aggR (z : FVec Ideal S_ .f32) (pair : IVec S500000x2 32) (upd : FVec Ideal S500000x32 .f32) : FVec Ideal S100000x32 .f32 :=
  Host.scatterAdd scatter_S100000x32_S500000x1_S500000x32_1_0_0_1
    (Host.scatterAdd scatter_S100000x32_S500000x1_S500000x32_1_0_0_1
      (broadcastInDim S100000x32 ![] bcast_S_S100000x32 z)
      (wrapCol 0 slices_S500000x2_S500000x1_0_0 pair) upd)
    (wrapCol 1 slices_S500000x2_S500000x1_0_1 pair) upd

theorem aggR_apply (z : FVec Ideal S_ .f32) (pair : IVec S500000x2 32) (upd : FVec Ideal S500000x32 .f32)
    (hz : z ix0 = 0) (hr : ∀ i, 0 ≤ (pair i).toInt ∧ (pair i).toInt < 100000) (n : Fin 100000) (j : Fin 32) :
    aggR z pair upd (ix2 n j) = Cert.GNN.agg (fun e q => pair (ix2 e q)) (fun e k => upd (ix2 e k)) n j := by
  have c0 : ∀ e : Fin 500000, wrapCol 0 slices_S500000x2_S500000x1_0_0 pair (ix2 e (0 : Fin 1)) = pair (ix2 e (0 : Fin 2)) :=
    fun e => wrapCol_apply 0 _ 0 rfl pair e (hr _)
  have c1 : ∀ e : Fin 500000, wrapCol 1 slices_S500000x2_S500000x1_0_1 pair (ix2 e (0 : Fin 1)) = pair (ix2 e (1 : Fin 2)) :=
    fun e => wrapCol_apply 1 _ 1 rfl pair e (hr _)
  unfold aggR Cert.GNN.agg
  refine (Cert.GNN.Idx.scatterR_apply _ _ upd (fun e => by rw [c1 e]; exact hr _) n j).trans (congrArg₂ (· + ·)
    ((Cert.GNN.Idx.scatterR_apply _ _ upd (fun e => by rw [c0 e]; exact hr _) n j).trans (congrArg₂ (· + ·)
      ((broadcastInDim_scalar_apply bcast_S_S100000x32 z _).trans hz) ?_)) ?_) <;> simp only [c0, c1]

theorem segS_v69 (X : Valuation τ sig (Elt Ideal)) :
    after (RSegs.segS (F := Ideal)) X (Proc.devRef .tc main_v69)
      = aggR (X (Proc.devRef .tc main_cst_6)) (X (Proc.devRef .tc main_arg2)) (X (Proc.devRef .tc main_v50)) := by
  unfold RSegs.segS
  after_results_simp
  rfl

theorem cst6_after_ops0 (V : Valuation τ sig (Elt Ideal)) :
    after ops0 V (Proc.devRef .tc main_cst_6) = constant (F := Ideal) S_ .f32 0x00000000#32 := by
  rw [← List.take_append_drop 108 (ops0 : List (HloOp τ sig (Elt Ideal))), after_append]
  show after ([StableHlo.nullary main_cst_6 (constant (F := Ideal) S_ .f32 0x00000000#32)] : List (HloOp τ sig (Elt Ideal))) _ _ = _
  after_results_simp

-- entry (n, j) of the aggregate: column j summed over the edges whose first, then second, word names n
theorem agg_after_ops0 (V : Valuation τ sig (Elt Ideal))
    (hr : ∀ i : S500000x2.Idx, 0 ≤ ((V (Proc.devRef .tc main_arg2) : S500000x2.Idx → BitVec 32) i).toInt
      ∧ ((V (Proc.devRef .tc main_arg2) : S500000x2.Idx → BitVec 32) i).toInt < 100000)
    (n : Fin 100000) (j : Fin 32) :
    (after (RSegs.segS (F := Ideal)) (after ops0 V) (Proc.devRef .tc main_v69) : S100000x32.Idx → EReal) (ix2 n j)
      = Cert.GNN.agg (fun e q => (V (Proc.devRef .tc main_arg2) : S500000x2.Idx → BitVec 32) (ix2 e q))
          (fun e k => (after ops0 V (Proc.devRef .tc main_v50) : S500000x32.Idx → EReal) (ix2 e k)) n j := by
  rw [segS_v69, keep_of_writes ops0_writes (r := main_arg2) (by decide) V, cst6_after_ops0]
  exact aggR_apply _ _ _ Ideal.ofBits_zero_f32 hr n j

end Cert.ReferenceIdeal.RAgg

end
-- ==== Proof.RValN.lean ====
import proofs.«419603_j44143673869053_2_alg».proof.ReferenceIdeal
import proofs.«419603_j44143673869053_2_alg».proof.Proof.Gen.ReferenceIdeal
import proofs.«419603_j44143673869053_2_alg».proof.Proof.Spec
import proofs.«419603_j44143673869053_2_alg».proof.Proof.LibRef
import proofs.«419603_j44143673869053_2_alg».proof.Proof.RArgs
import proofs.«419603_j44143673869053_2_alg».proof.Proof.RRun
import proofs.«419603_j44143673869053_2_alg».proof.Proof.RSegs
import proofs.«419603_j44143673869053_2_alg».proof.Proof.RNorm
import proofs.«419603_j44143673869053_2_alg».proof.Proof.RAgg
import proofs.«419603_j44143673869053_2_alg».proof.Proof.RValE
import Idealize.ShloMosaic.Lib.ValueIdx
import Idealize.ShloMosaic.Lib.Pipeline.Value
import Idealize.ShloMosaic.Lib.StableHlo.Run

set_option maxRecDepth 16384

noncomputable section

namespace Cert.ReferenceIdeal.RValN

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.RNorm Cert.GNN.Ref
open scoped BigOperators

set_option maxHeartbeats 4000000 in
theorem rows_v75 (X : Valuation τ sig (Elt Ideal)) :
    rows3 (after (RSegs.segP1 (F := Ideal)) X (Proc.devRef .tc main_v75))
      = Cert.GNN.nPre1R (rows3 (X (Proc.devRef .tc main_arg0))) (rows2 (X (Proc.devRef .tc main_arg9)))
          (col1 (X (Proc.devRef .tc main_arg10))) (rows2 (X (Proc.devRef .tc main_v69))) := by
  funext n j
  unfold RSegs.segP1
  after_results
  refine (addf_apply _ _ _).trans (congrArg₂ (· + ·) ((dot_apply _ _ _ n j).trans ?_) (bias_apply (by decide) _ _ _ n j))
  refine Finset.sum_congr rfl fun k _ => congrArg (· * _) ?_
  unfold Cert.GNN.nCat
  by_cases hk : k.val < 128
  · rw [dif_pos hk]
    exact concatenate_pair_apply_left (s₁ := S1x100000x128) (2 : Fin 3) _ _ _ (ix3 0 n k) rfl (ix3 0 n ⟨k.val, hk⟩)
      (fun c => match c with | ⟨0, _⟩ => rfl | ⟨1, _⟩ => rfl | ⟨2, _⟩ => rfl)
  · rw [dif_neg hk]
    refine (concatenate_pair_apply_right (s₁ := S1x100000x128) (s₂ := S1x100000x32) (2 : Fin 3) _ _ _ (ix3 0 n k) rfl rfl (ix3 0 n ⟨k.val - 128, by omega⟩)
      (fun c hc => match c with | ⟨0, _⟩ => rfl | ⟨1, _⟩ => rfl | ⟨2, _⟩ => absurd rfl hc)
      (by show (k.val - 128) + 128 = k.val; omega)).trans
      (lead_apply (by decide) (by decide) _ bcast_S100000x32_S1x100000x32_1_2 n _)

set_option maxHeartbeats 4000000 in
theorem rows_v76 (X : Valuation τ sig (Elt Ideal)) :
    rows3 (after (RSegs.segE5 (F := Ideal)) X (Proc.devRef .tc main_v76))
      = fun n k => Cert.GNN.elu (rows3 (X (Proc.devRef .tc main_v75)) n k) := by
  funext n k
  unfold RSegs.segE5
  after_results_simp
  exact elu_apply bcast_S_S1x100000x256 _ _

set_option maxHeartbeats 4000000 in
theorem rows_v80 (X : Valuation τ sig (Elt Ideal)) :
    rows3 (after (RSegs.segP2 (F := Ideal)) X (Proc.devRef .tc main_v80))
      = fun n j => (∑ k : Fin 256, rows3 (X (Proc.devRef .tc main_v76)) n k * rows2 (X (Proc.devRef .tc main_arg11)) j k)
          + col1 (X (Proc.devRef .tc main_arg12)) j := by
  funext n j
  unfold RSegs.segP2
  after_results_simp
  exact (addf_apply _ _ _).trans (congrArg₂ (· + ·) (dot_apply _ _ _ n j) (bias_apply (by decide) _ _ _ n j))

set_option maxHeartbeats 4000000 in
theorem rows_v81 (X : Valuation τ sig (Elt Ideal)) :
    rows3 (after (RSegs.segE8 (F := Ideal)) X (Proc.devRef .tc main_v81))
      = fun n k => Cert.GNN.elu (rows3 (X (Proc.devRef .tc main_v80)) n k) := by
  funext n k
  unfold RSegs.segE8
  after_results_simp
  exact elu_apply bcast_S_S1x100000x128 _ _

set_option maxHeartbeats 4000000 in
theorem ops2_apply (Y : Valuation τ sig (Elt Ideal)) (n : Fin 100000) (j : Fin 128) :
    after (RRun.ops2 (F := Ideal)) Y (Proc.devRef .tc main_v103) (ix3 0 n j)
      = rows3 (Y (Proc.devRef .tc main_v102)) n j + rows3 (Y (Proc.devRef .tc main_arg0)) n j := by
  after_results_simp
  rfl

-- `X` agrees with `V` at every reference outside the written list
def Same (V X : Valuation τ sig (Elt Ideal)) : Prop :=
  ∀ r ∉ RRun.written, X (Proc.devRef .tc r) = V (Proc.devRef .tc r)

theorem Same.after {V X : Valuation τ sig (Elt Ideal)} (h : Same V X) {l : List (HloOp τ sig (Elt Ideal))}
    (hl : ∀ op ∈ l, op ∈ (RRun.ops : List (HloOp τ sig (Elt Ideal)))) : Same V (StableHlo.after l X) :=
  fun r hr => (RAgg.keep hl hr X).trans (h r hr)

set_option maxHeartbeats 4000000 in
theorem out0 (m : (ℓ : Loc nD τ sig) → Buf (Elt Ideal) ℓ) (c : Dev nD)
    (hr : ∀ i : S500000x2.Idx, 0 ≤ (m ((c.tc : Thread nD τ).loc main_arg2) i).toInt
      ∧ (m ((c.tc : Thread nD τ).loc main_arg2) i).toInt < 100000) :
    StableHlo.after (RRun.ops (F := Ideal)) (fun b => m ((c : Dev nD), b)) (Proc.devRef .tc main_v103) = RArgs.out0R m c := by
  funext i
  obtain ⟨a, n, j, rfl⟩ : ∃ (a : Fin 1) (n : Fin 100000) (j : Fin 128), i = ix3 a n j := ⟨i 0, i 1, i 2, eq_ix3 i⟩
  obtain rfl : a = 0 := Subsingleton.elim _ _
  have m1 : ∀ op ∈ (RRun.ops1 : List (HloOp τ sig (Elt Ideal))), op ∈ (RRun.ops : List (HloOp τ sig (Elt Ideal))) :=
    fun _ h => List.mem_append_left _ (List.mem_append_right _ h)
  have s0 : Same (fun b => m ((c : Dev nD), b)) (after (RRun.ops0 (F := Ideal)) (fun b => m ((c : Dev nD), b))) :=
    Same.after (fun _ _ => rfl) fun _ h => List.mem_append_left _ (List.mem_append_left _ h)
  have s1 := s0.after m1
  rw [RSegs.ops1_split] at m1
  simp only [List.forall_mem_append] at m1
  obtain ⟨mS, mP1, mE5, mP2, mE8, -⟩ := m1
  have sS := s0.after mS
  have s5 := (sS.after mP1).after mE5
  have s8 := (s5.after mP2).after mE8
  have h69 : rows2 (after (RSegs.segS (F := Ideal)) (after (RRun.ops0 (F := Ideal)) (fun b => m ((c : Dev nD), b)))
        (Proc.devRef .tc main_v69))
      = Cert.GNN.agg (RArgs.pair m c) (Cert.GNN.newEdgesR (RArgs.nodes m c) (RArgs.edges m c) (RArgs.pair m c)
          (RArgs.ew1 m c) (RArgs.eb1 m c) (RArgs.ew2 m c) (RArgs.eb2 m c) (RArgs.eg m c) (RArgs.ebt m c)) := by
    funext n k
    refine (RAgg.agg_after_ops0 (fun b => m ((c : Dev nD), b)) hr n k).trans (congrArg (Cert.GNN.agg _ · n k) ?_)
    funext e k
    rw [← RValE.v50 m c hr e k, RRun.after_ops, RAgg.keep_of_writes RRun.ops2_writes (by decide),
      RAgg.keep_of_writes RRun.ops1_writes (by decide)]
  rw [RRun.after_ops, ops2_apply, s1 main_arg0 (by decide), RSegs.after_ops1, segN_rows, rows_v81, rows_v80, rows_v76,
    rows_v75, h69, s8 main_arg13 (by decide), s8 main_arg14 (by decide), s5 main_arg11 (by decide),
    s5 main_arg12 (by decide), sS main_arg0 (by decide), sS main_arg9 (by decide), sS main_arg10 (by decide)]
  rfl

end Cert.ReferenceIdeal.RValN

end
-- ==== Proof.lean ====
import proofs.«419603_j44143673869053_2_alg».proof.Defs
import proofs.«419603_j44143673869053_2_alg».proof.Proof.Gen.Kernel
import proofs.«419603_j44143673869053_2_alg».proof.Proof.Gen.Kernel.Skeleton
import proofs.«419603_j44143673869053_2_alg».proof.Proof.Gen.Kernel.Launch
import proofs.«419603_j44143673869053_2_alg».proof.Proof.Gen.Kernel.Points
import proofs.«419603_j44143673869053_2_alg».proof.Proof.Gen.Kernel.Frame
import proofs.«419603_j44143673869053_2_alg».proof.Proof.Gen.KernelIdeal
import proofs.«419603_j44143673869053_2_alg».proof.Proof.Gen.KernelIdeal.Skeleton
import proofs.«419603_j44143673869053_2_alg».proof.Proof.Gen.KernelIdeal.Launch
import proofs.«419603_j44143673869053_2_alg».proof.Proof.Gen.KernelIdeal.Points
import proofs.«419603_j44143673869053_2_alg».proof.Proof.Gen.KernelIdeal.Frame
import proofs.«419603_j44143673869053_2_alg».proof.Proof.Gen.ReferenceIdeal
import proofs.«419603_j44143673869053_2_alg».proof.Proof.Gen.Pre_finite_inputs
import proofs.«419603_j44143673869053_2_alg».proof.Proof.Spec
import proofs.«419603_j44143673869053_2_alg».proof.Proof.Bridge
import proofs.«419603_j44143673869053_2_alg».proof.Proof.PreFacts
import proofs.«419603_j44143673869053_2_alg».proof.Proof.KArgs
import proofs.«419603_j44143673869053_2_alg».proof.Proof.RArgs
import proofs.«419603_j44143673869053_2_alg».proof.Proof.KRun
import proofs.«419603_j44143673869053_2_alg».proof.Proof.KTotal
import proofs.«419603_j44143673869053_2_alg».proof.Proof.RRun
import proofs.«419603_j44143673869053_2_alg».proof.Proof.RValE
import proofs.«419603_j44143673869053_2_alg».proof.Proof.RValN
import Idealize.ShloMosaic.Adequacy
import Idealize.ShloMosaic.Init

noncomputable section

namespace Cert.Proof

open Idealize.ShloMosaic Idealize.SL.Sem Idealize.ShloMosaic.ValueIdx

theorem frame_p : Cert.frame_Kernel := fun m ρ _ => Cert.Kernel.Gen.frame m ρ
theorem frame_pi : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2.2) (Cert.ReferenceIdeal.RRun.run (F := Ideal) m ρ)

theorem algebraic : Cert.algebraic_KernelIdeal_ReferenceIdeal := by
  intro m ρ m' ρ' hpre hagree
  refine ⟨fun c => Cert.KernelIdeal.KArgs.out0R m c, fun c => Cert.KernelIdeal.KArgs.out1R m c, ?_, ?_⟩
  · refine (θ_run (Cert.KernelIdeal.defs (F := Ideal)) _ _).mono (fun r h c => ?_) (Cert.KernelIdeal.KRun.run (F := Ideal) m ρ)
    obtain ⟨h85, h86, hargs⟩ := h c
    obtain ⟨hR, hr⟩ := Cert.PreFacts.real m hpre c
    exact ⟨h85.trans ((Cert.KernelIdeal.KTotal.out0 m ρ c hr).trans
        (funext fun i => congrFun (congrFun (Cert.GNN.nodesOut_eq _ hR) (i 1)) (i 2))),
      h86.trans ((Cert.KernelIdeal.KTotal.out1 m ρ c hr).trans
        (funext fun i => congrFun (congrFun (Cert.GNN.edgesOut_eq _ hR) (i 1)) (i 2))), hargs⟩
  · refine (θ_run (Cert.ReferenceIdeal.defs (F := Ideal)) _ _).mono (fun r h c => ?_) (Cert.ReferenceIdeal.RRun.run (F := Ideal) m' ρ')
    obtain ⟨h103, h104, hargs⟩ := h c
    obtain ⟨e0, e1, e2, e3, e4, e5, e6, e7, e8, e9, e10, e11, e12, e13, e14⟩ := hagree c
    have hr := (Cert.PreFacts.real m hpre c).2
    rw [← e2] at hr
    refine ⟨h103.trans ((Cert.ReferenceIdeal.RValN.out0 m' c hr).trans ?_), h104.trans ((Cert.ReferenceIdeal.RValE.out1 m' c hr).trans ?_), hargs⟩
    · delta Cert.ReferenceIdeal.RArgs.out0R Cert.ReferenceIdeal.RArgs.nodes Cert.ReferenceIdeal.RArgs.edges Cert.ReferenceIdeal.RArgs.pair Cert.ReferenceIdeal.RArgs.ew1 Cert.ReferenceIdeal.RArgs.eb1 Cert.ReferenceIdeal.RArgs.ew2 Cert.ReferenceIdeal.RArgs.eb2 Cert.ReferenceIdeal.RArgs.eg Cert.ReferenceIdeal.RArgs.ebt Cert.ReferenceIdeal.RArgs.nw1 Cert.ReferenceIdeal.RArgs.nb1 Cert.ReferenceIdeal.RArgs.nw2 Cert.ReferenceIdeal.RArgs.nb2 Cert.ReferenceIdeal.RArgs.ng Cert.ReferenceIdeal.RArgs.nbt
      rw [e0, e1, e2, e3, e4, e5, e6, e7, e8, e9, e10, e11, e12, e13, e14]
      rfl
    · delta Cert.ReferenceIdeal.RArgs.out1R Cert.ReferenceIdeal.RArgs.nodes Cert.ReferenceIdeal.RArgs.edges Cert.ReferenceIdeal.RArgs.pair Cert.ReferenceIdeal.RArgs.ew1 Cert.ReferenceIdeal.RArgs.eb1 Cert.ReferenceIdeal.RArgs.ew2 Cert.ReferenceIdeal.RArgs.eb2 Cert.ReferenceIdeal.RArgs.eg Cert.ReferenceIdeal.RArgs.ebt
      rw [e0, e1, e2, e3, e4, e5, e6, e7, e8]
      rfl

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
